-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xF149F2CA#32 ⊥
  ∧ IdealRules.named_const.Statement Cert.KernelIdeal.κ "pos_big" .f32 0x7149F2CA#32 ⊤
  ∧ IdealRules.named_const.Statement Cert.KernelIdeal.κ "neg_big" .f32 0xF149F2CA#32 ⊥
  ∧ IdealRules.named_const.Statement Cert.KernelIdeal.κ "pos_big" .f32 0x7149F2CA#32 ⊤
  ∧ IdealRules.named_const.Statement Cert.KernelIdeal.κ "neg_big" .f32 0xF149F2CA#32 ⊥
  ∧ IdealRules.named_const.Statement Cert.KernelIdeal.κ "pos_big" .f32 0x7149F2CA#32 ⊤
  ∧ IdealRules.named_const.Statement Cert.KernelIdeal.κ "neg_big" .f32 0xF149F2CA#32 ⊥
  ∧ IdealRules.named_const.Statement Cert.KernelIdeal.κ "pos_big" .f32 0x7149F2CA#32 ⊤
  ∧ IdealRules.named_const.Statement Cert.KernelIdeal.κ "neg_big" .f32 0xF149F2CA#32 ⊥
  ∧ IdealRules.named_const.Statement Cert.KernelIdeal.κ "pos_big" .f32 0x7149F2CA#32 ⊤
  ∧ IdealRules.named_const.Statement Cert.KernelIdeal.κ "neg_big" .f32 0xF149F2CA#32 ⊥
  ∧ IdealRules.named_const.Statement Cert.KernelIdeal.κ "pos_big" .f32 0x7149F2CA#32 ⊤

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096 : Shape := ⟨1, ![4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) (main_arg1 : FVec F S4096x2048 .f32) (main_arg2 : FVec F S4096x2048 .f32) (main_arg3 : IVec S4096 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  main_v13
-- ==== Kernel.lean ====
abbrev S4096x2048 : Shape := ⟨2, ![4096, 2048]⟩
abbrev S4096 : Shape := ⟨1, ![4096]⟩
abbrev S4096x1 : Shape := ⟨2, ![4096, 1]⟩
abbrev S1x4096 : Shape := ⟨2, ![1, 4096]⟩
abbrev S512x2048 : Shape := ⟨2, ![512, 2048]⟩
abbrev S512x1 : Shape := ⟨2, ![512, 1]⟩
abbrev S1x512 : Shape := ⟨2, ![1, 512]⟩
abbrev S512 : Shape := ⟨1, ![512]⟩
abbrev S512x512 : Shape := ⟨2, ![512, 512]⟩
abbrev S_ : Shape := ⟨0, ![]⟩

abbrev nBuf : Space → Nat
  | .hbm => 37
  | .vmem => 42
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096, .i32⟩
  | .hbm, ⟨4, _⟩ => ⟨S4096x1, .i32⟩
  | .hbm, ⟨5, _⟩ => ⟨S1x4096, .i32⟩
  | .hbm, ⟨6, _⟩ => ⟨S4096x1, .f32⟩
  | .hbm, ⟨7, _⟩ => ⟨S4096x1, .f32⟩
  | .hbm, ⟨8, _⟩ => ⟨S4096, .f32⟩
  | .hbm, ⟨9, _⟩ => ⟨S4096, .f32⟩
  | .hbm, ⟨10, _⟩ => ⟨S4096x1, .i32⟩
  | .hbm, ⟨11, _⟩ => ⟨S1x4096, .i32⟩
  | .hbm, ⟨12, _⟩ => ⟨S4096x1, .f32⟩
  | .hbm, ⟨13, _⟩ => ⟨S4096x1, .f32⟩
  | .hbm, ⟨14, _⟩ => ⟨S4096, .f32⟩
  | .hbm, ⟨15, _⟩ => ⟨S4096, .f32⟩
  | .hbm, ⟨16, _⟩ => ⟨S4096x1, .i32⟩
  | .hbm, ⟨17, _⟩ => ⟨S1x4096, .i32⟩
  | .hbm, ⟨18, _⟩ => ⟨S4096x1, .f32⟩
  | .hbm, ⟨19, _⟩ => ⟨S4096x1, .f32⟩
  | .hbm, ⟨20, _⟩ => ⟨S4096, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .f32⟩
  | .local _ .vmem, ⟨18, _⟩ => ⟨S512x1, .i32⟩
  | .local _ .vmem, ⟨19, _⟩ => ⟨S512x1, .i32⟩
  | .local _ .vmem, ⟨20, _⟩ => ⟨S1x512, .i32⟩
  | .local _ .vmem, ⟨21, _⟩ => ⟨S1x512, .i32⟩
  | .local _ .vmem, ⟨22, _⟩ => ⟨S512x1, .f32⟩
  | .local _ .vmem, ⟨23, _⟩ => ⟨S512x1, .f32⟩
  | .local _ .vmem, ⟨24, _⟩ => ⟨S512x1, .f32⟩
  | .local _ .vmem, ⟨25, _⟩ => ⟨S512x1, .f32⟩
  | .local _ .vmem, ⟨26, _⟩ => ⟨S512x1, .f32⟩
  | .local _ .vmem, ⟨27, _⟩ => ⟨S512x1, .f32⟩
  | .local _ .vmem, ⟨28, _⟩ => ⟨S512x2048, .f32⟩
  | .local _ .vmem, ⟨29, _⟩ => ⟨S512x2048, .f32⟩
  | .local _ .vmem, ⟨30, _⟩ => ⟨S512x2048, .f32⟩
  | .local _ .vmem, ⟨31, _⟩ => ⟨S512x2048, .f32⟩
  | .local _ .vmem, ⟨32, _⟩ => ⟨S512x1, .i32⟩
  | .local _ .vmem, ⟨33, _⟩ => ⟨S512x1, .i32⟩
  | .local _ .vmem, ⟨34, _⟩ => ⟨S1x512, .i32⟩
  | .local _ .vmem, ⟨35, _⟩ => ⟨S1x512, .i32⟩
  | .local _ .vmem, ⟨36, _⟩ => ⟨S512x1, .f32⟩
  | .local _ .vmem, ⟨37, _⟩ => ⟨S512x1, .f32⟩
  | .local _ .vmem, ⟨38, _⟩ => ⟨S512x1, .f32⟩
  | .local _ .vmem, ⟨39, _⟩ => ⟨S512x1, .f32⟩
  | .local _ .vmem, ⟨40, _⟩ => ⟨S512x1, .f32⟩
  | .local _ .vmem, ⟨41, _⟩ => ⟨S512x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_scratch0 : Ref sig .tc := ⟨.vmem, 26, rfl⟩
abbrev cc1_scratch1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg4_1 : Ref sig .tc := ⟨.vmem, 37, rfl⟩
abbrev cc2_stg5_0 : Ref sig .tc := ⟨.vmem, 38, rfl⟩
abbrev cc2_stg5_1 : Ref sig .tc := ⟨.vmem, 39, rfl⟩
abbrev cc2_scratch0 : Ref sig .tc := ⟨.vmem, 40, rfl⟩
abbrev cc2_scratch1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc2_sem5_0 : DmaSem sig := 34
abbrev cc2_sem5_1 : DmaSem sig := 35

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v49 : BitVec 1 := Scalar.cmpi .eq arg1 c7_i32
  let v50 : BitVec 32 := Scalar.extui v49
  let c0_i32_24 : BitVec 32 := 0#32
  let v51 : BitVec 1 := Scalar.cmpi .ne v50 c0_i32_24
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v49 : BitVec 1 := Scalar.cmpi .eq arg1 c7_i32
  let v50 : BitVec 32 := Scalar.extui v49
  let c0_i32_24 : BitVec 32 := 0#32
  let v51 : BitVec 1 := Scalar.cmpi .ne v50 c0_i32_24
  v51

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v49 : BitVec 1 := Scalar.cmpi .eq arg1 c7_i32
  let v50 : BitVec 32 := Scalar.extui v49
  let c0_i32_24 : BitVec 32 := 0#32
  let v51 : BitVec 1 := Scalar.cmpi .ne v50 c0_i32_24
  v51

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x512 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S512x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S512x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  shapeCasts_S4096_S4096x1 : S4096.ShapeCasts S4096x1
  shapeCasts_S4096_S1x4096 : S4096.ShapeCasts S1x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  transposes_S512x1_p1_0_S1x512 : S512x1.Transposes [1, 0] S1x512
  bitsLt_bf16_f32 : FTy.bits .bf16 < FTy.bits .f32
  broadcasts_S512x1_S512x512 : S512x1.Broadcasts S512x512
  broadcasts_S1x512_S512x512 : S1x512.Broadcasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S512x512_S512 : S512x512.Reduces [1] S512
  shapeCasts_S4096x1_S4096 : S4096x1.ShapeCasts S4096
  bcast_S_S4096 : S_.BroadcastsInDim S4096 (![] : Fin 0 → Fin S4096.rank)
  reducesTo_S4096_S_d0 : S4096.ReducesTo [0] S_
  h_S_ : 0 < S_.numel
  dot_S512x2048_S512x2048_S512x512_1_1_0_0_n_n_wf : DotDims.WF S512x2048 S512x2048 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .f32 = 32 ∨ (Rect.block (s := S4096x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .i32 = 32 ∨ (Rect.block (s := S1x4096) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .f32 = 32 ∨ (Rect.block (s := S4096x1) S512x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x2048.size a
  hwx1_0 : ∀ i : grid1.Coords, EltTy.bits .f32 = 32 ∨ (Rect.block (s := S4096x2048) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S4096x2048.size a
  hwx1_1 : ∀ i : grid1.Coords, EltTy.bits .f32 = 32 ∨ (Rect.block (s := S4096x2048) S512x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .i32 = 32 ∨ (Rect.block (s := S4096x1) S512x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x4096.size a
  hwx1_3 : ∀ i : grid1.Coords, EltTy.bits .i32 = 32 ∨ (Rect.block (s := S1x4096) S1x512.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S4096x1.size a
  hwx1_4 : ∀ i : grid1.Coords, EltTy.bits .f32 = 32 ∨ (Rect.block (s := S4096x1) S512x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S4096x1.size a
  hwx1_5 : ∀ i : grid1.Coords, EltTy.bits .f32 = 32 ∨ (Rect.block (s := S4096x1) S512x1.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S4096x2048.size a
  hwx2_0 : ∀ i : grid2.Coords, EltTy.bits .f32 = 32 ∨ (Rect.block (s := S4096x2048) S512x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x2048.size a ≤ S4096x2048.size a
  hwx2_1 : ∀ i : grid2.Coords, EltTy.bits .f32 = 32 ∨ (Rect.block (s := S4096x2048) S512x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S4096x1.size a
  hwx2_2 : ∀ i : grid2.Coords, EltTy.bits .i32 = 32 ∨ (Rect.block (s := S4096x1) S512x1.size (cc2_transform_2 i) (hinb2_2 i)).WholeWords (EltTy.packing .i32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x4096.size a
  hwx2_3 : ∀ i : grid2.Coords, EltTy.bits .i32 = 32 ∨ (Rect.block (s := S1x4096) S1x512.size (cc2_transform_3 i) (hinb2_3 i)).WholeWords (EltTy.packing .i32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x1.size a ≤ S4096x1.size a
  hwx2_4 : ∀ i : grid2.Coords, EltTy.bits .f32 = 32 ∨ (Rect.block (s := S4096x1) S512x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x1.size a ≤ S4096x1.size a
  hwx2_5 : ∀ i : grid2.Coords, EltTy.bits .f32 = 32 ∨ (Rect.block (s := S4096x1) S512x1.size (cc2_transform_5 i) (hinb2_5 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7_0) S512x1.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v7_1) S512x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

abbrev win2_0 : Pipeline.Window sig grid2 :=
  Pipeline.Window.ofSpec (Memref.whole main_arg2) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S512x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S512x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v11) S1x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v12_0) S512x1.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v12_1) S512x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun i => !(k2_cond2 i == 1#1) | 5 => fun i => !(k2_cond2 i == 1#1) | ⟨_ + 6, h⟩ => absurd h (Nat.not_lt.2 (Nat.le_add_left _ _))

class Facts : Prop extends Facts₀ where

variable [Facts]
-- ==== ReferenceIdeal.lean ====
abbrev S4096x2048 : Shape := ⟨2, ![4096, 2048]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S2048x4096 : Shape := ⟨2, ![2048, 4096]⟩

abbrev nBuf : Space → Nat
  | .hbm => 111
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096, .i32⟩
  | .hbm, ⟨4, _⟩ => ⟨S4096x1, .i32⟩
  | .hbm, ⟨5, _⟩ => ⟨S1x4096, .i32⟩
  | .hbm, ⟨6, _⟩ => ⟨S4096x4096, .i32⟩
  | .hbm, ⟨7, _⟩ => ⟨S4096x4096, .i32⟩
  | .hbm, ⟨8, _⟩ => ⟨S4096x4096, .i1⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S1x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S2048x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096, .f32⟩
  | .hbm, ⟨38, _⟩ => ⟨S4096x2048, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S1x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S2048x4096, .f32⟩
  | .hbm, ⟨47, _⟩ => ⟨S4096x4096, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S_, .f32⟩
  | .hbm, ⟨54, _⟩ => ⟨S4096x4096, .f32⟩
  | .hbm, ⟨55, _⟩ => ⟨S4096x4096, .f32⟩
  | .hbm, ⟨56, _⟩ => ⟨S4096x4096, .f32⟩
  | .hbm, ⟨57, _⟩ => ⟨S_, .f32⟩
  | .hbm, ⟨58, _⟩ => ⟨S4096x4096, .f32⟩
  | .hbm, ⟨59, _⟩ => ⟨S4096x4096, .f32⟩
  | .hbm, ⟨60, _⟩ => ⟨S_, .f32⟩
  | .hbm, ⟨61, _⟩ => ⟨S4096, .f32⟩
  | .hbm, ⟨62, _⟩ => ⟨S_, .f32⟩
  | .hbm, ⟨63, _⟩ => ⟨S4096x4096, .f32⟩
  | .hbm, ⟨64, _⟩ => ⟨S4096x4096, .f32⟩
  | .hbm, ⟨65, _⟩ => ⟨S_, .f32⟩
  | .hbm, ⟨66, _⟩ => ⟨S4096, .f32⟩
  | .hbm, ⟨67, _⟩ => ⟨S4096x2048, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S1x4096, .f32⟩
  | .hbm, ⟨72, _⟩ => ⟨S4096x4096, .f32⟩
  | .hbm, ⟨73, _⟩ => ⟨S4096x4096, .f32⟩
  | .hbm, ⟨74, _⟩ => ⟨S4096x4096, .f32⟩
  | .hbm, ⟨75, _⟩ => ⟨S2048x4096, .f32⟩
  | .hbm, ⟨76, _⟩ => ⟨S4096x4096, .f32⟩
  | .hbm, ⟨77, _⟩ => ⟨S_, .f32⟩
  | .hbm, ⟨78, _⟩ => ⟨S4096x4096, .f32⟩
  | .hbm, ⟨79, _⟩ => ⟨S4096x4096, .f32⟩
  | .hbm, ⟨80, _⟩ => ⟨S4096x4096, .f32⟩
  | .hbm, ⟨81, _⟩ => ⟨S_, .f32⟩
  | .hbm, ⟨82, _⟩ => ⟨S_, .f32⟩
  | .hbm, ⟨83, _⟩ => ⟨S4096x4096, .f32⟩
  | .hbm, ⟨84, _⟩ => ⟨S4096x4096, .f32⟩
  | .hbm, ⟨85, _⟩ => ⟨S4096x4096, .f32⟩
  | .hbm, ⟨86, _⟩ => ⟨S_, .f32⟩
  | .hbm, ⟨87, _⟩ => ⟨S4096x4096, .f32⟩
  | .hbm, ⟨88, _⟩ => ⟨S4096x4096, .f32⟩
  | .hbm, ⟨89, _⟩ => ⟨S_, .f32⟩
  | .hbm, ⟨90, _⟩ => ⟨S4096, .f32⟩
  | .hbm, ⟨91, _⟩ => ⟨S_, .f32⟩
  | .hbm, ⟨92, _⟩ => ⟨S4096x4096, .f32⟩
  | .hbm, ⟨93, _⟩ => ⟨S4096x4096, .f32⟩
  | .hbm, ⟨94, _⟩ => ⟨S_, .f32⟩
  | .hbm, ⟨95, _⟩ => ⟨S4096, .f32⟩
  | .hbm, ⟨96, _⟩ => ⟨S4096, .f32⟩
  | .hbm, ⟨97, _⟩ => ⟨S4096, .f32⟩
  | .hbm, ⟨98, _⟩ => ⟨S4096, .f32⟩
  | .hbm, ⟨99, _⟩ => ⟨S4096, .f32⟩
  | .hbm, ⟨100, _⟩ => ⟨S4096, .f32⟩
  | .hbm, ⟨101, _⟩ => ⟨S_, .f32⟩
  | .hbm, ⟨102, _⟩ => ⟨S4096, .f32⟩
  | .hbm, ⟨103, _⟩ => ⟨S4096, .f32⟩
  | .hbm, ⟨104, _⟩ => ⟨S_, .f32⟩
  | .hbm, ⟨105, _⟩ => ⟨S4096, .f32⟩
  | .hbm, ⟨106, _⟩ => ⟨S4096, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_call1_v0 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_cst_4 : Ref sig .tc := ⟨.hbm, 33, rfl⟩
abbrev main_call2_v0 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_call3_v0 : Ref sig .tc := ⟨.hbm, 53, rfl⟩
abbrev main_call3_v1 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_call4_v0 : Ref sig .tc := ⟨.hbm, 58, rfl⟩
abbrev main_v37 : Ref sig .tc := ⟨.hbm, 59, rfl⟩
abbrev main_cst_10 : Ref sig .tc := ⟨.hbm, 60, rfl⟩
abbrev main_v38 : Ref sig .tc := ⟨.hbm, 61, rfl⟩
abbrev main_cst_11 : Ref sig .tc := ⟨.hbm, 62, rfl⟩
abbrev main_call5_v0 : Ref sig .tc := ⟨.hbm, 63, rfl⟩
abbrev main_v39 : Ref sig .tc := ⟨.hbm, 64, rfl⟩
abbrev main_cst_12 : Ref sig .tc := ⟨.hbm, 65, rfl⟩
abbrev main_v40 : Ref sig .tc := ⟨.hbm, 66, rfl⟩
abbrev main_v41 : Ref sig .tc := ⟨.hbm, 67, rfl⟩
abbrev main_cst_13 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_14 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_15 : Ref sig .tc := ⟨.hbm, 81, rfl⟩
abbrev main_call6_v0 : Ref sig .tc := ⟨.hbm, 82, rfl⟩
abbrev main_call6_v1 : Ref sig .tc := ⟨.hbm, 83, rfl⟩
abbrev main_v53 : Ref sig .tc := ⟨.hbm, 84, rfl⟩
abbrev main_v54 : Ref sig .tc := ⟨.hbm, 85, rfl⟩
abbrev main_cst_16 : Ref sig .tc := ⟨.hbm, 86, rfl⟩
abbrev main_call7_v0 : Ref sig .tc := ⟨.hbm, 87, rfl⟩
abbrev main_v55 : Ref sig .tc := ⟨.hbm, 88, rfl⟩
abbrev main_cst_17 : Ref sig .tc := ⟨.hbm, 89, rfl⟩
abbrev main_v56 : Ref sig .tc := ⟨.hbm, 90, rfl⟩
abbrev main_cst_18 : Ref sig .tc := ⟨.hbm, 91, rfl⟩
abbrev main_call8_v0 : Ref sig .tc := ⟨.hbm, 92, rfl⟩
abbrev main_v57 : Ref sig .tc := ⟨.hbm, 93, rfl⟩
abbrev main_cst_19 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_20 : Ref sig .tc := ⟨.hbm, 101, rfl⟩
abbrev main_v64 : Ref sig .tc := ⟨.hbm, 102, rfl⟩
abbrev main_v65 : Ref sig .tc := ⟨.hbm, 103, rfl⟩
abbrev main_cst_21 : Ref sig .tc := ⟨.hbm, 104, rfl⟩
abbrev main_v66 : Ref sig .tc := ⟨.hbm, 105, rfl⟩
abbrev main_v67 : Ref sig .tc := ⟨.hbm, 106, rfl⟩
abbrev main_cst_22 : Ref sig .tc := ⟨.hbm, 107, rfl⟩
abbrev main_v68 : Ref sig .tc := ⟨.hbm, 108, rfl⟩
abbrev main_cst_23 : Ref sig .tc := ⟨.hbm, 109, rfl⟩
abbrev main_v69 : Ref sig .tc := ⟨.hbm, 110, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  reducesTo_S4096x2048_S4096_d1 : S4096x2048.ReducesTo [1] S4096
  h_S_ : 0 < S_.numel
  transposes_S4096x2048_S2048x4096_1_0 : S4096x2048.Transposes [1, 0] S2048x4096
  bcast_S_S4096x4096 : S_.BroadcastsInDim S4096x4096 (![] : Fin 0 → Fin S4096x4096.rank)
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  dot_S4096x2048_S2048x4096_S4096x4096_1_0_0_1_n_n_wf : DotDims.WF S4096x2048 S2048x4096 S4096x4096 [1] [0] [0] [1] [] []

variable [Facts₀]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf

class Facts : Prop extends Facts₀ where

variable [Facts]
-- ==== Proof.K.Body.lean ====
/- The body every launch runs, once per case of the column step, and what each case leaves: the running row maximum and
   minimum take in the tile's row maxima and minima; the first step restarts them; the last also writes them out. -/
import proofs.«145578_j51728586113513_1_alg».proof.Proof.Gen.Kernel.Launch
import proofs.«145578_j51728586113513_1_alg».proof.Proof.Gen.Kernel.Skeleton
import proofs.«145578_j51728586113513_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

theorem hz : (![0, 0] : Fin 2 → Nat) = fun _ => 0 := funext fun a => by fin_cases a <;> rfl

variable (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole)

section
variable (hc0 : condFirst i) (hc1 : ¬condLast i) (x0 : Vec F S512x2048 .f32) (x1 : Vec F S512x2048 .f32) (x2 : Vec F S512x1 .i32) (x3 : Vec F S1x512 .i32)
include hc0 hc1 in
/-- First column step: whatever the two running values were, they restart from the fill values. -/
theorem bodyA (xi4 xi5 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xi5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ owns (c : Thread nD τ) arg8 fullShare (k0_pay1 (k0_pay7 x0 x1 x2 x3) (k0_pay3 (F := F))) ∗ owns (c : Thread nD τ) arg9 fullShare (k0_pay2 (k0_pay8 x0 x1 x2 x3) (k0_pay4 (F := F)))) -∗ K ⟨⟩))
      ⊢ wp frame (wpE (defs₀ (F := F)) Variants.none c none) E (cc0__hardest_kernel i arg2 harg2 arg3 harg3 arg4 harg4 arg5 harg5 arg6 harg6 arg7 harg7 arg8 harg8 arg9 harg9) K := by
  simp only [cc0__hardest_kernel_eq_skeleton]; unfold cc0__hardest_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [HS0]
  · iexists _; isplitr
    swap; · iexact HS0
    ipureintro
    refine (View.read_writes_eq_canon _ _ _ (View.cover_of_tiledL _ S512x1.size (by sl_kernel_rfl))).trans ?_
    sl_unfold_words
    first
      | rw [View.canon_unit_zero (S := S512x1) hz]
      | rw [View.canon_cons_unit_zero (S := S512x1) hz]
    simp only [View.readAt_eq_ld, harg2.read_unread, harg3.read_unread, harg4.read_unread, harg5.read_unread, harg8.read_unread, harg9.read_unread,
    View.readCov_unit_zero (S := S512x1) _ hz,
    View.ld_unit_zero (S := S512x2048) hz, View.ld_unit_zero (S := S512x1) hz, View.ld_unit_zero (S := S1x512) hz]
  · iexists _; isplitr
    swap; · iexact HS1
    ipureintro
    refine (View.read_writes_eq_canon _ _ _ (View.cover_of_tiledL _ S512x1.size (by sl_kernel_rfl))).trans ?_
    sl_unfold_words
    first
      | rw [View.canon_unit_zero (S := S512x1) hz]
      | rw [View.canon_cons_unit_zero (S := S512x1) hz]
    simp only [View.readAt_eq_ld, harg2.read_unread, harg3.read_unread, harg4.read_unread, harg5.read_unread, harg8.read_unread, harg9.read_unread,
    View.readCov_unit_zero (S := S512x1) _ hz,
    View.ld_unit_zero (S := S512x2048) hz, View.ld_unit_zero (S := S512x1) hz, View.ld_unit_zero (S := S1x512) hz]
end

section
variable (hc0 : ¬condFirst i) (hc1 : ¬condLast i) (x0 : Vec F S512x2048 .f32) (x1 : Vec F S512x2048 .f32) (x2 : Vec F S512x1 .i32) (x3 : Vec F S1x512 .i32) (xs0 : Vec F S512x1 .f32) (xs1 : Vec F S512x1 .f32)
include hc0 hc1 in
/-- Inner column step: the running maximum and minimum take in the tile's row maxima and minima. -/
theorem bodyB (xi4 xi5 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xi5
        ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ owns (c : Thread nD τ) arg8 fullShare (k0_pay1 (k0_pay7 x0 x1 x2 x3) xs0) ∗ owns (c : Thread nD τ) arg9 fullShare (k0_pay2 (k0_pay8 x0 x1 x2 x3) xs1)) -∗ K ⟨⟩))
      ⊢ wp frame (wpE (defs₀ (F := F)) Variants.none c none) E (cc0__hardest_kernel i arg2 harg2 arg3 harg3 arg4 harg4 arg5 harg5 arg6 harg6 arg7 harg7 arg8 harg8 arg9 harg9) K := by
  simp only [cc0__hardest_kernel_eq_skeleton]; unfold cc0__hardest_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hfs0; obtain rfl := harg9.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [HS0]
  · iexists _; isplitr
    swap; · iexact HS0
    ipureintro
    refine (View.read_writes_eq_canon _ _ _ (View.cover_of_tiledL _ S512x1.size (by sl_kernel_rfl))).trans ?_
    sl_unfold_words
    first
      | rw [View.canon_unit_zero (S := S512x1) hz]
      | rw [View.canon_cons_unit_zero (S := S512x1) hz]
    simp only [View.readAt_eq_ld, harg2.read_unread, harg3.read_unread, harg4.read_unread, harg5.read_unread, harg8.read_unread, harg9.read_unread,
    View.readCov_unit_zero (S := S512x1) _ hz,
    View.ld_unit_zero (S := S512x2048) hz, View.ld_unit_zero (S := S512x1) hz, View.ld_unit_zero (S := S1x512) hz]
  · iexists _; isplitr
    swap; · iexact HS1
    ipureintro
    refine (View.read_writes_eq_canon _ _ _ (View.cover_of_tiledL _ S512x1.size (by sl_kernel_rfl))).trans ?_
    sl_unfold_words
    first
      | rw [View.canon_unit_zero (S := S512x1) hz]
      | rw [View.canon_cons_unit_zero (S := S512x1) hz]
    simp only [View.readAt_eq_ld, harg2.read_unread, harg3.read_unread, harg4.read_unread, harg5.read_unread, harg8.read_unread, harg9.read_unread,
    View.readCov_unit_zero (S := S512x1) _ hz,
    View.ld_unit_zero (S := S512x2048) hz, View.ld_unit_zero (S := S512x1) hz, View.ld_unit_zero (S := S1x512) hz]
end

section
variable (hc0 : ¬condFirst i) (hc1 : condLast i) (x0 : Vec F S512x2048 .f32) (x1 : Vec F S512x2048 .f32) (x2 : Vec F S512x1 .i32) (x3 : Vec F S1x512 .i32) (xs0 : Vec F S512x1 .f32) (xs1 : Vec F S512x1 .f32)
include hc0 hc1 in
/-- Last column step: as an inner step, and the two results take the running values. -/
theorem bodyC (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay1 (k0_pay7 x0 x1 x2 x3) xs0) ∗ owns (c : Thread nD τ) arg7 fullShare (k0_pay2 (k0_pay8 x0 x1 x2 x3) xs1)
            ∗ owns (c : Thread nD τ) arg8 fullShare (k0_pay1 (k0_pay7 x0 x1 x2 x3) xs0) ∗ owns (c : Thread nD τ) arg9 fullShare (k0_pay2 (k0_pay8 x0 x1 x2 x3) xs1)) -∗ K ⟨⟩))
      ⊢ wp frame (wpE (defs₀ (F := F)) Variants.none c none) E (cc0__hardest_kernel i arg2 harg2 arg3 harg3 arg4 harg4 arg5 harg5 arg6 harg6 arg7 harg7 arg8 harg8 arg9 harg9) K := by
  simp only [cc0__hardest_kernel_eq_skeleton]; unfold cc0__hardest_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg8.eq_unread hfs0; obtain rfl := harg9.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (View.read_writes_eq_canon _ _ _ (View.cover_of_tiledL _ S512x1.size (by sl_kernel_rfl))).trans ?_
    sl_unfold_words
    first
      | rw [View.canon_unit_zero (S := S512x1) hz]
      | rw [View.canon_cons_unit_zero (S := S512x1) hz]
    simp only [View.readAt_eq_ld, harg2.read_unread, harg3.read_unread, harg4.read_unread, harg5.read_unread, harg8.read_unread, harg9.read_unread,
    View.readCov_unit_zero (S := S512x1) _ hz,
    View.ld_unit_zero (S := S512x2048) hz, View.ld_unit_zero (S := S512x1) hz, View.ld_unit_zero (S := S1x512) hz]
  isplitl [H5]
  · iexists _; isplitr
    swap; · iexact H5
    ipureintro
    refine (View.read_writes_eq_canon _ _ _ (View.cover_of_tiledL _ S512x1.size (by sl_kernel_rfl))).trans ?_
    sl_unfold_words
    first
      | rw [View.canon_unit_zero (S := S512x1) hz]
      | rw [View.canon_cons_unit_zero (S := S512x1) hz]
    simp only [View.readAt_eq_ld, harg2.read_unread, harg3.read_unread, harg4.read_unread, harg5.read_unread, harg8.read_unread, harg9.read_unread,
    View.readCov_unit_zero (S := S512x1) _ hz,
    View.ld_unit_zero (S := S512x2048) hz, View.ld_unit_zero (S := S512x1) hz, View.ld_unit_zero (S := S1x512) hz]
  isplitl [HS0]
  · iexists _; isplitr
    swap; · iexact HS0
    ipureintro
    refine (View.read_writes_eq_canon _ _ _ (View.cover_of_tiledL _ S512x1.size (by sl_kernel_rfl))).trans ?_
    sl_unfold_words
    first
      | rw [View.canon_unit_zero (S := S512x1) hz]
      | rw [View.canon_cons_unit_zero (S := S512x1) hz]
    simp only [View.readAt_eq_ld, harg2.read_unread, harg3.read_unread, harg4.read_unread, harg5.read_unread, harg8.read_unread, harg9.read_unread,
    View.readCov_unit_zero (S := S512x1) _ hz,
    View.ld_unit_zero (S := S512x2048) hz, View.ld_unit_zero (S := S512x1) hz, View.ld_unit_zero (S := S1x512) hz]
  · iexists _; isplitr
    swap; · iexact HS1
    ipureintro
    refine (View.read_writes_eq_canon _ _ _ (View.cover_of_tiledL _ S512x1.size (by sl_kernel_rfl))).trans ?_
    sl_unfold_words
    first
      | rw [View.canon_unit_zero (S := S512x1) hz]
      | rw [View.canon_cons_unit_zero (S := S512x1) hz]
    simp only [View.readAt_eq_ld, harg2.read_unread, harg3.read_unread, harg4.read_unread, harg5.read_unread, harg8.read_unread, harg9.read_unread,
    View.readCov_unit_zero (S := S512x1) _ hz,
    View.ld_unit_zero (S := S512x2048) hz, View.ld_unit_zero (S := S512x1) hz, View.ld_unit_zero (S := S1x512) hz]
end

end Cert.Kernel.Hand

end
-- ==== Proof.K.Dat0.lean ====
/- One launch, point by point: what its two results and the running row maximum and minimum are after each grid point, and
   that the body run at a point takes them from the point before to this one. -/
import proofs.«145578_j51728586113513_1_alg».proof.Proof.K.Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

theorem liveAtR0_0 : ∀ t : Fin cfg0.N, cfg0.idle 0 (grid0.coords t) = false := by decide +kernel
theorem liveAtR0_1 : ∀ t : Fin cfg0.N, cfg0.idle 1 (grid0.coords t) = false := by decide +kernel
theorem liveAtR0_2 : ∀ t : Fin cfg0.N, cfg0.idle 2 (grid0.coords t) = false := by decide +kernel
theorem liveAtR0_3 : ∀ t : Fin cfg0.N, cfg0.idle 3 (grid0.coords t) = false := by decide +kernel
theorem idleAtR0_4 : ∀ t : Fin cfg0.N, ¬condLast (grid0.coords t) → cfg0.idle 4 (grid0.coords t) = true := by decide +kernel
theorem idleAtR0_5 : ∀ t : Fin cfg0.N, ¬condLast (grid0.coords t) → cfg0.idle 5 (grid0.coords t) = true := by decide +kernel
theorem noFlushR0_4 : ∀ t : Fin cfg0.N, ¬condLast (grid0.coords t) → (cfg0.win 4).flush t = false := by decide +kernel
theorem noFlushR0_5 : ∀ t : Fin cfg0.N, ¬condLast (grid0.coords t) → (cfg0.win 5).flush t = false := by decide +kernel
theorem liveAtR0_4 : ∀ t : Fin cfg0.N, condLast (grid0.coords t) → cfg0.idle 4 (grid0.coords t) = false := by decide +kernel
theorem liveAtR0_5 : ∀ t : Fin cfg0.N, condLast (grid0.coords t) → cfg0.idle 5 (grid0.coords t) = false := by decide +kernel

abbrev msR0_0 (t : Fin cfg0.N) : Memref sig .tc .vmem S512x2048 .f32 := win0_0.stage (cfg0.slots t 0)
abbrev msR0_1 (t : Fin cfg0.N) : Memref sig .tc .vmem S512x2048 .f32 := win0_1.stage (cfg0.slots t 1)
abbrev msR0_2 (t : Fin cfg0.N) : Memref sig .tc .vmem S512x1 .i32 := win0_2.stage (cfg0.slots t 2)
abbrev msR0_3 (t : Fin cfg0.N) : Memref sig .tc .vmem S1x512 .i32 := win0_3.stage (cfg0.slots t 3)
abbrev msR0_4 (t : Fin cfg0.N) : Memref sig .tc .vmem S512x1 .f32 := win0_4.stage (cfg0.slots t 4)
abbrev msR0_5 (t : Fin cfg0.N) : Memref sig .tc .vmem S512x1 .f32 := win0_5.stage (cfg0.slots t 5)
abbrev scMR0_0 : Memref sig .tc .vmem S512x1 .f32 := Memref.whole cc0_scratch0
abbrev scMR0_1 : Memref sig .tc .vmem S512x1 .f32 := Memref.whole cc0_scratch1

/-- The launch's body at point t is the one body every launch runs, on this launch's buffers. -/
theorem bodyAtR0 (t : Fin cfg0.N) : bodyAt0 (F := F) t = cc0__hardest_kernel (grid0.coords t) (msR0_0 t) (hstage0_0 _) (msR0_1 t) (hstage0_1 _)
    (msR0_2 t) (hstage0_2 _) (msR0_3 t) (hstage0_3 _) (msR0_4 t) (hstage0_4 _) (msR0_5 t) (hstage0_5 _)
    scMR0_0 (Memref.isWhole_whole _) scMR0_1 (Memref.isWhole_whole _) := rfl

variable (V : (c : Dev nD) → (b : Ref sig .tc) → Buf (Elt F) ((c : Thread nD τ).loc b))

def iblkR0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running row maximum and minimum after the tile at point t, from the values xs0 and xs1 before it. -/
def stepR0 (c : Dev nD) (t : Fin cfg0.N) (xs0 xs1 : Vec F S512x1 .f32) : Vec F S512x1 .f32 × Vec F S512x1 .f32 :=
  (k0_pay1 (k0_pay7 (iblkR0 V c 0 t) (iblkR0 V c 1 t) (iblkR0 V c 2 t) (iblkR0 V c 3 t)) xs0, k0_pay2 (k0_pay8 (iblkR0 V c 0 t) (iblkR0 V c 1 t) (iblkR0 V c 2 t) (iblkR0 V c 3 t)) xs1)

/-- The two results and the two running values after point t, by case of the column step: first, inner, last (a step that
    writes no result leaves a placeholder nothing reads in the result's place). -/
def caseAR0 (c : Dev nD) (t : Fin cfg0.N) : Vec F S512x1 .f32 × Vec F S512x1 .f32 × Vec F S512x1 .f32 × Vec F S512x1 .f32 :=
  (k0_pay3 (F := F), k0_pay4 (F := F), stepR0 V c t k0_pay3 k0_pay4)
def caseBR0 (c : Dev nD) (t : Fin cfg0.N) (xs0 xs1 : Vec F S512x1 .f32) : Vec F S512x1 .f32 × Vec F S512x1 .f32 × Vec F S512x1 .f32 × Vec F S512x1 .f32 :=
  (k0_pay3 (F := F), k0_pay4 (F := F), stepR0 V c t xs0 xs1)
def caseCR0 (c : Dev nD) (t : Fin cfg0.N) (xs0 xs1 : Vec F S512x1 .f32) : Vec F S512x1 .f32 × Vec F S512x1 .f32 × Vec F S512x1 .f32 × Vec F S512x1 .f32 :=
  ((stepR0 V c t xs0 xs1).1, (stepR0 V c t xs0 xs1).2, stepR0 V c t xs0 xs1)

def outsAtR0 (c : Dev nD) : (n : ℕ) → n < cfg0.N → Vec F S512x1 .f32 × Vec F S512x1 .f32 × Vec F S512x1 .f32 × Vec F S512x1 .f32
  | 0, hn => caseAR0 V c ⟨0, hn⟩
  | n + 1, hn =>
    if (n + 1) % 8 = 0 then caseAR0 V c ⟨n + 1, hn⟩
    else if (n + 1) % 8 = 7 then caseCR0 V c ⟨n + 1, hn⟩ (outsAtR0 c n (Nat.lt_of_succ_lt hn)).2.2.1 (outsAtR0 c n (Nat.lt_of_succ_lt hn)).2.2.2
    else caseBR0 V c ⟨n + 1, hn⟩ (outsAtR0 c n (Nat.lt_of_succ_lt hn)).2.2.1 (outsAtR0 c n (Nat.lt_of_succ_lt hn)).2.2.2

theorem outsAtR0_A (c : Dev nD) (t : Fin cfg0.N) (h0 : t.val % 8 = 0) : outsAtR0 V c t.val t.isLt = caseAR0 V c t := by
  obtain ⟨n, hn⟩ := t
  cases n with
  | zero => rfl
  | succ n => exact if_pos h0

theorem outsAtR0_B (c : Dev nD) (t : Fin cfg0.N) (h0 : ¬t.val % 8 = 0) (h1 : ¬t.val % 8 = 7) :
    outsAtR0 V c t.val t.isLt = caseBR0 V c t (outsAtR0 V c (t.val - 1) (Nat.lt_of_le_of_lt (Nat.sub_le _ _) t.isLt)).2.2.1 (outsAtR0 V c (t.val - 1) (Nat.lt_of_le_of_lt (Nat.sub_le _ _) t.isLt)).2.2.2 := by
  obtain ⟨n, hn⟩ := t
  cases n with
  | zero => exact absurd (Nat.zero_mod _) h0
  | succ n => exact (if_neg h0).trans (if_neg h1)

theorem outsAtR0_C (c : Dev nD) (t : Fin cfg0.N) (h0 : ¬t.val % 8 = 0) (h1 : t.val % 8 = 7) :
    outsAtR0 V c t.val t.isLt = caseCR0 V c t (outsAtR0 V c (t.val - 1) (Nat.lt_of_le_of_lt (Nat.sub_le _ _) t.isLt)).2.2.1 (outsAtR0 V c (t.val - 1) (Nat.lt_of_le_of_lt (Nat.sub_le _ _) t.isLt)).2.2.2 := by
  obtain ⟨n, hn⟩ := t
  cases n with
  | zero => exact absurd (Nat.zero_mod _) h0
  | succ n => exact (if_neg h0).trans (if_pos h1)

abbrev restR0 (c : Dev nD) : sProp 𝕄 :=
  Pipeline.scopedRestBut (Ix := Unit) (Name := ℕ) (U := UR sig nD τ) (Lvl := ℕ) (Val := Elt F) spec0 c [cc0_scratch0, cc0_scratch1]

def PhiR0 (c : Dev nD) : (n : ℕ) → n ≤ cfg0.N → sProp 𝕄
  | 0, _ => iprop(iprop((∃ d, owns (c : Thread nD τ) scMR0_0 fullShare d) ∗ (∃ d, owns (c : Thread nD τ) scMR0_1 fullShare d)) ∗ restR0 c)
  | n + 1, hn => iprop(iprop(owns (c : Thread nD τ) scMR0_0 fullShare ((outsAtR0 V c n hn).2.2.1) ∗ owns (c : Thread nD τ) scMR0_1 fullShare ((outsAtR0 V c n hn).2.2.2)) ∗ restR0 c)

theorem PhiR0_zero (c : Dev nD) (n : ℕ) (h : n ≤ cfg0.N) (hz : n = 0) :
    PhiR0 V c n h = iprop(iprop((∃ d, owns (c : Thread nD τ) scMR0_0 fullShare d) ∗ (∃ d, owns (c : Thread nD τ) scMR0_1 fullShare d)) ∗ restR0 c) := by
  subst hz; rfl

theorem PhiR0_succ (c : Dev nD) (n : ℕ) (hn : n < cfg0.N) :
    PhiR0 V c (n + 1) hn = iprop(iprop(owns (c : Thread nD τ) scMR0_0 fullShare ((outsAtR0 V c n hn).2.2.1) ∗ owns (c : Thread nD τ) scMR0_1 fullShare ((outsAtR0 V c n hn).2.2.2)) ∗ restR0 c) := rfl

theorem PhiR0_pos (c : Dev nD) (n : ℕ) (h : n ≤ cfg0.N) (hz : n ≠ 0) :
    PhiR0 V c n h = iprop(iprop(owns (c : Thread nD τ) scMR0_0 fullShare ((outsAtR0 V c (n - 1) (by omega)).2.2.1) ∗ owns (c : Thread nD τ) scMR0_1 fullShare ((outsAtR0 V c (n - 1) (by omega)).2.2.2)) ∗ restR0 c) := by
  cases n with
  | zero => exact absurd rfl hz
  | succ n => rfl

theorem PhiR0_any (c : Dev nD) (n : ℕ) (h : n ≤ cfg0.N) :
    PhiR0 V c n h ⊢ iprop(iprop((∃ d, owns (c : Thread nD τ) scMR0_0 fullShare d) ∗ (∃ d, owns (c : Thread nD τ) scMR0_1 fullShare d)) ∗ restR0 c) := by
  cases n with
  | zero => exact .rfl
  | succ n =>
    rw [PhiR0_succ]
    iintro ⟨⟨HS0, HS1⟩, HR⟩
    isplitl [HS0 HS1]
    · isplitl [HS0]
      · iexists _; iexact HS0
      · iexists _; iexact HS1
    iexact HR

theorem scopedRestR0_eq (c : Dev nD) :
    (Pipeline.scopedRest (Ix := Unit) (Name := ℕ) (U := UR sig nD τ) (Lvl := ℕ) (Val := Elt F) spec0 c : sProp 𝕄)
      = iprop(iprop((∃ d, owns (c : Thread nD τ) scMR0_0 fullShare d) ∗ (∃ d, owns (c : Thread nD τ) scMR0_1 fullShare d)) ∗ restR0 c) := by
  rw [scopedRest0_split]; simp only [scMR0_0, scMR0_1, owns_whole]; try rfl

def datR0 (c : Dev nD) : Dat τ (Elt F) Unit ℕ (UR sig nD τ) ℕ cfg0 c where
  A w := V c (Pipeline.arrRef spec0 w)
  after w t := match w with
    | ⟨0, _⟩ => iblkR0 V c 0 t
    | ⟨1, _⟩ => iblkR0 V c 1 t
    | ⟨2, _⟩ => iblkR0 V c 2 t
    | ⟨3, _⟩ => iblkR0 V c 3 t
    | ⟨4, _⟩ => (outsAtR0 V c t.val t.isLt).1
    | ⟨5, _⟩ => (outsAtR0 V c t.val t.isLt).2.1
  Φ t := PhiR0 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eqR0 (c : Dev nD) (w : Fin cfg0.W) : (datR0 V c).A w = V c (Pipeline.arrRef spec0 w) := by
  dsimp only [datR0]

theorem PhiR0_castSucc (c : Dev nD) (t : Fin cfg0.N) :
    (datR0 V c).Φ t.castSucc = PhiR0 V c t.val (Nat.le_of_lt t.isLt) := by
  dsimp only [datR0]; simp only [Fin.coe_castSucc]

theorem afterR0_0 (c : Dev nD) (t : Fin cfg0.N) : (datR0 V c).after 0 t = iblkR0 V c 0 t := by dsimp only [datR0]
theorem afterR0_1 (c : Dev nD) (t : Fin cfg0.N) : (datR0 V c).after 1 t = iblkR0 V c 1 t := by dsimp only [datR0]
theorem afterR0_2 (c : Dev nD) (t : Fin cfg0.N) : (datR0 V c).after 2 t = iblkR0 V c 2 t := by dsimp only [datR0]
theorem afterR0_3 (c : Dev nD) (t : Fin cfg0.N) : (datR0 V c).after 3 t = iblkR0 V c 3 t := by dsimp only [datR0]
theorem afterR0_4 (c : Dev nD) (t : Fin cfg0.N) : (datR0 V c).after 4 t = (outsAtR0 V c t.val t.isLt).1 := by dsimp only [datR0]
theorem afterR0_5 (c : Dev nD) (t : Fin cfg0.N) : (datR0 V c).after 5 t = (outsAtR0 V c t.val t.isLt).2.1 := by dsimp only [datR0]

theorem beforeR0_0 (c : Dev nD) (t : Fin cfg0.N) (d) : (datR0 V c).before 0 t d = iblkR0 V c 0 t :=
  ((datR0 V c).before_in_eq_fetched 0 rfl (fun _ => rfl) (fun _ _ _ => rfl) (fun t => by rw [afterR0_0]; unfold Dat.blockOf iblkR0; rw [A_eqR0]; try rfl) t d).trans
    (by unfold Dat.fetched Dat.blockOf iblkR0; rw [A_eqR0]; try rfl)
theorem beforeR0_1 (c : Dev nD) (t : Fin cfg0.N) (d) : (datR0 V c).before 1 t d = iblkR0 V c 1 t :=
  ((datR0 V c).before_in_eq_fetched 1 rfl (fun _ => rfl) (fun _ _ _ => rfl) (fun t => by rw [afterR0_1]; unfold Dat.blockOf iblkR0; rw [A_eqR0]; try rfl) t d).trans
    (by unfold Dat.fetched Dat.blockOf iblkR0; rw [A_eqR0]; try rfl)
theorem beforeR0_2 (c : Dev nD) (t : Fin cfg0.N) (d) : (datR0 V c).before 2 t d = iblkR0 V c 2 t :=
  ((datR0 V c).before_in_eq_fetched 2 rfl (fun _ => rfl) (fun _ _ _ => rfl) (fun t => by rw [afterR0_2]; unfold Dat.blockOf iblkR0; rw [A_eqR0]; try rfl) t d).trans
    (by unfold Dat.fetched Dat.blockOf iblkR0; rw [A_eqR0]; try rfl)
theorem beforeR0_3 (c : Dev nD) (t : Fin cfg0.N) (d) : (datR0 V c).before 3 t d = iblkR0 V c 3 t :=
  ((datR0 V c).before_in_eq_fetched 3 rfl (fun _ => rfl) (fun _ _ _ => rfl) (fun t => by rw [afterR0_3]; unfold Dat.blockOf iblkR0; rw [A_eqR0]; try rfl) t d).trans
    (by unfold Dat.fetched Dat.blockOf iblkR0; rw [A_eqR0]; try rfl)

def bodyPreR0 (c : Dev nD) (t : Fin cfg0.N) : sProp 𝕄 :=
  iprop((datR0 V c).Φ t.castSucc ∗ (datR0 V c).owesAt () t.castSucc
    ∗ (∃ d, owns (c : Thread nD τ) (msR0_0 t) fullShare ((datR0 V c).before 0 t d))
    ∗ (∃ d, owns (c : Thread nD τ) (msR0_1 t) fullShare ((datR0 V c).before 1 t d))
    ∗ (∃ d, owns (c : Thread nD τ) (msR0_2 t) fullShare ((datR0 V c).before 2 t d))
    ∗ (∃ d, owns (c : Thread nD τ) (msR0_3 t) fullShare ((datR0 V c).before 3 t d))
    ∗ (∃ d, owns (c : Thread nD τ) (msR0_4 t) fullShare ((datR0 V c).before 4 t d))
    ∗ (∃ d, owns (c : Thread nD τ) (msR0_5 t) fullShare ((datR0 V c).before 5 t d)))

def bodyPostR0 (c : Dev nD) (t : Fin cfg0.N) : sProp 𝕄 :=
  iprop((datR0 V c).Φ t.succ ∗ (datR0 V c).owesAt () t.succ
    ∗ (datR0 V c).leavesExact 0 t ∗ (datR0 V c).leavesExact 1 t ∗ (datR0 V c).leavesExact 2 t
    ∗ (datR0 V c).leavesExact 3 t ∗ (datR0 V c).leavesExact 4 t ∗ (datR0 V c).leavesExact 5 t)

/-- Where window w is live at point t the body leaves its buffer at the point's contents. -/
theorem leavesR0 (c : Dev nD) (w : Fin cfg0.W) (t : Fin cfg0.N) (h : cfg0.idle w (grid0.coords t) = false) :
    (datR0 V c).leavesExact w t = owns (c : Thread nD τ) ((cfg0.win w).stage (cfg0.slots t w)) fullShare ((datR0 V c).after w t) := by
  unfold Dat.leavesExact; rw [h]

/-- The body at any point: the column step says which case runs, from the running values the point before left. -/
theorem sound_bodyR0 (c : Dev nD) (t : Fin cfg0.N) :
    bodyPreR0 V c t ⊢ wp frame (wpE (defs₀ (F := F)) Variants.none c none) Set.univ (bodyAt0 t) (fun _ => bodyPostR0 V c t) := by
  unfold bodyPreR0 bodyPostR0
  rw [bodyAtR0]
  simp only [beforeR0_0, beforeR0_1, beforeR0_2, beforeR0_3]
  rw [show (datR0 V c).owesAt () t.succ = (datR0 V c).owesAt () t.castSucc from rfl]
  rw [show (datR0 V c).Φ t.succ = PhiR0 V c (t.val + 1) t.isLt from rfl, PhiR0_succ]
  rw [leavesR0 V c 0 t (liveAtR0_0 t), afterR0_0, leavesR0 V c 1 t (liveAtR0_1 t), afterR0_1, leavesR0 V c 2 t (liveAtR0_2 t), afterR0_2,
    leavesR0 V c 3 t (liveAtR0_3 t), afterR0_3, PhiR0_castSucc V c t]
  by_cases h1 : t.val % 8 = 7
  · have h0 : ¬t.val % 8 = 0 := by omega
    have hz : t.val ≠ 0 := fun h => h0 (by rw [h])
    rw [leavesR0 V c 4 t (liveAtR0_4 t ((hcondLast t).mpr h1)), afterR0_4, leavesR0 V c 5 t (liveAtR0_5 t ((hcondLast t).mpr h1)), afterR0_5,
      outsAtR0_C V c t h0 h1]
    unfold caseCR0 stepR0; dsimp only
    rw [PhiR0_pos V c _ _ hz]
    iintro ⟨⟨⟨HS0, HS1⟩, HR⟩, Ho, ⟨%d0, H0⟩, ⟨%d1, H1⟩, ⟨%d2, H2⟩, ⟨%d3, H3⟩, ⟨%d4, H4⟩, ⟨%d5, H5⟩⟩
    iapply (bodyC c (grid0.coords t) _ _ _ _ _ _ _ _ _ _ _ _ _ _ _ _ (fun h => h0 ((hcondFirst t).mp h)) ((hcondLast t).mpr h1) (iblkR0 V c 0 t) (iblkR0 V c 1 t) (iblkR0 V c 2 t) (iblkR0 V c 3 t) _ _ Set.univ _)
    iframe H0 H1 H2 H3 HS0 HS1
    isplitl [H4]; · iexists _; iexact H4
    isplitl [H5]; · iexists _; iexact H5
    iintro ⟨H0, H1, H2, H3, H4, H5, HS0, HS1⟩
    iframe
  · have h1' : ¬condLast (grid0.coords t) := fun h => h1 ((hcondLast t).mp h)
    rw [Dat.leavesExact_idle (datR0 V c) 4 t (idleAtR0_4 t h1') (noFlushR0_4 t h1'),
      Dat.leavesExact_idle (datR0 V c) 5 t (idleAtR0_5 t h1') (noFlushR0_5 t h1')]
    by_cases h0 : t.val % 8 = 0
    · rw [outsAtR0_A V c t h0]
      unfold caseAR0 stepR0; dsimp only
      iintro ⟨HΦ, Ho, ⟨%d0, H0⟩, ⟨%d1, H1⟩, ⟨%d2, H2⟩, ⟨%d3, H3⟩, ⟨%d4, H4⟩, ⟨%d5, H5⟩⟩
      ihave HΦ' := (PhiR0_any V c t.val (Nat.le_of_lt t.isLt)) $$ HΦ
      icases HΦ' with ⟨⟨HS0, HS1⟩, HR⟩
      iapply (bodyA c (grid0.coords t) _ _ _ _ _ _ _ _ _ _ _ _ _ _ _ _ ((hcondFirst t).mpr h0) h1' (iblkR0 V c 0 t) (iblkR0 V c 1 t) (iblkR0 V c 2 t) (iblkR0 V c 3 t) _ _ Set.univ _)
      iframe H0 H1 H2 H3 H4 H5 HS0 HS1
      iintro ⟨H0, H1, H2, H3, H4, H5, HS0, HS1⟩
      iframe HS0 HS1 HR Ho H0 H1 H2 H3
      isplitl [H4]; · iexists _; iexact H4
      iexists _; iexact H5
    · have hz : t.val ≠ 0 := fun h => h0 (by rw [h])
      rw [outsAtR0_B V c t h0 h1]
      unfold caseBR0 stepR0; dsimp only
      rw [PhiR0_pos V c _ _ hz]
      iintro ⟨⟨⟨HS0, HS1⟩, HR⟩, Ho, ⟨%d0, H0⟩, ⟨%d1, H1⟩, ⟨%d2, H2⟩, ⟨%d3, H3⟩, ⟨%d4, H4⟩, ⟨%d5, H5⟩⟩
      iapply (bodyB c (grid0.coords t) _ _ _ _ _ _ _ _ _ _ _ _ _ _ _ _ (fun h => h0 ((hcondFirst t).mp h)) h1' (iblkR0 V c 0 t) (iblkR0 V c 1 t) (iblkR0 V c 2 t) (iblkR0 V c 3 t) _ _ _ _ Set.univ _)
      iframe H0 H1 H2 H3 H4 H5 HS0 HS1
      iintro ⟨H0, H1, H2, H3, H4, H5, HS0, HS1⟩
      iframe HS0 HS1 HR Ho H0 H1 H2 H3
      isplitl [H4]; · iexists _; iexact H4
      iexists _; iexact H5

theorem body_obligationR0 (c : Dev nD) : BodyObligation (datR0 (F := F) V c) (defs₀ (F := F)) Variants.none () Set.univ := fun t => by
  rw [bigSep_W0, bigSep_W0]
  exact sound_bodyR0 V c t

theorem hinR0 (c : Dev nD) :
    (Pipeline.scopedRest (Ix := Unit) (Name := ℕ) (U := UR sig nD τ) (Lvl := ℕ) (Val := Elt F) spec0 c : sProp 𝕄) ⊢ (datR0 V c).Φ 0 := by
  rw [show (datR0 V c).Φ 0 = PhiR0 V c 0 (Nat.zero_le _) from rfl, PhiR0_zero V c 0 _ rfl, scopedRestR0_eq]
  try exact Idealize.SL.BI.Entails.refl _

theorem houtR0 (c : Dev nD) :
    (datR0 V c).Φ (Fin.last cfg0.N) ⊢ (Pipeline.scopedRest (Ix := Unit) (Name := ℕ) (U := UR sig nD τ) (Lvl := ℕ) (Val := Elt F) spec0 c : sProp 𝕄) := by
  rw [show (datR0 V c).Φ (Fin.last cfg0.N) = PhiR0 V c (Fin.last cfg0.N).val (Nat.le_of_lt_succ (Fin.last cfg0.N).isLt) from rfl, scopedRestR0_eq]
  exact PhiR0_any V c _ _

end Cert.Kernel.Hand

end
-- ==== Proof.K.Dat1.lean ====
/- One launch, point by point: what its two results and the running row maximum and minimum are after each grid point, and
   that the body run at a point takes them from the point before to this one. -/
import proofs.«145578_j51728586113513_1_alg».proof.Proof.K.Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

theorem liveAtR1_0 : ∀ t : Fin cfg1.N, cfg1.idle 0 (grid1.coords t) = false := by decide +kernel
theorem liveAtR1_1 : ∀ t : Fin cfg1.N, cfg1.idle 1 (grid1.coords t) = false := by decide +kernel
theorem liveAtR1_2 : ∀ t : Fin cfg1.N, cfg1.idle 2 (grid1.coords t) = false := by decide +kernel
theorem liveAtR1_3 : ∀ t : Fin cfg1.N, cfg1.idle 3 (grid1.coords t) = false := by decide +kernel
theorem idleAtR1_4 : ∀ t : Fin cfg1.N, ¬condLast (grid1.coords t) → cfg1.idle 4 (grid1.coords t) = true := by decide +kernel
theorem idleAtR1_5 : ∀ t : Fin cfg1.N, ¬condLast (grid1.coords t) → cfg1.idle 5 (grid1.coords t) = true := by decide +kernel
theorem noFlushR1_4 : ∀ t : Fin cfg1.N, ¬condLast (grid1.coords t) → (cfg1.win 4).flush t = false := by decide +kernel
theorem noFlushR1_5 : ∀ t : Fin cfg1.N, ¬condLast (grid1.coords t) → (cfg1.win 5).flush t = false := by decide +kernel
theorem liveAtR1_4 : ∀ t : Fin cfg1.N, condLast (grid1.coords t) → cfg1.idle 4 (grid1.coords t) = false := by decide +kernel
theorem liveAtR1_5 : ∀ t : Fin cfg1.N, condLast (grid1.coords t) → cfg1.idle 5 (grid1.coords t) = false := by decide +kernel

abbrev msR1_0 (t : Fin cfg1.N) : Memref sig .tc .vmem S512x2048 .f32 := win1_0.stage (cfg1.slots t 0)
abbrev msR1_1 (t : Fin cfg1.N) : Memref sig .tc .vmem S512x2048 .f32 := win1_1.stage (cfg1.slots t 1)
abbrev msR1_2 (t : Fin cfg1.N) : Memref sig .tc .vmem S512x1 .i32 := win1_2.stage (cfg1.slots t 2)
abbrev msR1_3 (t : Fin cfg1.N) : Memref sig .tc .vmem S1x512 .i32 := win1_3.stage (cfg1.slots t 3)
abbrev msR1_4 (t : Fin cfg1.N) : Memref sig .tc .vmem S512x1 .f32 := win1_4.stage (cfg1.slots t 4)
abbrev msR1_5 (t : Fin cfg1.N) : Memref sig .tc .vmem S512x1 .f32 := win1_5.stage (cfg1.slots t 5)
abbrev scMR1_0 : Memref sig .tc .vmem S512x1 .f32 := Memref.whole cc1_scratch0
abbrev scMR1_1 : Memref sig .tc .vmem S512x1 .f32 := Memref.whole cc1_scratch1

/-- The launch's body at point t is the one body every launch runs, on this launch's buffers. -/
theorem bodyAtR1 (t : Fin cfg1.N) : bodyAt1 (F := F) t = cc0__hardest_kernel (grid1.coords t) (msR1_0 t) (hstage1_0 _) (msR1_1 t) (hstage1_1 _)
    (msR1_2 t) (hstage1_2 _) (msR1_3 t) (hstage1_3 _) (msR1_4 t) (hstage1_4 _) (msR1_5 t) (hstage1_5 _)
    scMR1_0 (Memref.isWhole_whole _) scMR1_1 (Memref.isWhole_whole _) := rfl

variable (V : (c : Dev nD) → (b : Ref sig .tc) → Buf (Elt F) ((c : Thread nD τ).loc b))

def iblkR1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The running row maximum and minimum after the tile at point t, from the values xs0 and xs1 before it. -/
def stepR1 (c : Dev nD) (t : Fin cfg1.N) (xs0 xs1 : Vec F S512x1 .f32) : Vec F S512x1 .f32 × Vec F S512x1 .f32 :=
  (k0_pay1 (k0_pay7 (iblkR1 V c 0 t) (iblkR1 V c 1 t) (iblkR1 V c 2 t) (iblkR1 V c 3 t)) xs0, k0_pay2 (k0_pay8 (iblkR1 V c 0 t) (iblkR1 V c 1 t) (iblkR1 V c 2 t) (iblkR1 V c 3 t)) xs1)

/-- The two results and the two running values after point t, by case of the column step: first, inner, last (a step that
    writes no result leaves a placeholder nothing reads in the result's place). -/
def caseAR1 (c : Dev nD) (t : Fin cfg1.N) : Vec F S512x1 .f32 × Vec F S512x1 .f32 × Vec F S512x1 .f32 × Vec F S512x1 .f32 :=
  (k0_pay3 (F := F), k0_pay4 (F := F), stepR1 V c t k0_pay3 k0_pay4)
def caseBR1 (c : Dev nD) (t : Fin cfg1.N) (xs0 xs1 : Vec F S512x1 .f32) : Vec F S512x1 .f32 × Vec F S512x1 .f32 × Vec F S512x1 .f32 × Vec F S512x1 .f32 :=
  (k0_pay3 (F := F), k0_pay4 (F := F), stepR1 V c t xs0 xs1)
def caseCR1 (c : Dev nD) (t : Fin cfg1.N) (xs0 xs1 : Vec F S512x1 .f32) : Vec F S512x1 .f32 × Vec F S512x1 .f32 × Vec F S512x1 .f32 × Vec F S512x1 .f32 :=
  ((stepR1 V c t xs0 xs1).1, (stepR1 V c t xs0 xs1).2, stepR1 V c t xs0 xs1)

def outsAtR1 (c : Dev nD) : (n : ℕ) → n < cfg1.N → Vec F S512x1 .f32 × Vec F S512x1 .f32 × Vec F S512x1 .f32 × Vec F S512x1 .f32
  | 0, hn => caseAR1 V c ⟨0, hn⟩
  | n + 1, hn =>
    if (n + 1) % 8 = 0 then caseAR1 V c ⟨n + 1, hn⟩
    else if (n + 1) % 8 = 7 then caseCR1 V c ⟨n + 1, hn⟩ (outsAtR1 c n (Nat.lt_of_succ_lt hn)).2.2.1 (outsAtR1 c n (Nat.lt_of_succ_lt hn)).2.2.2
    else caseBR1 V c ⟨n + 1, hn⟩ (outsAtR1 c n (Nat.lt_of_succ_lt hn)).2.2.1 (outsAtR1 c n (Nat.lt_of_succ_lt hn)).2.2.2

theorem outsAtR1_A (c : Dev nD) (t : Fin cfg1.N) (h0 : t.val % 8 = 0) : outsAtR1 V c t.val t.isLt = caseAR1 V c t := by
  obtain ⟨n, hn⟩ := t
  cases n with
  | zero => rfl
  | succ n => exact if_pos h0

theorem outsAtR1_B (c : Dev nD) (t : Fin cfg1.N) (h0 : ¬t.val % 8 = 0) (h1 : ¬t.val % 8 = 7) :
    outsAtR1 V c t.val t.isLt = caseBR1 V c t (outsAtR1 V c (t.val - 1) (Nat.lt_of_le_of_lt (Nat.sub_le _ _) t.isLt)).2.2.1 (outsAtR1 V c (t.val - 1) (Nat.lt_of_le_of_lt (Nat.sub_le _ _) t.isLt)).2.2.2 := by
  obtain ⟨n, hn⟩ := t
  cases n with
  | zero => exact absurd (Nat.zero_mod _) h0
  | succ n => exact (if_neg h0).trans (if_neg h1)

theorem outsAtR1_C (c : Dev nD) (t : Fin cfg1.N) (h0 : ¬t.val % 8 = 0) (h1 : t.val % 8 = 7) :
    outsAtR1 V c t.val t.isLt = caseCR1 V c t (outsAtR1 V c (t.val - 1) (Nat.lt_of_le_of_lt (Nat.sub_le _ _) t.isLt)).2.2.1 (outsAtR1 V c (t.val - 1) (Nat.lt_of_le_of_lt (Nat.sub_le _ _) t.isLt)).2.2.2 := by
  obtain ⟨n, hn⟩ := t
  cases n with
  | zero => exact absurd (Nat.zero_mod _) h0
  | succ n => exact (if_neg h0).trans (if_pos h1)

abbrev restR1 (c : Dev nD) : sProp 𝕄 :=
  Pipeline.scopedRestBut (Ix := Unit) (Name := ℕ) (U := UR sig nD τ) (Lvl := ℕ) (Val := Elt F) spec1 c [cc1_scratch0, cc1_scratch1]

def PhiR1 (c : Dev nD) : (n : ℕ) → n ≤ cfg1.N → sProp 𝕄
  | 0, _ => iprop(iprop((∃ d, owns (c : Thread nD τ) scMR1_0 fullShare d) ∗ (∃ d, owns (c : Thread nD τ) scMR1_1 fullShare d)) ∗ restR1 c)
  | n + 1, hn => iprop(iprop(owns (c : Thread nD τ) scMR1_0 fullShare ((outsAtR1 V c n hn).2.2.1) ∗ owns (c : Thread nD τ) scMR1_1 fullShare ((outsAtR1 V c n hn).2.2.2)) ∗ restR1 c)

theorem PhiR1_zero (c : Dev nD) (n : ℕ) (h : n ≤ cfg1.N) (hz : n = 0) :
    PhiR1 V c n h = iprop(iprop((∃ d, owns (c : Thread nD τ) scMR1_0 fullShare d) ∗ (∃ d, owns (c : Thread nD τ) scMR1_1 fullShare d)) ∗ restR1 c) := by
  subst hz; rfl

theorem PhiR1_succ (c : Dev nD) (n : ℕ) (hn : n < cfg1.N) :
    PhiR1 V c (n + 1) hn = iprop(iprop(owns (c : Thread nD τ) scMR1_0 fullShare ((outsAtR1 V c n hn).2.2.1) ∗ owns (c : Thread nD τ) scMR1_1 fullShare ((outsAtR1 V c n hn).2.2.2)) ∗ restR1 c) := rfl

theorem PhiR1_pos (c : Dev nD) (n : ℕ) (h : n ≤ cfg1.N) (hz : n ≠ 0) :
    PhiR1 V c n h = iprop(iprop(owns (c : Thread nD τ) scMR1_0 fullShare ((outsAtR1 V c (n - 1) (by omega)).2.2.1) ∗ owns (c : Thread nD τ) scMR1_1 fullShare ((outsAtR1 V c (n - 1) (by omega)).2.2.2)) ∗ restR1 c) := by
  cases n with
  | zero => exact absurd rfl hz
  | succ n => rfl

theorem PhiR1_any (c : Dev nD) (n : ℕ) (h : n ≤ cfg1.N) :
    PhiR1 V c n h ⊢ iprop(iprop((∃ d, owns (c : Thread nD τ) scMR1_0 fullShare d) ∗ (∃ d, owns (c : Thread nD τ) scMR1_1 fullShare d)) ∗ restR1 c) := by
  cases n with
  | zero => exact .rfl
  | succ n =>
    rw [PhiR1_succ]
    iintro ⟨⟨HS0, HS1⟩, HR⟩
    isplitl [HS0 HS1]
    · isplitl [HS0]
      · iexists _; iexact HS0
      · iexists _; iexact HS1
    iexact HR

theorem scopedRestR1_eq (c : Dev nD) :
    (Pipeline.scopedRest (Ix := Unit) (Name := ℕ) (U := UR sig nD τ) (Lvl := ℕ) (Val := Elt F) spec1 c : sProp 𝕄)
      = iprop(iprop((∃ d, owns (c : Thread nD τ) scMR1_0 fullShare d) ∗ (∃ d, owns (c : Thread nD τ) scMR1_1 fullShare d)) ∗ restR1 c) := by
  rw [scopedRest1_split]; simp only [scMR1_0, scMR1_1, owns_whole]; try rfl

def datR1 (c : Dev nD) : Dat τ (Elt F) Unit ℕ (UR sig nD τ) ℕ cfg1 c where
  A w := V c (Pipeline.arrRef spec1 w)
  after w t := match w with
    | ⟨0, _⟩ => iblkR1 V c 0 t
    | ⟨1, _⟩ => iblkR1 V c 1 t
    | ⟨2, _⟩ => iblkR1 V c 2 t
    | ⟨3, _⟩ => iblkR1 V c 3 t
    | ⟨4, _⟩ => (outsAtR1 V c t.val t.isLt).1
    | ⟨5, _⟩ => (outsAtR1 V c t.val t.isLt).2.1
  Φ t := PhiR1 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eqR1 (c : Dev nD) (w : Fin cfg1.W) : (datR1 V c).A w = V c (Pipeline.arrRef spec1 w) := by
  dsimp only [datR1]

theorem PhiR1_castSucc (c : Dev nD) (t : Fin cfg1.N) :
    (datR1 V c).Φ t.castSucc = PhiR1 V c t.val (Nat.le_of_lt t.isLt) := by
  dsimp only [datR1]; simp only [Fin.coe_castSucc]

theorem afterR1_0 (c : Dev nD) (t : Fin cfg1.N) : (datR1 V c).after 0 t = iblkR1 V c 0 t := by dsimp only [datR1]
theorem afterR1_1 (c : Dev nD) (t : Fin cfg1.N) : (datR1 V c).after 1 t = iblkR1 V c 1 t := by dsimp only [datR1]
theorem afterR1_2 (c : Dev nD) (t : Fin cfg1.N) : (datR1 V c).after 2 t = iblkR1 V c 2 t := by dsimp only [datR1]
theorem afterR1_3 (c : Dev nD) (t : Fin cfg1.N) : (datR1 V c).after 3 t = iblkR1 V c 3 t := by dsimp only [datR1]
theorem afterR1_4 (c : Dev nD) (t : Fin cfg1.N) : (datR1 V c).after 4 t = (outsAtR1 V c t.val t.isLt).1 := by dsimp only [datR1]
theorem afterR1_5 (c : Dev nD) (t : Fin cfg1.N) : (datR1 V c).after 5 t = (outsAtR1 V c t.val t.isLt).2.1 := by dsimp only [datR1]

theorem beforeR1_0 (c : Dev nD) (t : Fin cfg1.N) (d) : (datR1 V c).before 0 t d = iblkR1 V c 0 t :=
  ((datR1 V c).before_in_eq_fetched 0 rfl (fun _ => rfl) (fun _ _ _ => rfl) (fun t => by rw [afterR1_0]; unfold Dat.blockOf iblkR1; rw [A_eqR1]; try rfl) t d).trans
    (by unfold Dat.fetched Dat.blockOf iblkR1; rw [A_eqR1]; try rfl)
theorem beforeR1_1 (c : Dev nD) (t : Fin cfg1.N) (d) : (datR1 V c).before 1 t d = iblkR1 V c 1 t :=
  ((datR1 V c).before_in_eq_fetched 1 rfl (fun _ => rfl) (fun _ _ _ => rfl) (fun t => by rw [afterR1_1]; unfold Dat.blockOf iblkR1; rw [A_eqR1]; try rfl) t d).trans
    (by unfold Dat.fetched Dat.blockOf iblkR1; rw [A_eqR1]; try rfl)
theorem beforeR1_2 (c : Dev nD) (t : Fin cfg1.N) (d) : (datR1 V c).before 2 t d = iblkR1 V c 2 t :=
  ((datR1 V c).before_in_eq_fetched 2 rfl (fun _ => rfl) (fun _ _ _ => rfl) (fun t => by rw [afterR1_2]; unfold Dat.blockOf iblkR1; rw [A_eqR1]; try rfl) t d).trans
    (by unfold Dat.fetched Dat.blockOf iblkR1; rw [A_eqR1]; try rfl)
theorem beforeR1_3 (c : Dev nD) (t : Fin cfg1.N) (d) : (datR1 V c).before 3 t d = iblkR1 V c 3 t :=
  ((datR1 V c).before_in_eq_fetched 3 rfl (fun _ => rfl) (fun _ _ _ => rfl) (fun t => by rw [afterR1_3]; unfold Dat.blockOf iblkR1; rw [A_eqR1]; try rfl) t d).trans
    (by unfold Dat.fetched Dat.blockOf iblkR1; rw [A_eqR1]; try rfl)

def bodyPreR1 (c : Dev nD) (t : Fin cfg1.N) : sProp 𝕄 :=
  iprop((datR1 V c).Φ t.castSucc ∗ (datR1 V c).owesAt () t.castSucc
    ∗ (∃ d, owns (c : Thread nD τ) (msR1_0 t) fullShare ((datR1 V c).before 0 t d))
    ∗ (∃ d, owns (c : Thread nD τ) (msR1_1 t) fullShare ((datR1 V c).before 1 t d))
    ∗ (∃ d, owns (c : Thread nD τ) (msR1_2 t) fullShare ((datR1 V c).before 2 t d))
    ∗ (∃ d, owns (c : Thread nD τ) (msR1_3 t) fullShare ((datR1 V c).before 3 t d))
    ∗ (∃ d, owns (c : Thread nD τ) (msR1_4 t) fullShare ((datR1 V c).before 4 t d))
    ∗ (∃ d, owns (c : Thread nD τ) (msR1_5 t) fullShare ((datR1 V c).before 5 t d)))

def bodyPostR1 (c : Dev nD) (t : Fin cfg1.N) : sProp 𝕄 :=
  iprop((datR1 V c).Φ t.succ ∗ (datR1 V c).owesAt () t.succ
    ∗ (datR1 V c).leavesExact 0 t ∗ (datR1 V c).leavesExact 1 t ∗ (datR1 V c).leavesExact 2 t
    ∗ (datR1 V c).leavesExact 3 t ∗ (datR1 V c).leavesExact 4 t ∗ (datR1 V c).leavesExact 5 t)

/-- Where window w is live at point t the body leaves its buffer at the point's contents. -/
theorem leavesR1 (c : Dev nD) (w : Fin cfg1.W) (t : Fin cfg1.N) (h : cfg1.idle w (grid1.coords t) = false) :
    (datR1 V c).leavesExact w t = owns (c : Thread nD τ) ((cfg1.win w).stage (cfg1.slots t w)) fullShare ((datR1 V c).after w t) := by
  unfold Dat.leavesExact; rw [h]

/-- The body at any point: the column step says which case runs, from the running values the point before left. -/
theorem sound_bodyR1 (c : Dev nD) (t : Fin cfg1.N) :
    bodyPreR1 V c t ⊢ wp frame (wpE (defs₀ (F := F)) Variants.none c none) Set.univ (bodyAt1 t) (fun _ => bodyPostR1 V c t) := by
  unfold bodyPreR1 bodyPostR1
  rw [bodyAtR1]
  simp only [beforeR1_0, beforeR1_1, beforeR1_2, beforeR1_3]
  rw [show (datR1 V c).owesAt () t.succ = (datR1 V c).owesAt () t.castSucc from rfl]
  rw [show (datR1 V c).Φ t.succ = PhiR1 V c (t.val + 1) t.isLt from rfl, PhiR1_succ]
  rw [leavesR1 V c 0 t (liveAtR1_0 t), afterR1_0, leavesR1 V c 1 t (liveAtR1_1 t), afterR1_1, leavesR1 V c 2 t (liveAtR1_2 t), afterR1_2,
    leavesR1 V c 3 t (liveAtR1_3 t), afterR1_3, PhiR1_castSucc V c t]
  by_cases h1 : t.val % 8 = 7
  · have h0 : ¬t.val % 8 = 0 := by omega
    have hz : t.val ≠ 0 := fun h => h0 (by rw [h])
    rw [leavesR1 V c 4 t (liveAtR1_4 t ((hcondLast t).mpr h1)), afterR1_4, leavesR1 V c 5 t (liveAtR1_5 t ((hcondLast t).mpr h1)), afterR1_5,
      outsAtR1_C V c t h0 h1]
    unfold caseCR1 stepR1; dsimp only
    rw [PhiR1_pos V c _ _ hz]
    iintro ⟨⟨⟨HS0, HS1⟩, HR⟩, Ho, ⟨%d0, H0⟩, ⟨%d1, H1⟩, ⟨%d2, H2⟩, ⟨%d3, H3⟩, ⟨%d4, H4⟩, ⟨%d5, H5⟩⟩
    iapply (bodyC c (grid1.coords t) _ _ _ _ _ _ _ _ _ _ _ _ _ _ _ _ (fun h => h0 ((hcondFirst t).mp h)) ((hcondLast t).mpr h1) (iblkR1 V c 0 t) (iblkR1 V c 1 t) (iblkR1 V c 2 t) (iblkR1 V c 3 t) _ _ Set.univ _)
    iframe H0 H1 H2 H3 HS0 HS1
    isplitl [H4]; · iexists _; iexact H4
    isplitl [H5]; · iexists _; iexact H5
    iintro ⟨H0, H1, H2, H3, H4, H5, HS0, HS1⟩
    iframe
  · have h1' : ¬condLast (grid1.coords t) := fun h => h1 ((hcondLast t).mp h)
    rw [Dat.leavesExact_idle (datR1 V c) 4 t (idleAtR1_4 t h1') (noFlushR1_4 t h1'),
      Dat.leavesExact_idle (datR1 V c) 5 t (idleAtR1_5 t h1') (noFlushR1_5 t h1')]
    by_cases h0 : t.val % 8 = 0
    · rw [outsAtR1_A V c t h0]
      unfold caseAR1 stepR1; dsimp only
      iintro ⟨HΦ, Ho, ⟨%d0, H0⟩, ⟨%d1, H1⟩, ⟨%d2, H2⟩, ⟨%d3, H3⟩, ⟨%d4, H4⟩, ⟨%d5, H5⟩⟩
      ihave HΦ' := (PhiR1_any V c t.val (Nat.le_of_lt t.isLt)) $$ HΦ
      icases HΦ' with ⟨⟨HS0, HS1⟩, HR⟩
      iapply (bodyA c (grid1.coords t) _ _ _ _ _ _ _ _ _ _ _ _ _ _ _ _ ((hcondFirst t).mpr h0) h1' (iblkR1 V c 0 t) (iblkR1 V c 1 t) (iblkR1 V c 2 t) (iblkR1 V c 3 t) _ _ Set.univ _)
      iframe H0 H1 H2 H3 H4 H5 HS0 HS1
      iintro ⟨H0, H1, H2, H3, H4, H5, HS0, HS1⟩
      iframe HS0 HS1 HR Ho H0 H1 H2 H3
      isplitl [H4]; · iexists _; iexact H4
      iexists _; iexact H5
    · have hz : t.val ≠ 0 := fun h => h0 (by rw [h])
      rw [outsAtR1_B V c t h0 h1]
      unfold caseBR1 stepR1; dsimp only
      rw [PhiR1_pos V c _ _ hz]
      iintro ⟨⟨⟨HS0, HS1⟩, HR⟩, Ho, ⟨%d0, H0⟩, ⟨%d1, H1⟩, ⟨%d2, H2⟩, ⟨%d3, H3⟩, ⟨%d4, H4⟩, ⟨%d5, H5⟩⟩
      iapply (bodyB c (grid1.coords t) _ _ _ _ _ _ _ _ _ _ _ _ _ _ _ _ (fun h => h0 ((hcondFirst t).mp h)) h1' (iblkR1 V c 0 t) (iblkR1 V c 1 t) (iblkR1 V c 2 t) (iblkR1 V c 3 t) _ _ _ _ Set.univ _)
      iframe H0 H1 H2 H3 H4 H5 HS0 HS1
      iintro ⟨H0, H1, H2, H3, H4, H5, HS0, HS1⟩
      iframe HS0 HS1 HR Ho H0 H1 H2 H3
      isplitl [H4]; · iexists _; iexact H4
      iexists _; iexact H5

theorem body_obligationR1 (c : Dev nD) : BodyObligation (datR1 (F := F) V c) (defs₀ (F := F)) Variants.none () Set.univ := fun t => by
  rw [bigSep_W1, bigSep_W1]
  exact sound_bodyR1 V c t

theorem hinR1 (c : Dev nD) :
    (Pipeline.scopedRest (Ix := Unit) (Name := ℕ) (U := UR sig nD τ) (Lvl := ℕ) (Val := Elt F) spec1 c : sProp 𝕄) ⊢ (datR1 V c).Φ 0 := by
  rw [show (datR1 V c).Φ 0 = PhiR1 V c 0 (Nat.zero_le _) from rfl, PhiR1_zero V c 0 _ rfl, scopedRestR1_eq]
  try exact Idealize.SL.BI.Entails.refl _

theorem houtR1 (c : Dev nD) :
    (datR1 V c).Φ (Fin.last cfg1.N) ⊢ (Pipeline.scopedRest (Ix := Unit) (Name := ℕ) (U := UR sig nD τ) (Lvl := ℕ) (Val := Elt F) spec1 c : sProp 𝕄) := by
  rw [show (datR1 V c).Φ (Fin.last cfg1.N) = PhiR1 V c (Fin.last cfg1.N).val (Nat.le_of_lt_succ (Fin.last cfg1.N).isLt) from rfl, scopedRestR1_eq]
  exact PhiR1_any V c _ _

end Cert.Kernel.Hand

end
-- ==== Proof.K.Dat2.lean ====
/- One launch, point by point: what its two results and the running row maximum and minimum are after each grid point, and
   that the body run at a point takes them from the point before to this one. -/
import proofs.«145578_j51728586113513_1_alg».proof.Proof.K.Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

theorem liveAtR2_0 : ∀ t : Fin cfg2.N, cfg2.idle 0 (grid2.coords t) = false := by decide +kernel
theorem liveAtR2_1 : ∀ t : Fin cfg2.N, cfg2.idle 1 (grid2.coords t) = false := by decide +kernel
theorem liveAtR2_2 : ∀ t : Fin cfg2.N, cfg2.idle 2 (grid2.coords t) = false := by decide +kernel
theorem liveAtR2_3 : ∀ t : Fin cfg2.N, cfg2.idle 3 (grid2.coords t) = false := by decide +kernel
theorem idleAtR2_4 : ∀ t : Fin cfg2.N, ¬condLast (grid2.coords t) → cfg2.idle 4 (grid2.coords t) = true := by decide +kernel
theorem idleAtR2_5 : ∀ t : Fin cfg2.N, ¬condLast (grid2.coords t) → cfg2.idle 5 (grid2.coords t) = true := by decide +kernel
theorem noFlushR2_4 : ∀ t : Fin cfg2.N, ¬condLast (grid2.coords t) → (cfg2.win 4).flush t = false := by decide +kernel
theorem noFlushR2_5 : ∀ t : Fin cfg2.N, ¬condLast (grid2.coords t) → (cfg2.win 5).flush t = false := by decide +kernel
theorem liveAtR2_4 : ∀ t : Fin cfg2.N, condLast (grid2.coords t) → cfg2.idle 4 (grid2.coords t) = false := by decide +kernel
theorem liveAtR2_5 : ∀ t : Fin cfg2.N, condLast (grid2.coords t) → cfg2.idle 5 (grid2.coords t) = false := by decide +kernel

abbrev msR2_0 (t : Fin cfg2.N) : Memref sig .tc .vmem S512x2048 .f32 := win2_0.stage (cfg2.slots t 0)
abbrev msR2_1 (t : Fin cfg2.N) : Memref sig .tc .vmem S512x2048 .f32 := win2_1.stage (cfg2.slots t 1)
abbrev msR2_2 (t : Fin cfg2.N) : Memref sig .tc .vmem S512x1 .i32 := win2_2.stage (cfg2.slots t 2)
abbrev msR2_3 (t : Fin cfg2.N) : Memref sig .tc .vmem S1x512 .i32 := win2_3.stage (cfg2.slots t 3)
abbrev msR2_4 (t : Fin cfg2.N) : Memref sig .tc .vmem S512x1 .f32 := win2_4.stage (cfg2.slots t 4)
abbrev msR2_5 (t : Fin cfg2.N) : Memref sig .tc .vmem S512x1 .f32 := win2_5.stage (cfg2.slots t 5)
abbrev scMR2_0 : Memref sig .tc .vmem S512x1 .f32 := Memref.whole cc2_scratch0
abbrev scMR2_1 : Memref sig .tc .vmem S512x1 .f32 := Memref.whole cc2_scratch1

/-- The launch's body at point t is the one body every launch runs, on this launch's buffers. -/
theorem bodyAtR2 (t : Fin cfg2.N) : bodyAt2 (F := F) t = cc0__hardest_kernel (grid2.coords t) (msR2_0 t) (hstage2_0 _) (msR2_1 t) (hstage2_1 _)
    (msR2_2 t) (hstage2_2 _) (msR2_3 t) (hstage2_3 _) (msR2_4 t) (hstage2_4 _) (msR2_5 t) (hstage2_5 _)
    scMR2_0 (Memref.isWhole_whole _) scMR2_1 (Memref.isWhole_whole _) := rfl

variable (V : (c : Dev nD) → (b : Ref sig .tc) → Buf (Elt F) ((c : Thread nD τ).loc b))

def iblkR2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The running row maximum and minimum after the tile at point t, from the values xs0 and xs1 before it. -/
def stepR2 (c : Dev nD) (t : Fin cfg2.N) (xs0 xs1 : Vec F S512x1 .f32) : Vec F S512x1 .f32 × Vec F S512x1 .f32 :=
  (k0_pay1 (k0_pay7 (iblkR2 V c 0 t) (iblkR2 V c 1 t) (iblkR2 V c 2 t) (iblkR2 V c 3 t)) xs0, k0_pay2 (k0_pay8 (iblkR2 V c 0 t) (iblkR2 V c 1 t) (iblkR2 V c 2 t) (iblkR2 V c 3 t)) xs1)

/-- The two results and the two running values after point t, by case of the column step: first, inner, last (a step that
    writes no result leaves a placeholder nothing reads in the result's place). -/
def caseAR2 (c : Dev nD) (t : Fin cfg2.N) : Vec F S512x1 .f32 × Vec F S512x1 .f32 × Vec F S512x1 .f32 × Vec F S512x1 .f32 :=
  (k0_pay3 (F := F), k0_pay4 (F := F), stepR2 V c t k0_pay3 k0_pay4)
def caseBR2 (c : Dev nD) (t : Fin cfg2.N) (xs0 xs1 : Vec F S512x1 .f32) : Vec F S512x1 .f32 × Vec F S512x1 .f32 × Vec F S512x1 .f32 × Vec F S512x1 .f32 :=
  (k0_pay3 (F := F), k0_pay4 (F := F), stepR2 V c t xs0 xs1)
def caseCR2 (c : Dev nD) (t : Fin cfg2.N) (xs0 xs1 : Vec F S512x1 .f32) : Vec F S512x1 .f32 × Vec F S512x1 .f32 × Vec F S512x1 .f32 × Vec F S512x1 .f32 :=
  ((stepR2 V c t xs0 xs1).1, (stepR2 V c t xs0 xs1).2, stepR2 V c t xs0 xs1)

def outsAtR2 (c : Dev nD) : (n : ℕ) → n < cfg2.N → Vec F S512x1 .f32 × Vec F S512x1 .f32 × Vec F S512x1 .f32 × Vec F S512x1 .f32
  | 0, hn => caseAR2 V c ⟨0, hn⟩
  | n + 1, hn =>
    if (n + 1) % 8 = 0 then caseAR2 V c ⟨n + 1, hn⟩
    else if (n + 1) % 8 = 7 then caseCR2 V c ⟨n + 1, hn⟩ (outsAtR2 c n (Nat.lt_of_succ_lt hn)).2.2.1 (outsAtR2 c n (Nat.lt_of_succ_lt hn)).2.2.2
    else caseBR2 V c ⟨n + 1, hn⟩ (outsAtR2 c n (Nat.lt_of_succ_lt hn)).2.2.1 (outsAtR2 c n (Nat.lt_of_succ_lt hn)).2.2.2

theorem outsAtR2_A (c : Dev nD) (t : Fin cfg2.N) (h0 : t.val % 8 = 0) : outsAtR2 V c t.val t.isLt = caseAR2 V c t := by
  obtain ⟨n, hn⟩ := t
  cases n with
  | zero => rfl
  | succ n => exact if_pos h0

theorem outsAtR2_B (c : Dev nD) (t : Fin cfg2.N) (h0 : ¬t.val % 8 = 0) (h1 : ¬t.val % 8 = 7) :
    outsAtR2 V c t.val t.isLt = caseBR2 V c t (outsAtR2 V c (t.val - 1) (Nat.lt_of_le_of_lt (Nat.sub_le _ _) t.isLt)).2.2.1 (outsAtR2 V c (t.val - 1) (Nat.lt_of_le_of_lt (Nat.sub_le _ _) t.isLt)).2.2.2 := by
  obtain ⟨n, hn⟩ := t
  cases n with
  | zero => exact absurd (Nat.zero_mod _) h0
  | succ n => exact (if_neg h0).trans (if_neg h1)

theorem outsAtR2_C (c : Dev nD) (t : Fin cfg2.N) (h0 : ¬t.val % 8 = 0) (h1 : t.val % 8 = 7) :
    outsAtR2 V c t.val t.isLt = caseCR2 V c t (outsAtR2 V c (t.val - 1) (Nat.lt_of_le_of_lt (Nat.sub_le _ _) t.isLt)).2.2.1 (outsAtR2 V c (t.val - 1) (Nat.lt_of_le_of_lt (Nat.sub_le _ _) t.isLt)).2.2.2 := by
  obtain ⟨n, hn⟩ := t
  cases n with
  | zero => exact absurd (Nat.zero_mod _) h0
  | succ n => exact (if_neg h0).trans (if_pos h1)

abbrev restR2 (c : Dev nD) : sProp 𝕄 :=
  Pipeline.scopedRestBut (Ix := Unit) (Name := ℕ) (U := UR sig nD τ) (Lvl := ℕ) (Val := Elt F) spec2 c [cc2_scratch0, cc2_scratch1]

def PhiR2 (c : Dev nD) : (n : ℕ) → n ≤ cfg2.N → sProp 𝕄
  | 0, _ => iprop(iprop((∃ d, owns (c : Thread nD τ) scMR2_0 fullShare d) ∗ (∃ d, owns (c : Thread nD τ) scMR2_1 fullShare d)) ∗ restR2 c)
  | n + 1, hn => iprop(iprop(owns (c : Thread nD τ) scMR2_0 fullShare ((outsAtR2 V c n hn).2.2.1) ∗ owns (c : Thread nD τ) scMR2_1 fullShare ((outsAtR2 V c n hn).2.2.2)) ∗ restR2 c)

theorem PhiR2_zero (c : Dev nD) (n : ℕ) (h : n ≤ cfg2.N) (hz : n = 0) :
    PhiR2 V c n h = iprop(iprop((∃ d, owns (c : Thread nD τ) scMR2_0 fullShare d) ∗ (∃ d, owns (c : Thread nD τ) scMR2_1 fullShare d)) ∗ restR2 c) := by
  subst hz; rfl

theorem PhiR2_succ (c : Dev nD) (n : ℕ) (hn : n < cfg2.N) :
    PhiR2 V c (n + 1) hn = iprop(iprop(owns (c : Thread nD τ) scMR2_0 fullShare ((outsAtR2 V c n hn).2.2.1) ∗ owns (c : Thread nD τ) scMR2_1 fullShare ((outsAtR2 V c n hn).2.2.2)) ∗ restR2 c) := rfl

theorem PhiR2_pos (c : Dev nD) (n : ℕ) (h : n ≤ cfg2.N) (hz : n ≠ 0) :
    PhiR2 V c n h = iprop(iprop(owns (c : Thread nD τ) scMR2_0 fullShare ((outsAtR2 V c (n - 1) (by omega)).2.2.1) ∗ owns (c : Thread nD τ) scMR2_1 fullShare ((outsAtR2 V c (n - 1) (by omega)).2.2.2)) ∗ restR2 c) := by
  cases n with
  | zero => exact absurd rfl hz
  | succ n => rfl

theorem PhiR2_any (c : Dev nD) (n : ℕ) (h : n ≤ cfg2.N) :
    PhiR2 V c n h ⊢ iprop(iprop((∃ d, owns (c : Thread nD τ) scMR2_0 fullShare d) ∗ (∃ d, owns (c : Thread nD τ) scMR2_1 fullShare d)) ∗ restR2 c) := by
  cases n with
  | zero => exact .rfl
  | succ n =>
    rw [PhiR2_succ]
    iintro ⟨⟨HS0, HS1⟩, HR⟩
    isplitl [HS0 HS1]
    · isplitl [HS0]
      · iexists _; iexact HS0
      · iexists _; iexact HS1
    iexact HR

theorem scopedRestR2_eq (c : Dev nD) :
    (Pipeline.scopedRest (Ix := Unit) (Name := ℕ) (U := UR sig nD τ) (Lvl := ℕ) (Val := Elt F) spec2 c : sProp 𝕄)
      = iprop(iprop((∃ d, owns (c : Thread nD τ) scMR2_0 fullShare d) ∗ (∃ d, owns (c : Thread nD τ) scMR2_1 fullShare d)) ∗ restR2 c) := by
  rw [scopedRest2_split]; simp only [scMR2_0, scMR2_1, owns_whole]; try rfl

def datR2 (c : Dev nD) : Dat τ (Elt F) Unit ℕ (UR sig nD τ) ℕ cfg2 c where
  A w := V c (Pipeline.arrRef spec2 w)
  after w t := match w with
    | ⟨0, _⟩ => iblkR2 V c 0 t
    | ⟨1, _⟩ => iblkR2 V c 1 t
    | ⟨2, _⟩ => iblkR2 V c 2 t
    | ⟨3, _⟩ => iblkR2 V c 3 t
    | ⟨4, _⟩ => (outsAtR2 V c t.val t.isLt).1
    | ⟨5, _⟩ => (outsAtR2 V c t.val t.isLt).2.1
  Φ t := PhiR2 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eqR2 (c : Dev nD) (w : Fin cfg2.W) : (datR2 V c).A w = V c (Pipeline.arrRef spec2 w) := by
  dsimp only [datR2]

theorem PhiR2_castSucc (c : Dev nD) (t : Fin cfg2.N) :
    (datR2 V c).Φ t.castSucc = PhiR2 V c t.val (Nat.le_of_lt t.isLt) := by
  dsimp only [datR2]; simp only [Fin.coe_castSucc]

theorem afterR2_0 (c : Dev nD) (t : Fin cfg2.N) : (datR2 V c).after 0 t = iblkR2 V c 0 t := by dsimp only [datR2]
theorem afterR2_1 (c : Dev nD) (t : Fin cfg2.N) : (datR2 V c).after 1 t = iblkR2 V c 1 t := by dsimp only [datR2]
theorem afterR2_2 (c : Dev nD) (t : Fin cfg2.N) : (datR2 V c).after 2 t = iblkR2 V c 2 t := by dsimp only [datR2]
theorem afterR2_3 (c : Dev nD) (t : Fin cfg2.N) : (datR2 V c).after 3 t = iblkR2 V c 3 t := by dsimp only [datR2]
theorem afterR2_4 (c : Dev nD) (t : Fin cfg2.N) : (datR2 V c).after 4 t = (outsAtR2 V c t.val t.isLt).1 := by dsimp only [datR2]
theorem afterR2_5 (c : Dev nD) (t : Fin cfg2.N) : (datR2 V c).after 5 t = (outsAtR2 V c t.val t.isLt).2.1 := by dsimp only [datR2]

theorem beforeR2_0 (c : Dev nD) (t : Fin cfg2.N) (d) : (datR2 V c).before 0 t d = iblkR2 V c 0 t :=
  ((datR2 V c).before_in_eq_fetched 0 rfl (fun _ => rfl) (fun _ _ _ => rfl) (fun t => by rw [afterR2_0]; unfold Dat.blockOf iblkR2; rw [A_eqR2]; try rfl) t d).trans
    (by unfold Dat.fetched Dat.blockOf iblkR2; rw [A_eqR2]; try rfl)
theorem beforeR2_1 (c : Dev nD) (t : Fin cfg2.N) (d) : (datR2 V c).before 1 t d = iblkR2 V c 1 t :=
  ((datR2 V c).before_in_eq_fetched 1 rfl (fun _ => rfl) (fun _ _ _ => rfl) (fun t => by rw [afterR2_1]; unfold Dat.blockOf iblkR2; rw [A_eqR2]; try rfl) t d).trans
    (by unfold Dat.fetched Dat.blockOf iblkR2; rw [A_eqR2]; try rfl)
theorem beforeR2_2 (c : Dev nD) (t : Fin cfg2.N) (d) : (datR2 V c).before 2 t d = iblkR2 V c 2 t :=
  ((datR2 V c).before_in_eq_fetched 2 rfl (fun _ => rfl) (fun _ _ _ => rfl) (fun t => by rw [afterR2_2]; unfold Dat.blockOf iblkR2; rw [A_eqR2]; try rfl) t d).trans
    (by unfold Dat.fetched Dat.blockOf iblkR2; rw [A_eqR2]; try rfl)
theorem beforeR2_3 (c : Dev nD) (t : Fin cfg2.N) (d) : (datR2 V c).before 3 t d = iblkR2 V c 3 t :=
  ((datR2 V c).before_in_eq_fetched 3 rfl (fun _ => rfl) (fun _ _ _ => rfl) (fun t => by rw [afterR2_3]; unfold Dat.blockOf iblkR2; rw [A_eqR2]; try rfl) t d).trans
    (by unfold Dat.fetched Dat.blockOf iblkR2; rw [A_eqR2]; try rfl)

def bodyPreR2 (c : Dev nD) (t : Fin cfg2.N) : sProp 𝕄 :=
  iprop((datR2 V c).Φ t.castSucc ∗ (datR2 V c).owesAt () t.castSucc
    ∗ (∃ d, owns (c : Thread nD τ) (msR2_0 t) fullShare ((datR2 V c).before 0 t d))
    ∗ (∃ d, owns (c : Thread nD τ) (msR2_1 t) fullShare ((datR2 V c).before 1 t d))
    ∗ (∃ d, owns (c : Thread nD τ) (msR2_2 t) fullShare ((datR2 V c).before 2 t d))
    ∗ (∃ d, owns (c : Thread nD τ) (msR2_3 t) fullShare ((datR2 V c).before 3 t d))
    ∗ (∃ d, owns (c : Thread nD τ) (msR2_4 t) fullShare ((datR2 V c).before 4 t d))
    ∗ (∃ d, owns (c : Thread nD τ) (msR2_5 t) fullShare ((datR2 V c).before 5 t d)))

def bodyPostR2 (c : Dev nD) (t : Fin cfg2.N) : sProp 𝕄 :=
  iprop((datR2 V c).Φ t.succ ∗ (datR2 V c).owesAt () t.succ
    ∗ (datR2 V c).leavesExact 0 t ∗ (datR2 V c).leavesExact 1 t ∗ (datR2 V c).leavesExact 2 t
    ∗ (datR2 V c).leavesExact 3 t ∗ (datR2 V c).leavesExact 4 t ∗ (datR2 V c).leavesExact 5 t)

/-- Where window w is live at point t the body leaves its buffer at the point's contents. -/
theorem leavesR2 (c : Dev nD) (w : Fin cfg2.W) (t : Fin cfg2.N) (h : cfg2.idle w (grid2.coords t) = false) :
    (datR2 V c).leavesExact w t = owns (c : Thread nD τ) ((cfg2.win w).stage (cfg2.slots t w)) fullShare ((datR2 V c).after w t) := by
  unfold Dat.leavesExact; rw [h]

/-- The body at any point: the column step says which case runs, from the running values the point before left. -/
theorem sound_bodyR2 (c : Dev nD) (t : Fin cfg2.N) :
    bodyPreR2 V c t ⊢ wp frame (wpE (defs₀ (F := F)) Variants.none c none) Set.univ (bodyAt2 t) (fun _ => bodyPostR2 V c t) := by
  unfold bodyPreR2 bodyPostR2
  rw [bodyAtR2]
  simp only [beforeR2_0, beforeR2_1, beforeR2_2, beforeR2_3]
  rw [show (datR2 V c).owesAt () t.succ = (datR2 V c).owesAt () t.castSucc from rfl]
  rw [show (datR2 V c).Φ t.succ = PhiR2 V c (t.val + 1) t.isLt from rfl, PhiR2_succ]
  rw [leavesR2 V c 0 t (liveAtR2_0 t), afterR2_0, leavesR2 V c 1 t (liveAtR2_1 t), afterR2_1, leavesR2 V c 2 t (liveAtR2_2 t), afterR2_2,
    leavesR2 V c 3 t (liveAtR2_3 t), afterR2_3, PhiR2_castSucc V c t]
  by_cases h1 : t.val % 8 = 7
  · have h0 : ¬t.val % 8 = 0 := by omega
    have hz : t.val ≠ 0 := fun h => h0 (by rw [h])
    rw [leavesR2 V c 4 t (liveAtR2_4 t ((hcondLast t).mpr h1)), afterR2_4, leavesR2 V c 5 t (liveAtR2_5 t ((hcondLast t).mpr h1)), afterR2_5,
      outsAtR2_C V c t h0 h1]
    unfold caseCR2 stepR2; dsimp only
    rw [PhiR2_pos V c _ _ hz]
    iintro ⟨⟨⟨HS0, HS1⟩, HR⟩, Ho, ⟨%d0, H0⟩, ⟨%d1, H1⟩, ⟨%d2, H2⟩, ⟨%d3, H3⟩, ⟨%d4, H4⟩, ⟨%d5, H5⟩⟩
    iapply (bodyC c (grid2.coords t) _ _ _ _ _ _ _ _ _ _ _ _ _ _ _ _ (fun h => h0 ((hcondFirst t).mp h)) ((hcondLast t).mpr h1) (iblkR2 V c 0 t) (iblkR2 V c 1 t) (iblkR2 V c 2 t) (iblkR2 V c 3 t) _ _ Set.univ _)
    iframe H0 H1 H2 H3 HS0 HS1
    isplitl [H4]; · iexists _; iexact H4
    isplitl [H5]; · iexists _; iexact H5
    iintro ⟨H0, H1, H2, H3, H4, H5, HS0, HS1⟩
    iframe
  · have h1' : ¬condLast (grid2.coords t) := fun h => h1 ((hcondLast t).mp h)
    rw [Dat.leavesExact_idle (datR2 V c) 4 t (idleAtR2_4 t h1') (noFlushR2_4 t h1'),
      Dat.leavesExact_idle (datR2 V c) 5 t (idleAtR2_5 t h1') (noFlushR2_5 t h1')]
    by_cases h0 : t.val % 8 = 0
    · rw [outsAtR2_A V c t h0]
      unfold caseAR2 stepR2; dsimp only
      iintro ⟨HΦ, Ho, ⟨%d0, H0⟩, ⟨%d1, H1⟩, ⟨%d2, H2⟩, ⟨%d3, H3⟩, ⟨%d4, H4⟩, ⟨%d5, H5⟩⟩
      ihave HΦ' := (PhiR2_any V c t.val (Nat.le_of_lt t.isLt)) $$ HΦ
      icases HΦ' with ⟨⟨HS0, HS1⟩, HR⟩
      iapply (bodyA c (grid2.coords t) _ _ _ _ _ _ _ _ _ _ _ _ _ _ _ _ ((hcondFirst t).mpr h0) h1' (iblkR2 V c 0 t) (iblkR2 V c 1 t) (iblkR2 V c 2 t) (iblkR2 V c 3 t) _ _ Set.univ _)
      iframe H0 H1 H2 H3 H4 H5 HS0 HS1
      iintro ⟨H0, H1, H2, H3, H4, H5, HS0, HS1⟩
      iframe HS0 HS1 HR Ho H0 H1 H2 H3
      isplitl [H4]; · iexists _; iexact H4
      iexists _; iexact H5
    · have hz : t.val ≠ 0 := fun h => h0 (by rw [h])
      rw [outsAtR2_B V c t h0 h1]
      unfold caseBR2 stepR2; dsimp only
      rw [PhiR2_pos V c _ _ hz]
      iintro ⟨⟨⟨HS0, HS1⟩, HR⟩, Ho, ⟨%d0, H0⟩, ⟨%d1, H1⟩, ⟨%d2, H2⟩, ⟨%d3, H3⟩, ⟨%d4, H4⟩, ⟨%d5, H5⟩⟩
      iapply (bodyB c (grid2.coords t) _ _ _ _ _ _ _ _ _ _ _ _ _ _ _ _ (fun h => h0 ((hcondFirst t).mp h)) h1' (iblkR2 V c 0 t) (iblkR2 V c 1 t) (iblkR2 V c 2 t) (iblkR2 V c 3 t) _ _ _ _ Set.univ _)
      iframe H0 H1 H2 H3 H4 H5 HS0 HS1
      iintro ⟨H0, H1, H2, H3, H4, H5, HS0, HS1⟩
      iframe HS0 HS1 HR Ho H0 H1 H2 H3
      isplitl [H4]; · iexists _; iexact H4
      iexists _; iexact H5

theorem body_obligationR2 (c : Dev nD) : BodyObligation (datR2 (F := F) V c) (defs₀ (F := F)) Variants.none () Set.univ := fun t => by
  rw [bigSep_W2, bigSep_W2]
  exact sound_bodyR2 V c t

theorem hinR2 (c : Dev nD) :
    (Pipeline.scopedRest (Ix := Unit) (Name := ℕ) (U := UR sig nD τ) (Lvl := ℕ) (Val := Elt F) spec2 c : sProp 𝕄) ⊢ (datR2 V c).Φ 0 := by
  rw [show (datR2 V c).Φ 0 = PhiR2 V c 0 (Nat.zero_le _) from rfl, PhiR2_zero V c 0 _ rfl, scopedRestR2_eq]
  try exact Idealize.SL.BI.Entails.refl _

theorem houtR2 (c : Dev nD) :
    (datR2 V c).Φ (Fin.last cfg2.N) ⊢ (Pipeline.scopedRest (Ix := Unit) (Name := ℕ) (U := UR sig nD τ) (Lvl := ℕ) (Val := Elt F) spec2 c : sProp 𝕄) := by
  rw [show (datR2 V c).Φ (Fin.last cfg2.N) = PhiR2 V c (Fin.last cfg2.N).val (Nat.le_of_lt_succ (Fin.last cfg2.N).isLt) from rfl, scopedRestR2_eq]
  exact PhiR2_any V c _ _

end Cert.Kernel.Hand

end
-- ==== Proof.K.Arrays0.lean ====
/- One launch's five arrays split off the rest of memory and joined back; the matrix is read through two windows,
   each holding half of its share. -/
import proofs.«145578_j51728586113513_1_alg».proof.Proof.Gen.Kernel.Launch
import Idealize.ShloMosaic.Lib.Pipeline.Frame
import Idealize.ShloMosaic.Lib.Pipeline.Regions

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

def arrRefsR0 : Finset (DevRef τ sig) :=
  {Proc.devRef .tc main_arg0, Proc.devRef .tc main_v0, Proc.devRef .tc main_v1, Proc.devRef .tc main_v2_0, Proc.devRef .tc main_v2_1}

def restRefsR0 : Finset (DevRef τ sig) := Pipeline.ucRefs τ sig \ arrRefsR0

theorem arrRefsR0_sub : arrRefsR0 ⊆ Pipeline.ucRefs τ sig := by
  intro b hb
  simp only [arrRefsR0, Finset.mem_insert, Finset.mem_singleton] at hb
  rcases hb with rfl | rfl | rfl | rfl | rfl <;> exact Finset.mem_filter.mpr ⟨StableHlo.devRef_mem_tcRefs _, by decide⟩

theorem restRefsR0_ne {b : DevRef τ sig} (hb : b ∈ restRefsR0) :
    b ≠ Proc.devRef .tc main_arg0 ∧ b ≠ Proc.devRef .tc main_v0 ∧ b ≠ Proc.devRef .tc main_v1
      ∧ b ≠ Proc.devRef .tc main_v2_0 ∧ b ≠ Proc.devRef .tc main_v2_1 := by
  have h := (Finset.mem_sdiff.mp hb).2
  simp only [arrRefsR0, Finset.mem_insert, Finset.mem_singleton, not_or] at h
  exact h

theorem arrays_eqR0 (c : Dev nD) (dat : Dat τ (Elt F) Unit ℕ (UR sig nD τ) ℕ cfg0 c)
    (G : (w : Fin cfg0.W) → Buf (Elt F) ((cfg0.win w).arr.view.loc (c.tc : Thread nD τ))) :
    (dat.arrays G : sProp 𝕄) = iprop(
      ((((c : Thread nD τ).1, Proc.devRef .tc main_arg0) : Loc nD τ sig) ↦{dat.q 0} G 0)
      ∗ ((((c : Thread nD τ).1, Proc.devRef .tc main_arg0) : Loc nD τ sig) ↦{dat.q 1} G 1)
      ∗ ((((c : Thread nD τ).1, Proc.devRef .tc main_v0) : Loc nD τ sig) ↦{dat.q 2} G 2)
      ∗ ((((c : Thread nD τ).1, Proc.devRef .tc main_v1) : Loc nD τ sig) ↦{dat.q 3} G 3)
      ∗ ((((c : Thread nD τ).1, Proc.devRef .tc main_v2_0) : Loc nD τ sig) ↦{fullShare} G 4)
      ∗ ((((c : Thread nD τ).1, Proc.devRef .tc main_v2_1) : Loc nD τ sig) ↦{fullShare} G 5)) := by
  unfold Dat.arrays
  rw [bigSep_W0]
  have s0 : (cfg0.win 0).arr.view.set = Finset.univ := (arr_whole0 0).set_eq_univ
  have s2 : (cfg0.win 2).arr.view.set = Finset.univ := (arr_whole0 2).set_eq_univ
  have s3 : (cfg0.win 3).arr.view.set = Finset.univ := (arr_whole0 3).set_eq_univ
  have s4 : (cfg0.win 4).arr.view.set = Finset.univ := (arr_whole0 4).set_eq_univ
  have s5 : (cfg0.win 5).arr.view.set = Finset.univ := (arr_whole0 5).set_eq_univ
  have q0 : dat.share 0 = dat.q 0 := if_neg (by decide)
  have q1 : dat.share 1 = dat.q 1 := if_neg (by decide)
  have q2 : dat.share 2 = dat.q 2 := if_neg (by decide)
  have q3 : dat.share 3 = dat.q 3 := if_neg (by decide)
  have q4 : dat.share 4 = fullShare := if_pos (by decide)
  have q5 : dat.share 5 = fullShare := if_pos (by decide)
  rw [s0, s2, s3, s4, s5, q0, q1, q2, q3, q4, q5]

theorem held_arrRefsR0 (c : Dev nD) (W : Valuation τ sig (Elt F)) :
    (StableHlo.held (c : Thread nD τ) arrRefsR0 W : sProp 𝕄) = iprop(
      ((((c : Thread nD τ).1, Proc.devRef .tc main_arg0) : Loc nD τ sig) ↦{fullShare} W (Proc.devRef .tc main_arg0))
      ∗ ((((c : Thread nD τ).1, Proc.devRef .tc main_v0) : Loc nD τ sig) ↦{fullShare} W (Proc.devRef .tc main_v0))
      ∗ ((((c : Thread nD τ).1, Proc.devRef .tc main_v1) : Loc nD τ sig) ↦{fullShare} W (Proc.devRef .tc main_v1))
      ∗ ((((c : Thread nD τ).1, Proc.devRef .tc main_v2_0) : Loc nD τ sig) ↦{fullShare} W (Proc.devRef .tc main_v2_0))
      ∗ ((((c : Thread nD τ).1, Proc.devRef .tc main_v2_1) : Loc nD τ sig) ↦{fullShare} W (Proc.devRef .tc main_v2_1))) := by
  unfold StableHlo.held arrRefsR0
  rw [bigSep_insert (by
        simp only [Finset.mem_insert, Finset.mem_singleton, not_or]
        exact ⟨StableHlo.devRef_ne_of_ne (by decide), StableHlo.devRef_ne_of_ne (by decide), StableHlo.devRef_ne_of_ne (by decide), StableHlo.devRef_ne_of_ne (by decide)⟩),
    bigSep_insert (by
        simp only [Finset.mem_insert, Finset.mem_singleton, not_or]
        exact ⟨StableHlo.devRef_ne_of_ne (by decide), StableHlo.devRef_ne_of_ne (by decide), StableHlo.devRef_ne_of_ne (by decide)⟩),
    bigSep_insert (by
        simp only [Finset.mem_insert, Finset.mem_singleton, not_or]
        exact ⟨StableHlo.devRef_ne_of_ne (by decide), StableHlo.devRef_ne_of_ne (by decide)⟩),
    bigSep_insert (by
        simp only [Finset.mem_singleton]
        exact StableHlo.devRef_ne_of_ne (by decide)),
    bigSep_singleton]
  rfl

theorem entryR0 (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (W : Valuation τ sig (Elt F)) (hA : ∀ w, dat.A w = W (Proc.devRef .tc (Pipeline.arrRef spec0 w))) :
    (StableHlo.held (c : Thread nD τ) (Pipeline.ucRefs τ sig) W : sProp 𝕄)
      ⊢ iprop(dat.arrays (dat.arrAt · 0) ∗ StableHlo.held (c : Thread nD τ) restRefsR0 W) := by
  rw [StableHlo.held_sub_split (c : Thread nD τ) arrRefsR0_sub W]
  refine BIClass.sep_mono ?_ .rfl
  have hG : (fun w => dat.arrAt w 0) = fun w => W (Proc.devRef .tc (Pipeline.arrRef spec0 w)) := funext hA
  rw [hG, held_arrRefsR0, arrays_eqR0, hq0, hq1, hq2, hq3]
  iintro ⟨H0, H2, H3, H4, H5⟩
  ihave H0' := (pointsTo_share (PosShare.mem_left_op_right fullShare)).1 $$ H0
  icases H0' with ⟨Hl, Hr⟩
  iframe

theorem exitR0 (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (W W' : Valuation τ sig (Elt F))
    (G : (w : Fin cfg0.W) → Buf (Elt F) ((cfg0.win w).arr.view.loc (c.tc : Thread nD τ)))
    (hG : ∀ w, G w = W' (Proc.devRef .tc (Pipeline.arrRef spec0 w)))
    (hrest : ∀ b ∈ restRefsR0, W' b = W b) :
    iprop(dat.arrays G ∗ StableHlo.held (c : Thread nD τ) restRefsR0 W)
      ⊢ (StableHlo.held (c : Thread nD τ) (Pipeline.ucRefs τ sig) W' : sProp 𝕄) := by
  rw [StableHlo.held_sub_split (c : Thread nD τ) arrRefsR0_sub W']
  refine BIClass.sep_mono ?_ (Entails.of_eq (StableHlo.held_congr (c : Thread nD τ) hrest).symm)
  obtain rfl : G = fun w => W' (Proc.devRef .tc (Pipeline.arrRef spec0 w)) := funext hG
  rw [held_arrRefsR0, arrays_eqR0, hq0, hq1, hq2, hq3]
  iintro ⟨Hl, Hr, H2, H3, H4, H5⟩
  isplitl [Hl Hr]
  · iapply (pointsTo_share (PosShare.mem_left_op_right fullShare)).2
    iframe
  iframe

end Cert.Kernel.Hand

end
-- ==== Proof.K.Arrays1.lean ====
/- One launch's five arrays split off the rest of memory and joined back; the matrix is read through two windows,
   each holding half of its share. -/
import proofs.«145578_j51728586113513_1_alg».proof.Proof.Gen.Kernel.Launch
import Idealize.ShloMosaic.Lib.Pipeline.Frame
import Idealize.ShloMosaic.Lib.Pipeline.Regions

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

def arrRefsR1 : Finset (DevRef τ sig) :=
  {Proc.devRef .tc main_arg1, Proc.devRef .tc main_v5, Proc.devRef .tc main_v6, Proc.devRef .tc main_v7_0, Proc.devRef .tc main_v7_1}

def restRefsR1 : Finset (DevRef τ sig) := Pipeline.ucRefs τ sig \ arrRefsR1

theorem arrRefsR1_sub : arrRefsR1 ⊆ Pipeline.ucRefs τ sig := by
  intro b hb
  simp only [arrRefsR1, Finset.mem_insert, Finset.mem_singleton] at hb
  rcases hb with rfl | rfl | rfl | rfl | rfl <;> exact Finset.mem_filter.mpr ⟨StableHlo.devRef_mem_tcRefs _, by decide⟩

theorem restRefsR1_ne {b : DevRef τ sig} (hb : b ∈ restRefsR1) :
    b ≠ Proc.devRef .tc main_arg1 ∧ b ≠ Proc.devRef .tc main_v5 ∧ b ≠ Proc.devRef .tc main_v6
      ∧ b ≠ Proc.devRef .tc main_v7_0 ∧ b ≠ Proc.devRef .tc main_v7_1 := by
  have h := (Finset.mem_sdiff.mp hb).2
  simp only [arrRefsR1, Finset.mem_insert, Finset.mem_singleton, not_or] at h
  exact h

theorem arrays_eqR1 (c : Dev nD) (dat : Dat τ (Elt F) Unit ℕ (UR sig nD τ) ℕ cfg1 c)
    (G : (w : Fin cfg1.W) → Buf (Elt F) ((cfg1.win w).arr.view.loc (c.tc : Thread nD τ))) :
    (dat.arrays G : sProp 𝕄) = iprop(
      ((((c : Thread nD τ).1, Proc.devRef .tc main_arg1) : Loc nD τ sig) ↦{dat.q 0} G 0)
      ∗ ((((c : Thread nD τ).1, Proc.devRef .tc main_arg1) : Loc nD τ sig) ↦{dat.q 1} G 1)
      ∗ ((((c : Thread nD τ).1, Proc.devRef .tc main_v5) : Loc nD τ sig) ↦{dat.q 2} G 2)
      ∗ ((((c : Thread nD τ).1, Proc.devRef .tc main_v6) : Loc nD τ sig) ↦{dat.q 3} G 3)
      ∗ ((((c : Thread nD τ).1, Proc.devRef .tc main_v7_0) : Loc nD τ sig) ↦{fullShare} G 4)
      ∗ ((((c : Thread nD τ).1, Proc.devRef .tc main_v7_1) : Loc nD τ sig) ↦{fullShare} G 5)) := by
  unfold Dat.arrays
  rw [bigSep_W1]
  have s0 : (cfg1.win 0).arr.view.set = Finset.univ := (arr_whole1 0).set_eq_univ
  have s2 : (cfg1.win 2).arr.view.set = Finset.univ := (arr_whole1 2).set_eq_univ
  have s3 : (cfg1.win 3).arr.view.set = Finset.univ := (arr_whole1 3).set_eq_univ
  have s4 : (cfg1.win 4).arr.view.set = Finset.univ := (arr_whole1 4).set_eq_univ
  have s5 : (cfg1.win 5).arr.view.set = Finset.univ := (arr_whole1 5).set_eq_univ
  have q0 : dat.share 0 = dat.q 0 := if_neg (by decide)
  have q1 : dat.share 1 = dat.q 1 := if_neg (by decide)
  have q2 : dat.share 2 = dat.q 2 := if_neg (by decide)
  have q3 : dat.share 3 = dat.q 3 := if_neg (by decide)
  have q4 : dat.share 4 = fullShare := if_pos (by decide)
  have q5 : dat.share 5 = fullShare := if_pos (by decide)
  rw [s0, s2, s3, s4, s5, q0, q1, q2, q3, q4, q5]

theorem held_arrRefsR1 (c : Dev nD) (W : Valuation τ sig (Elt F)) :
    (StableHlo.held (c : Thread nD τ) arrRefsR1 W : sProp 𝕄) = iprop(
      ((((c : Thread nD τ).1, Proc.devRef .tc main_arg1) : Loc nD τ sig) ↦{fullShare} W (Proc.devRef .tc main_arg1))
      ∗ ((((c : Thread nD τ).1, Proc.devRef .tc main_v5) : Loc nD τ sig) ↦{fullShare} W (Proc.devRef .tc main_v5))
      ∗ ((((c : Thread nD τ).1, Proc.devRef .tc main_v6) : Loc nD τ sig) ↦{fullShare} W (Proc.devRef .tc main_v6))
      ∗ ((((c : Thread nD τ).1, Proc.devRef .tc main_v7_0) : Loc nD τ sig) ↦{fullShare} W (Proc.devRef .tc main_v7_0))
      ∗ ((((c : Thread nD τ).1, Proc.devRef .tc main_v7_1) : Loc nD τ sig) ↦{fullShare} W (Proc.devRef .tc main_v7_1))) := by
  unfold StableHlo.held arrRefsR1
  rw [bigSep_insert (by
        simp only [Finset.mem_insert, Finset.mem_singleton, not_or]
        exact ⟨StableHlo.devRef_ne_of_ne (by decide), StableHlo.devRef_ne_of_ne (by decide), StableHlo.devRef_ne_of_ne (by decide), StableHlo.devRef_ne_of_ne (by decide)⟩),
    bigSep_insert (by
        simp only [Finset.mem_insert, Finset.mem_singleton, not_or]
        exact ⟨StableHlo.devRef_ne_of_ne (by decide), StableHlo.devRef_ne_of_ne (by decide), StableHlo.devRef_ne_of_ne (by decide)⟩),
    bigSep_insert (by
        simp only [Finset.mem_insert, Finset.mem_singleton, not_or]
        exact ⟨StableHlo.devRef_ne_of_ne (by decide), StableHlo.devRef_ne_of_ne (by decide)⟩),
    bigSep_insert (by
        simp only [Finset.mem_singleton]
        exact StableHlo.devRef_ne_of_ne (by decide)),
    bigSep_singleton]
  rfl

theorem entryR1 (c : Dev nD) (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (W : Valuation τ sig (Elt F)) (hA : ∀ w, dat.A w = W (Proc.devRef .tc (Pipeline.arrRef spec1 w))) :
    (StableHlo.held (c : Thread nD τ) (Pipeline.ucRefs τ sig) W : sProp 𝕄)
      ⊢ iprop(dat.arrays (dat.arrAt · 0) ∗ StableHlo.held (c : Thread nD τ) restRefsR1 W) := by
  rw [StableHlo.held_sub_split (c : Thread nD τ) arrRefsR1_sub W]
  refine BIClass.sep_mono ?_ .rfl
  have hG : (fun w => dat.arrAt w 0) = fun w => W (Proc.devRef .tc (Pipeline.arrRef spec1 w)) := funext hA
  rw [hG, held_arrRefsR1, arrays_eqR1, hq0, hq1, hq2, hq3]
  iintro ⟨H0, H2, H3, H4, H5⟩
  ihave H0' := (pointsTo_share (PosShare.mem_left_op_right fullShare)).1 $$ H0
  icases H0' with ⟨Hl, Hr⟩
  iframe

theorem exitR1 (c : Dev nD) (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (W W' : Valuation τ sig (Elt F))
    (G : (w : Fin cfg1.W) → Buf (Elt F) ((cfg1.win w).arr.view.loc (c.tc : Thread nD τ)))
    (hG : ∀ w, G w = W' (Proc.devRef .tc (Pipeline.arrRef spec1 w)))
    (hrest : ∀ b ∈ restRefsR1, W' b = W b) :
    iprop(dat.arrays G ∗ StableHlo.held (c : Thread nD τ) restRefsR1 W)
      ⊢ (StableHlo.held (c : Thread nD τ) (Pipeline.ucRefs τ sig) W' : sProp 𝕄) := by
  rw [StableHlo.held_sub_split (c : Thread nD τ) arrRefsR1_sub W']
  refine BIClass.sep_mono ?_ (Entails.of_eq (StableHlo.held_congr (c : Thread nD τ) hrest).symm)
  obtain rfl : G = fun w => W' (Proc.devRef .tc (Pipeline.arrRef spec1 w)) := funext hG
  rw [held_arrRefsR1, arrays_eqR1, hq0, hq1, hq2, hq3]
  iintro ⟨Hl, Hr, H2, H3, H4, H5⟩
  isplitl [Hl Hr]
  · iapply (pointsTo_share (PosShare.mem_left_op_right fullShare)).2
    iframe
  iframe

end Cert.Kernel.Hand

end
-- ==== Proof.K.Arrays2.lean ====
/- One launch's five arrays split off the rest of memory and joined back; the matrix is read through two windows,
   each holding half of its share. -/
import proofs.«145578_j51728586113513_1_alg».proof.Proof.Gen.Kernel.Launch
import Idealize.ShloMosaic.Lib.Pipeline.Frame
import Idealize.ShloMosaic.Lib.Pipeline.Regions

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

def arrRefsR2 : Finset (DevRef τ sig) :=
  {Proc.devRef .tc main_arg2, Proc.devRef .tc main_v10, Proc.devRef .tc main_v11, Proc.devRef .tc main_v12_0, Proc.devRef .tc main_v12_1}

def restRefsR2 : Finset (DevRef τ sig) := Pipeline.ucRefs τ sig \ arrRefsR2

theorem arrRefsR2_sub : arrRefsR2 ⊆ Pipeline.ucRefs τ sig := by
  intro b hb
  simp only [arrRefsR2, Finset.mem_insert, Finset.mem_singleton] at hb
  rcases hb with rfl | rfl | rfl | rfl | rfl <;> exact Finset.mem_filter.mpr ⟨StableHlo.devRef_mem_tcRefs _, by decide⟩

theorem restRefsR2_ne {b : DevRef τ sig} (hb : b ∈ restRefsR2) :
    b ≠ Proc.devRef .tc main_arg2 ∧ b ≠ Proc.devRef .tc main_v10 ∧ b ≠ Proc.devRef .tc main_v11
      ∧ b ≠ Proc.devRef .tc main_v12_0 ∧ b ≠ Proc.devRef .tc main_v12_1 := by
  have h := (Finset.mem_sdiff.mp hb).2
  simp only [arrRefsR2, Finset.mem_insert, Finset.mem_singleton, not_or] at h
  exact h

theorem arrays_eqR2 (c : Dev nD) (dat : Dat τ (Elt F) Unit ℕ (UR sig nD τ) ℕ cfg2 c)
    (G : (w : Fin cfg2.W) → Buf (Elt F) ((cfg2.win w).arr.view.loc (c.tc : Thread nD τ))) :
    (dat.arrays G : sProp 𝕄) = iprop(
      ((((c : Thread nD τ).1, Proc.devRef .tc main_arg2) : Loc nD τ sig) ↦{dat.q 0} G 0)
      ∗ ((((c : Thread nD τ).1, Proc.devRef .tc main_arg2) : Loc nD τ sig) ↦{dat.q 1} G 1)
      ∗ ((((c : Thread nD τ).1, Proc.devRef .tc main_v10) : Loc nD τ sig) ↦{dat.q 2} G 2)
      ∗ ((((c : Thread nD τ).1, Proc.devRef .tc main_v11) : Loc nD τ sig) ↦{dat.q 3} G 3)
      ∗ ((((c : Thread nD τ).1, Proc.devRef .tc main_v12_0) : Loc nD τ sig) ↦{fullShare} G 4)
      ∗ ((((c : Thread nD τ).1, Proc.devRef .tc main_v12_1) : Loc nD τ sig) ↦{fullShare} G 5)) := by
  unfold Dat.arrays
  rw [bigSep_W2]
  have s0 : (cfg2.win 0).arr.view.set = Finset.univ := (arr_whole2 0).set_eq_univ
  have s2 : (cfg2.win 2).arr.view.set = Finset.univ := (arr_whole2 2).set_eq_univ
  have s3 : (cfg2.win 3).arr.view.set = Finset.univ := (arr_whole2 3).set_eq_univ
  have s4 : (cfg2.win 4).arr.view.set = Finset.univ := (arr_whole2 4).set_eq_univ
  have s5 : (cfg2.win 5).arr.view.set = Finset.univ := (arr_whole2 5).set_eq_univ
  have q0 : dat.share 0 = dat.q 0 := if_neg (by decide)
  have q1 : dat.share 1 = dat.q 1 := if_neg (by decide)
  have q2 : dat.share 2 = dat.q 2 := if_neg (by decide)
  have q3 : dat.share 3 = dat.q 3 := if_neg (by decide)
  have q4 : dat.share 4 = fullShare := if_pos (by decide)
  have q5 : dat.share 5 = fullShare := if_pos (by decide)
  rw [s0, s2, s3, s4, s5, q0, q1, q2, q3, q4, q5]

theorem held_arrRefsR2 (c : Dev nD) (W : Valuation τ sig (Elt F)) :
    (StableHlo.held (c : Thread nD τ) arrRefsR2 W : sProp 𝕄) = iprop(
      ((((c : Thread nD τ).1, Proc.devRef .tc main_arg2) : Loc nD τ sig) ↦{fullShare} W (Proc.devRef .tc main_arg2))
      ∗ ((((c : Thread nD τ).1, Proc.devRef .tc main_v10) : Loc nD τ sig) ↦{fullShare} W (Proc.devRef .tc main_v10))
      ∗ ((((c : Thread nD τ).1, Proc.devRef .tc main_v11) : Loc nD τ sig) ↦{fullShare} W (Proc.devRef .tc main_v11))
      ∗ ((((c : Thread nD τ).1, Proc.devRef .tc main_v12_0) : Loc nD τ sig) ↦{fullShare} W (Proc.devRef .tc main_v12_0))
      ∗ ((((c : Thread nD τ).1, Proc.devRef .tc main_v12_1) : Loc nD τ sig) ↦{fullShare} W (Proc.devRef .tc main_v12_1))) := by
  unfold StableHlo.held arrRefsR2
  rw [bigSep_insert (by
        simp only [Finset.mem_insert, Finset.mem_singleton, not_or]
        exact ⟨StableHlo.devRef_ne_of_ne (by decide), StableHlo.devRef_ne_of_ne (by decide), StableHlo.devRef_ne_of_ne (by decide), StableHlo.devRef_ne_of_ne (by decide)⟩),
    bigSep_insert (by
        simp only [Finset.mem_insert, Finset.mem_singleton, not_or]
        exact ⟨StableHlo.devRef_ne_of_ne (by decide), StableHlo.devRef_ne_of_ne (by decide), StableHlo.devRef_ne_of_ne (by decide)⟩),
    bigSep_insert (by
        simp only [Finset.mem_insert, Finset.mem_singleton, not_or]
        exact ⟨StableHlo.devRef_ne_of_ne (by decide), StableHlo.devRef_ne_of_ne (by decide)⟩),
    bigSep_insert (by
        simp only [Finset.mem_singleton]
        exact StableHlo.devRef_ne_of_ne (by decide)),
    bigSep_singleton]
  rfl

theorem entryR2 (c : Dev nD) (dat : Dat τ (Elt F) Unit ℕ (UR sig nD τ) ℕ cfg2 c)
    (hq0 : dat.q 0 = fullShare.left) (hq1 : dat.q 1 = fullShare.right) (hq2 : dat.q 2 = fullShare) (hq3 : dat.q 3 = fullShare)
    (W : Valuation τ sig (Elt F)) (hA : ∀ w, dat.A w = W (Proc.devRef .tc (Pipeline.arrRef spec2 w))) :
    (StableHlo.held (c : Thread nD τ) (Pipeline.ucRefs τ sig) W : sProp 𝕄)
      ⊢ iprop(dat.arrays (dat.arrAt · 0) ∗ StableHlo.held (c : Thread nD τ) restRefsR2 W) := by
  rw [StableHlo.held_sub_split (c : Thread nD τ) arrRefsR2_sub W]
  refine BIClass.sep_mono ?_ .rfl
  have hG : (fun w => dat.arrAt w 0) = fun w => W (Proc.devRef .tc (Pipeline.arrRef spec2 w)) := funext hA
  rw [hG, held_arrRefsR2, arrays_eqR2, hq0, hq1, hq2, hq3]
  iintro ⟨H0, H2, H3, H4, H5⟩
  ihave H0' := (pointsTo_share (PosShare.mem_left_op_right fullShare)).1 $$ H0
  icases H0' with ⟨Hl, Hr⟩
  iframe

theorem exitR2 (c : Dev nD) (dat : Dat τ (Elt F) Unit ℕ (UR sig nD τ) ℕ cfg2 c)
    (hq0 : dat.q 0 = fullShare.left) (hq1 : dat.q 1 = fullShare.right) (hq2 : dat.q 2 = fullShare) (hq3 : dat.q 3 = fullShare)
    (W W' : Valuation τ sig (Elt F))
    (G : (w : Fin cfg2.W) → Buf (Elt F) ((cfg2.win w).arr.view.loc (c.tc : Thread nD τ)))
    (hG : ∀ w, G w = W' (Proc.devRef .tc (Pipeline.arrRef spec2 w)))
    (hrest : ∀ b ∈ restRefsR2, W' b = W b) :
    iprop(dat.arrays G ∗ StableHlo.held (c : Thread nD τ) restRefsR2 W)
      ⊢ (StableHlo.held (c : Thread nD τ) (Pipeline.ucRefs τ sig) W' : sProp 𝕄) := by
  rw [StableHlo.held_sub_split (c : Thread nD τ) arrRefsR2_sub W']
  refine BIClass.sep_mono ?_ (Entails.of_eq (StableHlo.held_congr (c : Thread nD τ) hrest).symm)
  obtain rfl : G = fun w => W' (Proc.devRef .tc (Pipeline.arrRef spec2 w)) := funext hG
  rw [held_arrRefsR2, arrays_eqR2, hq0, hq1, hq2, hq3]
  iintro ⟨Hl, Hr, H2, H3, H4, H5⟩
  isplitl [Hl Hr]
  · iapply (pointsTo_share (PosShare.mem_left_op_right fullShare)).2
    iframe
  iframe

end Cert.Kernel.Hand

end
-- ==== Proof.K.Frame.lean ====
/- The whole program's run: three launches between stretches of host operations, the memory's contents followed
   through each; every execution ends, faults nowhere and leaves the arguments as they were. -/
import proofs.«145578_j51728586113513_1_alg».proof.Proof.K.Dat0
import proofs.«145578_j51728586113513_1_alg».proof.Proof.K.Dat1
import proofs.«145578_j51728586113513_1_alg».proof.Proof.K.Dat2
import proofs.«145578_j51728586113513_1_alg».proof.Proof.K.Arrays0
import proofs.«145578_j51728586113513_1_alg».proof.Proof.K.Arrays1
import proofs.«145578_j51728586113513_1_alg».proof.Proof.K.Arrays2
import proofs.«145578_j51728586113513_1_alg».proof.Proof.Gen.Kernel.Regions
import Idealize.ShloMosaic.Lib.Pipeline.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

variable (m : (ℓ : Loc nD τ sig) → Buf (Elt F) ℓ) (ρ : Dev nD → PrngReg)

abbrev W0 : Dev nD → Valuation τ sig (Elt F) := fun c b => m (c, b)
abbrev W1 : Dev nD → Valuation τ sig (Elt F) := fun c => StableHlo.after hostOps0 (W0 m c)
abbrev U1 : (c : Dev nD) → (b : Ref sig .tc) → Buf (Elt F) ((c : Thread nD τ).loc b) := fun c b => W1 m c b

def W2 (c : Dev nD) : Valuation τ sig (Elt F) :=
  Function.update (Function.update (W1 m c) (Proc.devRef .tc main_v2_0) ((datR0 (U1 m) c).arrAt 4 cfg0.N)) (Proc.devRef .tc main_v2_1) ((datR0 (U1 m) c).arrAt 5 cfg0.N)
theorem W2_o0 (c : Dev nD) : W2 m c (Proc.devRef .tc main_v2_0) = (datR0 (U1 m) c).arrAt 4 cfg0.N := by
  unfold W2; rw [Function.update_of_ne (StableHlo.devRef_ne_of_ne (by decide)), Function.update_self]
theorem W2_o1 (c : Dev nD) : W2 m c (Proc.devRef .tc main_v2_1) = (datR0 (U1 m) c).arrAt 5 cfg0.N := by
  unfold W2; rw [Function.update_self]
theorem W2_of_ne (c : Dev nD) (b : DevRef τ sig) (h0 : b ≠ Proc.devRef .tc main_v2_0) (h1 : b ≠ Proc.devRef .tc main_v2_1) : W2 m c b = W1 m c b := by
  unfold W2; rw [Function.update_of_ne h1, Function.update_of_ne h0]
theorem hG0 (c : Dev nD) (w : Fin cfg0.W) : (datR0 (U1 m) c).arrAt w cfg0.N = W2 m c (Proc.devRef .tc (Pipeline.arrRef spec0 w)) :=
  match w with
  | ⟨0, _⟩ => (((datR0 (U1 m) c).arrAt_in 0 rfl _).trans (A_eqR0 (U1 m) c 0)).trans (W2_of_ne m c _ (StableHlo.devRef_ne_of_ne (by decide)) (StableHlo.devRef_ne_of_ne (by decide))).symm
  | ⟨1, _⟩ => (((datR0 (U1 m) c).arrAt_in 1 rfl _).trans (A_eqR0 (U1 m) c 1)).trans (W2_of_ne m c _ (StableHlo.devRef_ne_of_ne (by decide)) (StableHlo.devRef_ne_of_ne (by decide))).symm
  | ⟨2, _⟩ => (((datR0 (U1 m) c).arrAt_in 2 rfl _).trans (A_eqR0 (U1 m) c 2)).trans (W2_of_ne m c _ (StableHlo.devRef_ne_of_ne (by decide)) (StableHlo.devRef_ne_of_ne (by decide))).symm
  | ⟨3, _⟩ => (((datR0 (U1 m) c).arrAt_in 3 rfl _).trans (A_eqR0 (U1 m) c 3)).trans (W2_of_ne m c _ (StableHlo.devRef_ne_of_ne (by decide)) (StableHlo.devRef_ne_of_ne (by decide))).symm
  | ⟨4, _⟩ => (W2_o0 m c).symm
  | ⟨5, _⟩ => (W2_o1 m c).symm

abbrev W3 : Dev nD → Valuation τ sig (Elt F) := fun c => StableHlo.after hostOps1 (W2 m c)
abbrev U3 : (c : Dev nD) → (b : Ref sig .tc) → Buf (Elt F) ((c : Thread nD τ).loc b) := fun c b => W3 m c b

def W4 (c : Dev nD) : Valuation τ sig (Elt F) :=
  Function.update (Function.update (W3 m c) (Proc.devRef .tc main_v7_0) ((datR1 (U3 m) c).arrAt 4 cfg1.N)) (Proc.devRef .tc main_v7_1) ((datR1 (U3 m) c).arrAt 5 cfg1.N)
theorem W4_o0 (c : Dev nD) : W4 m c (Proc.devRef .tc main_v7_0) = (datR1 (U3 m) c).arrAt 4 cfg1.N := by
  unfold W4; rw [Function.update_of_ne (StableHlo.devRef_ne_of_ne (by decide)), Function.update_self]
theorem W4_o1 (c : Dev nD) : W4 m c (Proc.devRef .tc main_v7_1) = (datR1 (U3 m) c).arrAt 5 cfg1.N := by
  unfold W4; rw [Function.update_self]
theorem W4_of_ne (c : Dev nD) (b : DevRef τ sig) (h0 : b ≠ Proc.devRef .tc main_v7_0) (h1 : b ≠ Proc.devRef .tc main_v7_1) : W4 m c b = W3 m c b := by
  unfold W4; rw [Function.update_of_ne h1, Function.update_of_ne h0]
theorem hG1 (c : Dev nD) (w : Fin cfg1.W) : (datR1 (U3 m) c).arrAt w cfg1.N = W4 m c (Proc.devRef .tc (Pipeline.arrRef spec1 w)) :=
  match w with
  | ⟨0, _⟩ => (((datR1 (U3 m) c).arrAt_in 0 rfl _).trans (A_eqR1 (U3 m) c 0)).trans (W4_of_ne m c _ (StableHlo.devRef_ne_of_ne (by decide)) (StableHlo.devRef_ne_of_ne (by decide))).symm
  | ⟨1, _⟩ => (((datR1 (U3 m) c).arrAt_in 1 rfl _).trans (A_eqR1 (U3 m) c 1)).trans (W4_of_ne m c _ (StableHlo.devRef_ne_of_ne (by decide)) (StableHlo.devRef_ne_of_ne (by decide))).symm
  | ⟨2, _⟩ => (((datR1 (U3 m) c).arrAt_in 2 rfl _).trans (A_eqR1 (U3 m) c 2)).trans (W4_of_ne m c _ (StableHlo.devRef_ne_of_ne (by decide)) (StableHlo.devRef_ne_of_ne (by decide))).symm
  | ⟨3, _⟩ => (((datR1 (U3 m) c).arrAt_in 3 rfl _).trans (A_eqR1 (U3 m) c 3)).trans (W4_of_ne m c _ (StableHlo.devRef_ne_of_ne (by decide)) (StableHlo.devRef_ne_of_ne (by decide))).symm
  | ⟨4, _⟩ => (W4_o0 m c).symm
  | ⟨5, _⟩ => (W4_o1 m c).symm

abbrev W5 : Dev nD → Valuation τ sig (Elt F) := fun c => StableHlo.after hostOps2 (W4 m c)
abbrev U5 : (c : Dev nD) → (b : Ref sig .tc) → Buf (Elt F) ((c : Thread nD τ).loc b) := fun c b => W5 m c b

def W6 (c : Dev nD) : Valuation τ sig (Elt F) :=
  Function.update (Function.update (W5 m c) (Proc.devRef .tc main_v12_0) ((datR2 (U5 m) c).arrAt 4 cfg2.N)) (Proc.devRef .tc main_v12_1) ((datR2 (U5 m) c).arrAt 5 cfg2.N)
theorem W6_o0 (c : Dev nD) : W6 m c (Proc.devRef .tc main_v12_0) = (datR2 (U5 m) c).arrAt 4 cfg2.N := by
  unfold W6; rw [Function.update_of_ne (StableHlo.devRef_ne_of_ne (by decide)), Function.update_self]
theorem W6_o1 (c : Dev nD) : W6 m c (Proc.devRef .tc main_v12_1) = (datR2 (U5 m) c).arrAt 5 cfg2.N := by
  unfold W6; rw [Function.update_self]
theorem W6_of_ne (c : Dev nD) (b : DevRef τ sig) (h0 : b ≠ Proc.devRef .tc main_v12_0) (h1 : b ≠ Proc.devRef .tc main_v12_1) : W6 m c b = W5 m c b := by
  unfold W6; rw [Function.update_of_ne h1, Function.update_of_ne h0]
theorem hG2 (c : Dev nD) (w : Fin cfg2.W) : (datR2 (U5 m) c).arrAt w cfg2.N = W6 m c (Proc.devRef .tc (Pipeline.arrRef spec2 w)) :=
  match w with
  | ⟨0, _⟩ => (((datR2 (U5 m) c).arrAt_in 0 rfl _).trans (A_eqR2 (U5 m) c 0)).trans (W6_of_ne m c _ (StableHlo.devRef_ne_of_ne (by decide)) (StableHlo.devRef_ne_of_ne (by decide))).symm
  | ⟨1, _⟩ => (((datR2 (U5 m) c).arrAt_in 1 rfl _).trans (A_eqR2 (U5 m) c 1)).trans (W6_of_ne m c _ (StableHlo.devRef_ne_of_ne (by decide)) (StableHlo.devRef_ne_of_ne (by decide))).symm
  | ⟨2, _⟩ => (((datR2 (U5 m) c).arrAt_in 2 rfl _).trans (A_eqR2 (U5 m) c 2)).trans (W6_of_ne m c _ (StableHlo.devRef_ne_of_ne (by decide)) (StableHlo.devRef_ne_of_ne (by decide))).symm
  | ⟨3, _⟩ => (((datR2 (U5 m) c).arrAt_in 3 rfl _).trans (A_eqR2 (U5 m) c 3)).trans (W6_of_ne m c _ (StableHlo.devRef_ne_of_ne (by decide)) (StableHlo.devRef_ne_of_ne (by decide))).symm
  | ⟨4, _⟩ => (W6_o0 m c).symm
  | ⟨5, _⟩ => (W6_o1 m c).symm

abbrev W7 : Dev nD → Valuation τ sig (Elt F) := fun c => StableHlo.after hostOps3 (W6 m c)

theorem hrest0 (c : Dev nD) : ∀ b ∈ restRefsR0, W2 m c b = W1 m c b :=
  fun b hb => W2_of_ne m c b (restRefsR0_ne hb).2.2.2.1 (restRefsR0_ne hb).2.2.2.2
theorem hrest1 (c : Dev nD) : ∀ b ∈ restRefsR1, W4 m c b = W3 m c b :=
  fun b hb => W4_of_ne m c b (restRefsR1_ne hb).2.2.2.1 (restRefsR1_ne hb).2.2.2.2
theorem hrest2 (c : Dev nD) : ∀ b ∈ restRefsR2, W6 m c b = W5 m c b :=
  fun b hb => W6_of_ne m c b (restRefsR2_ne hb).2.2.2.1 (restRefsR2_ne hb).2.2.2.2

def pdats : (p : Fin 3) → (c : Dev nD) → Dat τ (Elt F) Unit ℕ (UR sig nD τ) ℕ (Pipeline.pin (pcfgs (F := F)) adm p) c
  | ⟨0, _⟩ => fun c => datR0 (U1 m) c
  | ⟨1, _⟩ => fun c => datR1 (U3 m) c
  | ⟨2, _⟩ => fun c => datR2 (U5 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W7 m c) ∗ ∃ r, prngReg c r)

set_option backward.isDefEq.respectTransparency.types false in
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligationR0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(emp)
  Y c := iprop(emp)
  Z c := iprop(StableHlo.held (c : Thread nD τ) restRefsR0 (W1 m c) ∗ ∃ r, prngReg c r)
  hentry c := by
    rw [Pipeline.ownSems0_none]
    iintro ⟨⟨Hub, Hp, HO⟩, -, -⟩
    ihave H := (entryR0 c (pdats m 0 c) rfl rfl rfl rfl (W1 m c) (fun w => A_eqR0 (U1 m) c w)) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 0 c).Φ 0 = (datR0 (U1 m) c).Φ 0 from rfl]
    iintro ⟨-, -, Hr⟩
    iapply (hinR0 (U1 m) c)
    iexact Hr
  hout c := by
    rw [Pipeline.ownSems0_none, show (pdats m 0 c).Φ (Fin.last _) = (datR0 (U1 m) c).Φ (Fin.last cfg0.N) from rfl]
    iintro H
    isplitr; · iempintro
    isplitr; · iempintro
    iapply (houtR0 (U1 m) c)
    iexact H
  hexit c := by
    iintro ⟨Ha, HO, -, Hrest, Hp⟩
    imodintro
    isplitl [Ha Hrest]
    · iapply (exitR0 c (pdats m 0 c) rfl rfl rfl rfl (W1 m c) (W2 m c) ((pdats m 0 c).arrAt · cfg0.N) (hG0 m c) (hrest0 m c))
      isplitl [Ha] <;> iassumption
    isplitl [Hp]; · iexact Hp
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligationR1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(emp)
  Y c := iprop(emp)
  Z c := iprop(StableHlo.held (c : Thread nD τ) restRefsR1 (W3 m c) ∗ ∃ r, prngReg c r)
  hentry c := by
    rw [Pipeline.ownSems0_none]
    iintro ⟨⟨Hub, Hp, HO⟩, -, -⟩
    ihave H := (entryR1 c (pdats m 1 c) rfl rfl rfl rfl (W3 m c) (fun w => A_eqR1 (U3 m) c w)) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 1 c).Φ 0 = (datR1 (U3 m) c).Φ 0 from rfl]
    iintro ⟨-, -, Hr⟩
    iapply (hinR1 (U3 m) c)
    iexact Hr
  hout c := by
    rw [Pipeline.ownSems0_none, show (pdats m 1 c).Φ (Fin.last _) = (datR1 (U3 m) c).Φ (Fin.last cfg1.N) from rfl]
    iintro H
    isplitr; · iempintro
    isplitr; · iempintro
    iapply (houtR1 (U3 m) c)
    iexact H
  hexit c := by
    iintro ⟨Ha, HO, -, Hrest, Hp⟩
    imodintro
    isplitl [Ha Hrest]
    · iapply (exitR1 c (pdats m 1 c) rfl rfl rfl rfl (W3 m c) (W4 m c) ((pdats m 1 c).arrAt · cfg1.N) (hG1 m c) (hrest1 m c))
      isplitl [Ha] <;> iassumption
    isplitl [Hp]; · iexact Hp
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligationR2 (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(emp)
  Y c := iprop(emp)
  Z c := iprop(StableHlo.held (c : Thread nD τ) restRefsR2 (W5 m c) ∗ ∃ r, prngReg c r)
  hentry c := by
    rw [Pipeline.ownSems0_none]
    iintro ⟨⟨Hub, Hp, HO⟩, -, -⟩
    ihave H := (entryR2 c (pdats m 2 c) rfl rfl rfl rfl (W5 m c) (fun w => A_eqR2 (U5 m) c w)) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 2 c).Φ 0 = (datR2 (U5 m) c).Φ 0 from rfl]
    iintro ⟨-, -, Hr⟩
    iapply (hinR2 (U5 m) c)
    iexact Hr
  hout c := by
    rw [Pipeline.ownSems0_none, show (pdats m 2 c).Φ (Fin.last _) = (datR2 (U5 m) c).Φ (Fin.last cfg2.N) from rfl]
    iintro H
    isplitr; · iempintro
    isplitr; · iempintro
    iapply (houtR2 (U5 m) c)
    iexact H
  hexit c := by
    iintro ⟨Ha, HO, -, Hrest, Hp⟩
    imodintro
    isplitl [Ha Hrest]
    · iapply (exitR2 c (pdats m 2 c) rfl rfl rfl rfl (W5 m c) (W6 m c) ((pdats m 2 c).arrAt · cfg2.N) (hG2 m c) (hrest2 m c))
      isplitl [Ha] <;> iassumption
    isplitl [Hp]; · iexact Hp
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
theorem main_run (c : Dev nD) : main (F := F) c = Pipeline.Seg.run (segs m) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No item writes an argument: the run's last contents of each are the launch memory's. -/
theorem W7_arg (c : Dev nD) (b : Ref sig .tc) (hb : b = main_arg0 ∨ b = main_arg1 ∨ b = main_arg2 ∨ b = main_arg3) :
    W7 m c (Proc.devRef .tc b) = m ((c : Thread nD τ).loc b) := by
  rcases hb with rfl | rfl | rfl | rfl <;>
  exact (StableHlo.after_of_writes_sub hostOps3 _ hostOps3_writes (by decide)).trans <|
    (W6_of_ne m c _ (StableHlo.devRef_ne_of_ne (by decide)) (StableHlo.devRef_ne_of_ne (by decide))).trans <|
    (StableHlo.after_of_writes_sub hostOps2 _ hostOps2_writes (by decide)).trans <|
    (W4_of_ne m c _ (StableHlo.devRef_ne_of_ne (by decide)) (StableHlo.devRef_ne_of_ne (by decide))).trans <|
    (StableHlo.after_of_writes_sub hostOps1 _ hostOps1_writes (by decide)).trans <|
    (W2_of_ne m c _ (StableHlo.devRef_ne_of_ne (by decide)) (StableHlo.devRef_ne_of_ne (by decide))).trans <|
    StableHlo.after_of_writes_sub hostOps0 _ hostOps0_writes (by decide)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W7_arg m c _ (.inl rfl)), (h c _ (mem_uc main_arg1 (by decide))).trans (W7_arg m c _ (.inr (.inl rfl))),
     (h c _ (mem_uc main_arg2 (by decide))).trans (W7_arg m c _ (.inr (.inr (.inl rfl)))), (h c _ (mem_uc main_arg3 (by decide))).trans (W7_arg m c _ (.inr (.inr (.inr rfl))))⟩) (run_all m ρ)

end Cert.Kernel.Hand

end
-- ==== Proof.KI.Body.lean ====
/- The body every launch runs, once per case of the column step, and what each case leaves: the running row maximum and
   minimum take in the tile's row maxima and minima; the first step restarts them; the last also writes them out. -/
import proofs.«145578_j51728586113513_1_alg».proof.Proof.Gen.KernelIdeal.Launch
import proofs.«145578_j51728586113513_1_alg».proof.Proof.Gen.KernelIdeal.Skeleton
import proofs.«145578_j51728586113513_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.KernelIdeal Cert.KernelIdeal.Gen

abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

theorem hz : (![0, 0] : Fin 2 → Nat) = fun _ => 0 := funext fun a => by fin_cases a <;> rfl

variable (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole)

section
variable (hc0 : condFirst i) (hc1 : ¬condLast i) (x0 : Vec F S512x2048 .f32) (x1 : Vec F S512x2048 .f32) (x2 : Vec F S512x1 .i32) (x3 : Vec F S1x512 .i32)
include hc0 hc1 in
/-- First column step: whatever the two running values were, they restart from the fill values. -/
theorem bodyA (xi4 xi5 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xi5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ owns (c : Thread nD τ) arg8 fullShare (k0_pay1 (k0_pay7 x0 x1 x2 x3) (k0_pay3 (F := F))) ∗ owns (c : Thread nD τ) arg9 fullShare (k0_pay2 (k0_pay8 x0 x1 x2 x3) (k0_pay4 (F := F)))) -∗ K ⟨⟩))
      ⊢ wp frame (wpE (defs₀ (F := F)) Variants.none c none) E (cc0__hardest_kernel i arg2 harg2 arg3 harg3 arg4 harg4 arg5 harg5 arg6 harg6 arg7 harg7 arg8 harg8 arg9 harg9) K := by
  simp only [cc0__hardest_kernel_eq_skeleton]; unfold cc0__hardest_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [HS0]
  · iexists _; isplitr
    swap; · iexact HS0
    ipureintro
    refine (View.read_writes_eq_canon _ _ _ (View.cover_of_tiledL _ S512x1.size (by sl_kernel_rfl))).trans ?_
    sl_unfold_words
    first
      | rw [View.canon_unit_zero (S := S512x1) hz]
      | rw [View.canon_cons_unit_zero (S := S512x1) hz]
    simp only [View.readAt_eq_ld, harg2.read_unread, harg3.read_unread, harg4.read_unread, harg5.read_unread, harg8.read_unread, harg9.read_unread,
    View.readCov_unit_zero (S := S512x1) _ hz,
    View.ld_unit_zero (S := S512x2048) hz, View.ld_unit_zero (S := S512x1) hz, View.ld_unit_zero (S := S1x512) hz]
  · iexists _; isplitr
    swap; · iexact HS1
    ipureintro
    refine (View.read_writes_eq_canon _ _ _ (View.cover_of_tiledL _ S512x1.size (by sl_kernel_rfl))).trans ?_
    sl_unfold_words
    first
      | rw [View.canon_unit_zero (S := S512x1) hz]
      | rw [View.canon_cons_unit_zero (S := S512x1) hz]
    simp only [View.readAt_eq_ld, harg2.read_unread, harg3.read_unread, harg4.read_unread, harg5.read_unread, harg8.read_unread, harg9.read_unread,
    View.readCov_unit_zero (S := S512x1) _ hz,
    View.ld_unit_zero (S := S512x2048) hz, View.ld_unit_zero (S := S512x1) hz, View.ld_unit_zero (S := S1x512) hz]
end

section
variable (hc0 : ¬condFirst i) (hc1 : ¬condLast i) (x0 : Vec F S512x2048 .f32) (x1 : Vec F S512x2048 .f32) (x2 : Vec F S512x1 .i32) (x3 : Vec F S1x512 .i32) (xs0 : Vec F S512x1 .f32) (xs1 : Vec F S512x1 .f32)
include hc0 hc1 in
/-- Inner column step: the running maximum and minimum take in the tile's row maxima and minima. -/
theorem bodyB (xi4 xi5 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xi5
        ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ owns (c : Thread nD τ) arg8 fullShare (k0_pay1 (k0_pay7 x0 x1 x2 x3) xs0) ∗ owns (c : Thread nD τ) arg9 fullShare (k0_pay2 (k0_pay8 x0 x1 x2 x3) xs1)) -∗ K ⟨⟩))
      ⊢ wp frame (wpE (defs₀ (F := F)) Variants.none c none) E (cc0__hardest_kernel i arg2 harg2 arg3 harg3 arg4 harg4 arg5 harg5 arg6 harg6 arg7 harg7 arg8 harg8 arg9 harg9) K := by
  simp only [cc0__hardest_kernel_eq_skeleton]; unfold cc0__hardest_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hfs0; obtain rfl := harg9.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [HS0]
  · iexists _; isplitr
    swap; · iexact HS0
    ipureintro
    refine (View.read_writes_eq_canon _ _ _ (View.cover_of_tiledL _ S512x1.size (by sl_kernel_rfl))).trans ?_
    sl_unfold_words
    first
      | rw [View.canon_unit_zero (S := S512x1) hz]
      | rw [View.canon_cons_unit_zero (S := S512x1) hz]
    simp only [View.readAt_eq_ld, harg2.read_unread, harg3.read_unread, harg4.read_unread, harg5.read_unread, harg8.read_unread, harg9.read_unread,
    View.readCov_unit_zero (S := S512x1) _ hz,
    View.ld_unit_zero (S := S512x2048) hz, View.ld_unit_zero (S := S512x1) hz, View.ld_unit_zero (S := S1x512) hz]
  · iexists _; isplitr
    swap; · iexact HS1
    ipureintro
    refine (View.read_writes_eq_canon _ _ _ (View.cover_of_tiledL _ S512x1.size (by sl_kernel_rfl))).trans ?_
    sl_unfold_words
    first
      | rw [View.canon_unit_zero (S := S512x1) hz]
      | rw [View.canon_cons_unit_zero (S := S512x1) hz]
    simp only [View.readAt_eq_ld, harg2.read_unread, harg3.read_unread, harg4.read_unread, harg5.read_unread, harg8.read_unread, harg9.read_unread,
    View.readCov_unit_zero (S := S512x1) _ hz,
    View.ld_unit_zero (S := S512x2048) hz, View.ld_unit_zero (S := S512x1) hz, View.ld_unit_zero (S := S1x512) hz]
end

section
variable (hc0 : ¬condFirst i) (hc1 : condLast i) (x0 : Vec F S512x2048 .f32) (x1 : Vec F S512x2048 .f32) (x2 : Vec F S512x1 .i32) (x3 : Vec F S1x512 .i32) (xs0 : Vec F S512x1 .f32) (xs1 : Vec F S512x1 .f32)
include hc0 hc1 in
/-- Last column step: as an inner step, and the two results take the running values. -/
theorem bodyC (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay1 (k0_pay7 x0 x1 x2 x3) xs0) ∗ owns (c : Thread nD τ) arg7 fullShare (k0_pay2 (k0_pay8 x0 x1 x2 x3) xs1)
            ∗ owns (c : Thread nD τ) arg8 fullShare (k0_pay1 (k0_pay7 x0 x1 x2 x3) xs0) ∗ owns (c : Thread nD τ) arg9 fullShare (k0_pay2 (k0_pay8 x0 x1 x2 x3) xs1)) -∗ K ⟨⟩))
      ⊢ wp frame (wpE (defs₀ (F := F)) Variants.none c none) E (cc0__hardest_kernel i arg2 harg2 arg3 harg3 arg4 harg4 arg5 harg5 arg6 harg6 arg7 harg7 arg8 harg8 arg9 harg9) K := by
  simp only [cc0__hardest_kernel_eq_skeleton]; unfold cc0__hardest_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg8.eq_unread hfs0; obtain rfl := harg9.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (View.read_writes_eq_canon _ _ _ (View.cover_of_tiledL _ S512x1.size (by sl_kernel_rfl))).trans ?_
    sl_unfold_words
    first
      | rw [View.canon_unit_zero (S := S512x1) hz]
      | rw [View.canon_cons_unit_zero (S := S512x1) hz]
    simp only [View.readAt_eq_ld, harg2.read_unread, harg3.read_unread, harg4.read_unread, harg5.read_unread, harg8.read_unread, harg9.read_unread,
    View.readCov_unit_zero (S := S512x1) _ hz,
    View.ld_unit_zero (S := S512x2048) hz, View.ld_unit_zero (S := S512x1) hz, View.ld_unit_zero (S := S1x512) hz]
  isplitl [H5]
  · iexists _; isplitr
    swap; · iexact H5
    ipureintro
    refine (View.read_writes_eq_canon _ _ _ (View.cover_of_tiledL _ S512x1.size (by sl_kernel_rfl))).trans ?_
    sl_unfold_words
    first
      | rw [View.canon_unit_zero (S := S512x1) hz]
      | rw [View.canon_cons_unit_zero (S := S512x1) hz]
    simp only [View.readAt_eq_ld, harg2.read_unread, harg3.read_unread, harg4.read_unread, harg5.read_unread, harg8.read_unread, harg9.read_unread,
    View.readCov_unit_zero (S := S512x1) _ hz,
    View.ld_unit_zero (S := S512x2048) hz, View.ld_unit_zero (S := S512x1) hz, View.ld_unit_zero (S := S1x512) hz]
  isplitl [HS0]
  · iexists _; isplitr
    swap; · iexact HS0
    ipureintro
    refine (View.read_writes_eq_canon _ _ _ (View.cover_of_tiledL _ S512x1.size (by sl_kernel_rfl))).trans ?_
    sl_unfold_words
    first
      | rw [View.canon_unit_zero (S := S512x1) hz]
      | rw [View.canon_cons_unit_zero (S := S512x1) hz]
    simp only [View.readAt_eq_ld, harg2.read_unread, harg3.read_unread, harg4.read_unread, harg5.read_unread, harg8.read_unread, harg9.read_unread,
    View.readCov_unit_zero (S := S512x1) _ hz,
    View.ld_unit_zero (S := S512x2048) hz, View.ld_unit_zero (S := S512x1) hz, View.ld_unit_zero (S := S1x512) hz]
  · iexists _; isplitr
    swap; · iexact HS1
    ipureintro
    refine (View.read_writes_eq_canon _ _ _ (View.cover_of_tiledL _ S512x1.size (by sl_kernel_rfl))).trans ?_
    sl_unfold_words
    first
      | rw [View.canon_unit_zero (S := S512x1) hz]
      | rw [View.canon_cons_unit_zero (S := S512x1) hz]
    simp only [View.readAt_eq_ld, harg2.read_unread, harg3.read_unread, harg4.read_unread, harg5.read_unread, harg8.read_unread, harg9.read_unread,
    View.readCov_unit_zero (S := S512x1) _ hz,
    View.ld_unit_zero (S := S512x2048) hz, View.ld_unit_zero (S := S512x1) hz, View.ld_unit_zero (S := S1x512) hz]
end

end Cert.KernelIdeal.Hand

end
-- ==== Proof.KI.Dat0.lean ====
/- One launch, point by point: what its two results and the running row maximum and minimum are after each grid point, and
   that the body run at a point takes them from the point before to this one. -/
import proofs.«145578_j51728586113513_1_alg».proof.Proof.KI.Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.KernelIdeal Cert.KernelIdeal.Gen

theorem liveAtR0_0 : ∀ t : Fin cfg0.N, cfg0.idle 0 (grid0.coords t) = false := by decide +kernel
theorem liveAtR0_1 : ∀ t : Fin cfg0.N, cfg0.idle 1 (grid0.coords t) = false := by decide +kernel
theorem liveAtR0_2 : ∀ t : Fin cfg0.N, cfg0.idle 2 (grid0.coords t) = false := by decide +kernel
theorem liveAtR0_3 : ∀ t : Fin cfg0.N, cfg0.idle 3 (grid0.coords t) = false := by decide +kernel
theorem idleAtR0_4 : ∀ t : Fin cfg0.N, ¬condLast (grid0.coords t) → cfg0.idle 4 (grid0.coords t) = true := by decide +kernel
theorem idleAtR0_5 : ∀ t : Fin cfg0.N, ¬condLast (grid0.coords t) → cfg0.idle 5 (grid0.coords t) = true := by decide +kernel
theorem noFlushR0_4 : ∀ t : Fin cfg0.N, ¬condLast (grid0.coords t) → (cfg0.win 4).flush t = false := by decide +kernel
theorem noFlushR0_5 : ∀ t : Fin cfg0.N, ¬condLast (grid0.coords t) → (cfg0.win 5).flush t = false := by decide +kernel
theorem liveAtR0_4 : ∀ t : Fin cfg0.N, condLast (grid0.coords t) → cfg0.idle 4 (grid0.coords t) = false := by decide +kernel
theorem liveAtR0_5 : ∀ t : Fin cfg0.N, condLast (grid0.coords t) → cfg0.idle 5 (grid0.coords t) = false := by decide +kernel

abbrev msR0_0 (t : Fin cfg0.N) : Memref sig .tc .vmem S512x2048 .f32 := win0_0.stage (cfg0.slots t 0)
abbrev msR0_1 (t : Fin cfg0.N) : Memref sig .tc .vmem S512x2048 .f32 := win0_1.stage (cfg0.slots t 1)
abbrev msR0_2 (t : Fin cfg0.N) : Memref sig .tc .vmem S512x1 .i32 := win0_2.stage (cfg0.slots t 2)
abbrev msR0_3 (t : Fin cfg0.N) : Memref sig .tc .vmem S1x512 .i32 := win0_3.stage (cfg0.slots t 3)
abbrev msR0_4 (t : Fin cfg0.N) : Memref sig .tc .vmem S512x1 .f32 := win0_4.stage (cfg0.slots t 4)
abbrev msR0_5 (t : Fin cfg0.N) : Memref sig .tc .vmem S512x1 .f32 := win0_5.stage (cfg0.slots t 5)
abbrev scMR0_0 : Memref sig .tc .vmem S512x1 .f32 := Memref.whole cc0_scratch0
abbrev scMR0_1 : Memref sig .tc .vmem S512x1 .f32 := Memref.whole cc0_scratch1

/-- The launch's body at point t is the one body every launch runs, on this launch's buffers. -/
theorem bodyAtR0 (t : Fin cfg0.N) : bodyAt0 (F := F) t = cc0__hardest_kernel (grid0.coords t) (msR0_0 t) (hstage0_0 _) (msR0_1 t) (hstage0_1 _)
    (msR0_2 t) (hstage0_2 _) (msR0_3 t) (hstage0_3 _) (msR0_4 t) (hstage0_4 _) (msR0_5 t) (hstage0_5 _)
    scMR0_0 (Memref.isWhole_whole _) scMR0_1 (Memref.isWhole_whole _) := rfl

variable (V : (c : Dev nD) → (b : Ref sig .tc) → Buf (Elt F) ((c : Thread nD τ).loc b))

def iblkR0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running row maximum and minimum after the tile at point t, from the values xs0 and xs1 before it. -/
def stepR0 (c : Dev nD) (t : Fin cfg0.N) (xs0 xs1 : Vec F S512x1 .f32) : Vec F S512x1 .f32 × Vec F S512x1 .f32 :=
  (k0_pay1 (k0_pay7 (iblkR0 V c 0 t) (iblkR0 V c 1 t) (iblkR0 V c 2 t) (iblkR0 V c 3 t)) xs0, k0_pay2 (k0_pay8 (iblkR0 V c 0 t) (iblkR0 V c 1 t) (iblkR0 V c 2 t) (iblkR0 V c 3 t)) xs1)

/-- The two results and the two running values after point t, by case of the column step: first, inner, last (a step that
    writes no result leaves a placeholder nothing reads in the result's place). -/
def caseAR0 (c : Dev nD) (t : Fin cfg0.N) : Vec F S512x1 .f32 × Vec F S512x1 .f32 × Vec F S512x1 .f32 × Vec F S512x1 .f32 :=
  (k0_pay3 (F := F), k0_pay4 (F := F), stepR0 V c t k0_pay3 k0_pay4)
def caseBR0 (c : Dev nD) (t : Fin cfg0.N) (xs0 xs1 : Vec F S512x1 .f32) : Vec F S512x1 .f32 × Vec F S512x1 .f32 × Vec F S512x1 .f32 × Vec F S512x1 .f32 :=
  (k0_pay3 (F := F), k0_pay4 (F := F), stepR0 V c t xs0 xs1)
def caseCR0 (c : Dev nD) (t : Fin cfg0.N) (xs0 xs1 : Vec F S512x1 .f32) : Vec F S512x1 .f32 × Vec F S512x1 .f32 × Vec F S512x1 .f32 × Vec F S512x1 .f32 :=
  ((stepR0 V c t xs0 xs1).1, (stepR0 V c t xs0 xs1).2, stepR0 V c t xs0 xs1)

def outsAtR0 (c : Dev nD) : (n : ℕ) → n < cfg0.N → Vec F S512x1 .f32 × Vec F S512x1 .f32 × Vec F S512x1 .f32 × Vec F S512x1 .f32
  | 0, hn => caseAR0 V c ⟨0, hn⟩
  | n + 1, hn =>
    if (n + 1) % 8 = 0 then caseAR0 V c ⟨n + 1, hn⟩
    else if (n + 1) % 8 = 7 then caseCR0 V c ⟨n + 1, hn⟩ (outsAtR0 c n (Nat.lt_of_succ_lt hn)).2.2.1 (outsAtR0 c n (Nat.lt_of_succ_lt hn)).2.2.2
    else caseBR0 V c ⟨n + 1, hn⟩ (outsAtR0 c n (Nat.lt_of_succ_lt hn)).2.2.1 (outsAtR0 c n (Nat.lt_of_succ_lt hn)).2.2.2

theorem outsAtR0_A (c : Dev nD) (t : Fin cfg0.N) (h0 : t.val % 8 = 0) : outsAtR0 V c t.val t.isLt = caseAR0 V c t := by
  obtain ⟨n, hn⟩ := t
  cases n with
  | zero => rfl
  | succ n => exact if_pos h0

theorem outsAtR0_B (c : Dev nD) (t : Fin cfg0.N) (h0 : ¬t.val % 8 = 0) (h1 : ¬t.val % 8 = 7) :
    outsAtR0 V c t.val t.isLt = caseBR0 V c t (outsAtR0 V c (t.val - 1) (Nat.lt_of_le_of_lt (Nat.sub_le _ _) t.isLt)).2.2.1 (outsAtR0 V c (t.val - 1) (Nat.lt_of_le_of_lt (Nat.sub_le _ _) t.isLt)).2.2.2 := by
  obtain ⟨n, hn⟩ := t
  cases n with
  | zero => exact absurd (Nat.zero_mod _) h0
  | succ n => exact (if_neg h0).trans (if_neg h1)

theorem outsAtR0_C (c : Dev nD) (t : Fin cfg0.N) (h0 : ¬t.val % 8 = 0) (h1 : t.val % 8 = 7) :
    outsAtR0 V c t.val t.isLt = caseCR0 V c t (outsAtR0 V c (t.val - 1) (Nat.lt_of_le_of_lt (Nat.sub_le _ _) t.isLt)).2.2.1 (outsAtR0 V c (t.val - 1) (Nat.lt_of_le_of_lt (Nat.sub_le _ _) t.isLt)).2.2.2 := by
  obtain ⟨n, hn⟩ := t
  cases n with
  | zero => exact absurd (Nat.zero_mod _) h0
  | succ n => exact (if_neg h0).trans (if_pos h1)

abbrev restR0 (c : Dev nD) : sProp 𝕄 :=
  Pipeline.scopedRestBut (Ix := Unit) (Name := ℕ) (U := UR sig nD τ) (Lvl := ℕ) (Val := Elt F) spec0 c [cc0_scratch0, cc0_scratch1]

def PhiR0 (c : Dev nD) : (n : ℕ) → n ≤ cfg0.N → sProp 𝕄
  | 0, _ => iprop(iprop((∃ d, owns (c : Thread nD τ) scMR0_0 fullShare d) ∗ (∃ d, owns (c : Thread nD τ) scMR0_1 fullShare d)) ∗ restR0 c)
  | n + 1, hn => iprop(iprop(owns (c : Thread nD τ) scMR0_0 fullShare ((outsAtR0 V c n hn).2.2.1) ∗ owns (c : Thread nD τ) scMR0_1 fullShare ((outsAtR0 V c n hn).2.2.2)) ∗ restR0 c)

theorem PhiR0_zero (c : Dev nD) (n : ℕ) (h : n ≤ cfg0.N) (hz : n = 0) :
    PhiR0 V c n h = iprop(iprop((∃ d, owns (c : Thread nD τ) scMR0_0 fullShare d) ∗ (∃ d, owns (c : Thread nD τ) scMR0_1 fullShare d)) ∗ restR0 c) := by
  subst hz; rfl

theorem PhiR0_succ (c : Dev nD) (n : ℕ) (hn : n < cfg0.N) :
    PhiR0 V c (n + 1) hn = iprop(iprop(owns (c : Thread nD τ) scMR0_0 fullShare ((outsAtR0 V c n hn).2.2.1) ∗ owns (c : Thread nD τ) scMR0_1 fullShare ((outsAtR0 V c n hn).2.2.2)) ∗ restR0 c) := rfl

theorem PhiR0_pos (c : Dev nD) (n : ℕ) (h : n ≤ cfg0.N) (hz : n ≠ 0) :
    PhiR0 V c n h = iprop(iprop(owns (c : Thread nD τ) scMR0_0 fullShare ((outsAtR0 V c (n - 1) (by omega)).2.2.1) ∗ owns (c : Thread nD τ) scMR0_1 fullShare ((outsAtR0 V c (n - 1) (by omega)).2.2.2)) ∗ restR0 c) := by
  cases n with
  | zero => exact absurd rfl hz
  | succ n => rfl

theorem PhiR0_any (c : Dev nD) (n : ℕ) (h : n ≤ cfg0.N) :
    PhiR0 V c n h ⊢ iprop(iprop((∃ d, owns (c : Thread nD τ) scMR0_0 fullShare d) ∗ (∃ d, owns (c : Thread nD τ) scMR0_1 fullShare d)) ∗ restR0 c) := by
  cases n with
  | zero => exact .rfl
  | succ n =>
    rw [PhiR0_succ]
    iintro ⟨⟨HS0, HS1⟩, HR⟩
    isplitl [HS0 HS1]
    · isplitl [HS0]
      · iexists _; iexact HS0
      · iexists _; iexact HS1
    iexact HR

theorem scopedRestR0_eq (c : Dev nD) :
    (Pipeline.scopedRest (Ix := Unit) (Name := ℕ) (U := UR sig nD τ) (Lvl := ℕ) (Val := Elt F) spec0 c : sProp 𝕄)
      = iprop(iprop((∃ d, owns (c : Thread nD τ) scMR0_0 fullShare d) ∗ (∃ d, owns (c : Thread nD τ) scMR0_1 fullShare d)) ∗ restR0 c) := by
  rw [scopedRest0_split]; simp only [scMR0_0, scMR0_1, owns_whole]; try rfl

def datR0 (c : Dev nD) : Dat τ (Elt F) Unit ℕ (UR sig nD τ) ℕ cfg0 c where
  A w := V c (Pipeline.arrRef spec0 w)
  after w t := match w with
    | ⟨0, _⟩ => iblkR0 V c 0 t
    | ⟨1, _⟩ => iblkR0 V c 1 t
    | ⟨2, _⟩ => iblkR0 V c 2 t
    | ⟨3, _⟩ => iblkR0 V c 3 t
    | ⟨4, _⟩ => (outsAtR0 V c t.val t.isLt).1
    | ⟨5, _⟩ => (outsAtR0 V c t.val t.isLt).2.1
  Φ t := PhiR0 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eqR0 (c : Dev nD) (w : Fin cfg0.W) : (datR0 V c).A w = V c (Pipeline.arrRef spec0 w) := by
  dsimp only [datR0]

theorem PhiR0_castSucc (c : Dev nD) (t : Fin cfg0.N) :
    (datR0 V c).Φ t.castSucc = PhiR0 V c t.val (Nat.le_of_lt t.isLt) := by
  dsimp only [datR0]; simp only [Fin.coe_castSucc]

theorem afterR0_0 (c : Dev nD) (t : Fin cfg0.N) : (datR0 V c).after 0 t = iblkR0 V c 0 t := by dsimp only [datR0]
theorem afterR0_1 (c : Dev nD) (t : Fin cfg0.N) : (datR0 V c).after 1 t = iblkR0 V c 1 t := by dsimp only [datR0]
theorem afterR0_2 (c : Dev nD) (t : Fin cfg0.N) : (datR0 V c).after 2 t = iblkR0 V c 2 t := by dsimp only [datR0]
theorem afterR0_3 (c : Dev nD) (t : Fin cfg0.N) : (datR0 V c).after 3 t = iblkR0 V c 3 t := by dsimp only [datR0]
theorem afterR0_4 (c : Dev nD) (t : Fin cfg0.N) : (datR0 V c).after 4 t = (outsAtR0 V c t.val t.isLt).1 := by dsimp only [datR0]
theorem afterR0_5 (c : Dev nD) (t : Fin cfg0.N) : (datR0 V c).after 5 t = (outsAtR0 V c t.val t.isLt).2.1 := by dsimp only [datR0]

theorem beforeR0_0 (c : Dev nD) (t : Fin cfg0.N) (d) : (datR0 V c).before 0 t d = iblkR0 V c 0 t :=
  ((datR0 V c).before_in_eq_fetched 0 rfl (fun _ => rfl) (fun _ _ _ => rfl) (fun t => by rw [afterR0_0]; unfold Dat.blockOf iblkR0; rw [A_eqR0]; try rfl) t d).trans
    (by unfold Dat.fetched Dat.blockOf iblkR0; rw [A_eqR0]; try rfl)
theorem beforeR0_1 (c : Dev nD) (t : Fin cfg0.N) (d) : (datR0 V c).before 1 t d = iblkR0 V c 1 t :=
  ((datR0 V c).before_in_eq_fetched 1 rfl (fun _ => rfl) (fun _ _ _ => rfl) (fun t => by rw [afterR0_1]; unfold Dat.blockOf iblkR0; rw [A_eqR0]; try rfl) t d).trans
    (by unfold Dat.fetched Dat.blockOf iblkR0; rw [A_eqR0]; try rfl)
theorem beforeR0_2 (c : Dev nD) (t : Fin cfg0.N) (d) : (datR0 V c).before 2 t d = iblkR0 V c 2 t :=
  ((datR0 V c).before_in_eq_fetched 2 rfl (fun _ => rfl) (fun _ _ _ => rfl) (fun t => by rw [afterR0_2]; unfold Dat.blockOf iblkR0; rw [A_eqR0]; try rfl) t d).trans
    (by unfold Dat.fetched Dat.blockOf iblkR0; rw [A_eqR0]; try rfl)
theorem beforeR0_3 (c : Dev nD) (t : Fin cfg0.N) (d) : (datR0 V c).before 3 t d = iblkR0 V c 3 t :=
  ((datR0 V c).before_in_eq_fetched 3 rfl (fun _ => rfl) (fun _ _ _ => rfl) (fun t => by rw [afterR0_3]; unfold Dat.blockOf iblkR0; rw [A_eqR0]; try rfl) t d).trans
    (by unfold Dat.fetched Dat.blockOf iblkR0; rw [A_eqR0]; try rfl)

def bodyPreR0 (c : Dev nD) (t : Fin cfg0.N) : sProp 𝕄 :=
  iprop((datR0 V c).Φ t.castSucc ∗ (datR0 V c).owesAt () t.castSucc
    ∗ (∃ d, owns (c : Thread nD τ) (msR0_0 t) fullShare ((datR0 V c).before 0 t d))
    ∗ (∃ d, owns (c : Thread nD τ) (msR0_1 t) fullShare ((datR0 V c).before 1 t d))
    ∗ (∃ d, owns (c : Thread nD τ) (msR0_2 t) fullShare ((datR0 V c).before 2 t d))
    ∗ (∃ d, owns (c : Thread nD τ) (msR0_3 t) fullShare ((datR0 V c).before 3 t d))
    ∗ (∃ d, owns (c : Thread nD τ) (msR0_4 t) fullShare ((datR0 V c).before 4 t d))
    ∗ (∃ d, owns (c : Thread nD τ) (msR0_5 t) fullShare ((datR0 V c).before 5 t d)))

def bodyPostR0 (c : Dev nD) (t : Fin cfg0.N) : sProp 𝕄 :=
  iprop((datR0 V c).Φ t.succ ∗ (datR0 V c).owesAt () t.succ
    ∗ (datR0 V c).leavesExact 0 t ∗ (datR0 V c).leavesExact 1 t ∗ (datR0 V c).leavesExact 2 t
    ∗ (datR0 V c).leavesExact 3 t ∗ (datR0 V c).leavesExact 4 t ∗ (datR0 V c).leavesExact 5 t)

/-- Where window w is live at point t the body leaves its buffer at the point's contents. -/
theorem leavesR0 (c : Dev nD) (w : Fin cfg0.W) (t : Fin cfg0.N) (h : cfg0.idle w (grid0.coords t) = false) :
    (datR0 V c).leavesExact w t = owns (c : Thread nD τ) ((cfg0.win w).stage (cfg0.slots t w)) fullShare ((datR0 V c).after w t) := by
  unfold Dat.leavesExact; rw [h]

/-- The body at any point: the column step says which case runs, from the running values the point before left. -/
theorem sound_bodyR0 (c : Dev nD) (t : Fin cfg0.N) :
    bodyPreR0 V c t ⊢ wp frame (wpE (defs₀ (F := F)) Variants.none c none) Set.univ (bodyAt0 t) (fun _ => bodyPostR0 V c t) := by
  unfold bodyPreR0 bodyPostR0
  rw [bodyAtR0]
  simp only [beforeR0_0, beforeR0_1, beforeR0_2, beforeR0_3]
  rw [show (datR0 V c).owesAt () t.succ = (datR0 V c).owesAt () t.castSucc from rfl]
  rw [show (datR0 V c).Φ t.succ = PhiR0 V c (t.val + 1) t.isLt from rfl, PhiR0_succ]
  rw [leavesR0 V c 0 t (liveAtR0_0 t), afterR0_0, leavesR0 V c 1 t (liveAtR0_1 t), afterR0_1, leavesR0 V c 2 t (liveAtR0_2 t), afterR0_2,
    leavesR0 V c 3 t (liveAtR0_3 t), afterR0_3, PhiR0_castSucc V c t]
  by_cases h1 : t.val % 8 = 7
  · have h0 : ¬t.val % 8 = 0 := by omega
    have hz : t.val ≠ 0 := fun h => h0 (by rw [h])
    rw [leavesR0 V c 4 t (liveAtR0_4 t ((hcondLast t).mpr h1)), afterR0_4, leavesR0 V c 5 t (liveAtR0_5 t ((hcondLast t).mpr h1)), afterR0_5,
      outsAtR0_C V c t h0 h1]
    unfold caseCR0 stepR0; dsimp only
    rw [PhiR0_pos V c _ _ hz]
    iintro ⟨⟨⟨HS0, HS1⟩, HR⟩, Ho, ⟨%d0, H0⟩, ⟨%d1, H1⟩, ⟨%d2, H2⟩, ⟨%d3, H3⟩, ⟨%d4, H4⟩, ⟨%d5, H5⟩⟩
    iapply (bodyC c (grid0.coords t) _ _ _ _ _ _ _ _ _ _ _ _ _ _ _ _ (fun h => h0 ((hcondFirst t).mp h)) ((hcondLast t).mpr h1) (iblkR0 V c 0 t) (iblkR0 V c 1 t) (iblkR0 V c 2 t) (iblkR0 V c 3 t) _ _ Set.univ _)
    iframe H0 H1 H2 H3 HS0 HS1
    isplitl [H4]; · iexists _; iexact H4
    isplitl [H5]; · iexists _; iexact H5
    iintro ⟨H0, H1, H2, H3, H4, H5, HS0, HS1⟩
    iframe
  · have h1' : ¬condLast (grid0.coords t) := fun h => h1 ((hcondLast t).mp h)
    rw [Dat.leavesExact_idle (datR0 V c) 4 t (idleAtR0_4 t h1') (noFlushR0_4 t h1'),
      Dat.leavesExact_idle (datR0 V c) 5 t (idleAtR0_5 t h1') (noFlushR0_5 t h1')]
    by_cases h0 : t.val % 8 = 0
    · rw [outsAtR0_A V c t h0]
      unfold caseAR0 stepR0; dsimp only
      iintro ⟨HΦ, Ho, ⟨%d0, H0⟩, ⟨%d1, H1⟩, ⟨%d2, H2⟩, ⟨%d3, H3⟩, ⟨%d4, H4⟩, ⟨%d5, H5⟩⟩
      ihave HΦ' := (PhiR0_any V c t.val (Nat.le_of_lt t.isLt)) $$ HΦ
      icases HΦ' with ⟨⟨HS0, HS1⟩, HR⟩
      iapply (bodyA c (grid0.coords t) _ _ _ _ _ _ _ _ _ _ _ _ _ _ _ _ ((hcondFirst t).mpr h0) h1' (iblkR0 V c 0 t) (iblkR0 V c 1 t) (iblkR0 V c 2 t) (iblkR0 V c 3 t) _ _ Set.univ _)
      iframe H0 H1 H2 H3 H4 H5 HS0 HS1
      iintro ⟨H0, H1, H2, H3, H4, H5, HS0, HS1⟩
      iframe HS0 HS1 HR Ho H0 H1 H2 H3
      isplitl [H4]; · iexists _; iexact H4
      iexists _; iexact H5
    · have hz : t.val ≠ 0 := fun h => h0 (by rw [h])
      rw [outsAtR0_B V c t h0 h1]
      unfold caseBR0 stepR0; dsimp only
      rw [PhiR0_pos V c _ _ hz]
      iintro ⟨⟨⟨HS0, HS1⟩, HR⟩, Ho, ⟨%d0, H0⟩, ⟨%d1, H1⟩, ⟨%d2, H2⟩, ⟨%d3, H3⟩, ⟨%d4, H4⟩, ⟨%d5, H5⟩⟩
      iapply (bodyB c (grid0.coords t) _ _ _ _ _ _ _ _ _ _ _ _ _ _ _ _ (fun h => h0 ((hcondFirst t).mp h)) h1' (iblkR0 V c 0 t) (iblkR0 V c 1 t) (iblkR0 V c 2 t) (iblkR0 V c 3 t) _ _ _ _ Set.univ _)
      iframe H0 H1 H2 H3 H4 H5 HS0 HS1
      iintro ⟨H0, H1, H2, H3, H4, H5, HS0, HS1⟩
      iframe HS0 HS1 HR Ho H0 H1 H2 H3
      isplitl [H4]; · iexists _; iexact H4
      iexists _; iexact H5

theorem body_obligationR0 (c : Dev nD) : BodyObligation (datR0 (F := F) V c) (defs₀ (F := F)) Variants.none () Set.univ := fun t => by
  rw [bigSep_W0, bigSep_W0]
  exact sound_bodyR0 V c t

theorem hinR0 (c : Dev nD) :
    (Pipeline.scopedRest (Ix := Unit) (Name := ℕ) (U := UR sig nD τ) (Lvl := ℕ) (Val := Elt F) spec0 c : sProp 𝕄) ⊢ (datR0 V c).Φ 0 := by
  rw [show (datR0 V c).Φ 0 = PhiR0 V c 0 (Nat.zero_le _) from rfl, PhiR0_zero V c 0 _ rfl, scopedRestR0_eq]
  try exact Idealize.SL.BI.Entails.refl _

theorem houtR0 (c : Dev nD) :
    (datR0 V c).Φ (Fin.last cfg0.N) ⊢ (Pipeline.scopedRest (Ix := Unit) (Name := ℕ) (U := UR sig nD τ) (Lvl := ℕ) (Val := Elt F) spec0 c : sProp 𝕄) := by
  rw [show (datR0 V c).Φ (Fin.last cfg0.N) = PhiR0 V c (Fin.last cfg0.N).val (Nat.le_of_lt_succ (Fin.last cfg0.N).isLt) from rfl, scopedRestR0_eq]
  exact PhiR0_any V c _ _

end Cert.KernelIdeal.Hand

end
-- ==== Proof.KI.Dat1.lean ====
/- One launch, point by point: what its two results and the running row maximum and minimum are after each grid point, and
   that the body run at a point takes them from the point before to this one. -/
import proofs.«145578_j51728586113513_1_alg».proof.Proof.KI.Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.KernelIdeal Cert.KernelIdeal.Gen

theorem liveAtR1_0 : ∀ t : Fin cfg1.N, cfg1.idle 0 (grid1.coords t) = false := by decide +kernel
theorem liveAtR1_1 : ∀ t : Fin cfg1.N, cfg1.idle 1 (grid1.coords t) = false := by decide +kernel
theorem liveAtR1_2 : ∀ t : Fin cfg1.N, cfg1.idle 2 (grid1.coords t) = false := by decide +kernel
theorem liveAtR1_3 : ∀ t : Fin cfg1.N, cfg1.idle 3 (grid1.coords t) = false := by decide +kernel
theorem idleAtR1_4 : ∀ t : Fin cfg1.N, ¬condLast (grid1.coords t) → cfg1.idle 4 (grid1.coords t) = true := by decide +kernel
theorem idleAtR1_5 : ∀ t : Fin cfg1.N, ¬condLast (grid1.coords t) → cfg1.idle 5 (grid1.coords t) = true := by decide +kernel
theorem noFlushR1_4 : ∀ t : Fin cfg1.N, ¬condLast (grid1.coords t) → (cfg1.win 4).flush t = false := by decide +kernel
theorem noFlushR1_5 : ∀ t : Fin cfg1.N, ¬condLast (grid1.coords t) → (cfg1.win 5).flush t = false := by decide +kernel
theorem liveAtR1_4 : ∀ t : Fin cfg1.N, condLast (grid1.coords t) → cfg1.idle 4 (grid1.coords t) = false := by decide +kernel
theorem liveAtR1_5 : ∀ t : Fin cfg1.N, condLast (grid1.coords t) → cfg1.idle 5 (grid1.coords t) = false := by decide +kernel

abbrev msR1_0 (t : Fin cfg1.N) : Memref sig .tc .vmem S512x2048 .f32 := win1_0.stage (cfg1.slots t 0)
abbrev msR1_1 (t : Fin cfg1.N) : Memref sig .tc .vmem S512x2048 .f32 := win1_1.stage (cfg1.slots t 1)
abbrev msR1_2 (t : Fin cfg1.N) : Memref sig .tc .vmem S512x1 .i32 := win1_2.stage (cfg1.slots t 2)
abbrev msR1_3 (t : Fin cfg1.N) : Memref sig .tc .vmem S1x512 .i32 := win1_3.stage (cfg1.slots t 3)
abbrev msR1_4 (t : Fin cfg1.N) : Memref sig .tc .vmem S512x1 .f32 := win1_4.stage (cfg1.slots t 4)
abbrev msR1_5 (t : Fin cfg1.N) : Memref sig .tc .vmem S512x1 .f32 := win1_5.stage (cfg1.slots t 5)
abbrev scMR1_0 : Memref sig .tc .vmem S512x1 .f32 := Memref.whole cc1_scratch0
abbrev scMR1_1 : Memref sig .tc .vmem S512x1 .f32 := Memref.whole cc1_scratch1

/-- The launch's body at point t is the one body every launch runs, on this launch's buffers. -/
theorem bodyAtR1 (t : Fin cfg1.N) : bodyAt1 (F := F) t = cc0__hardest_kernel (grid1.coords t) (msR1_0 t) (hstage1_0 _) (msR1_1 t) (hstage1_1 _)
    (msR1_2 t) (hstage1_2 _) (msR1_3 t) (hstage1_3 _) (msR1_4 t) (hstage1_4 _) (msR1_5 t) (hstage1_5 _)
    scMR1_0 (Memref.isWhole_whole _) scMR1_1 (Memref.isWhole_whole _) := rfl

variable (V : (c : Dev nD) → (b : Ref sig .tc) → Buf (Elt F) ((c : Thread nD τ).loc b))

def iblkR1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The running row maximum and minimum after the tile at point t, from the values xs0 and xs1 before it. -/
def stepR1 (c : Dev nD) (t : Fin cfg1.N) (xs0 xs1 : Vec F S512x1 .f32) : Vec F S512x1 .f32 × Vec F S512x1 .f32 :=
  (k0_pay1 (k0_pay7 (iblkR1 V c 0 t) (iblkR1 V c 1 t) (iblkR1 V c 2 t) (iblkR1 V c 3 t)) xs0, k0_pay2 (k0_pay8 (iblkR1 V c 0 t) (iblkR1 V c 1 t) (iblkR1 V c 2 t) (iblkR1 V c 3 t)) xs1)

/-- The two results and the two running values after point t, by case of the column step: first, inner, last (a step that
    writes no result leaves a placeholder nothing reads in the result's place). -/
def caseAR1 (c : Dev nD) (t : Fin cfg1.N) : Vec F S512x1 .f32 × Vec F S512x1 .f32 × Vec F S512x1 .f32 × Vec F S512x1 .f32 :=
  (k0_pay3 (F := F), k0_pay4 (F := F), stepR1 V c t k0_pay3 k0_pay4)
def caseBR1 (c : Dev nD) (t : Fin cfg1.N) (xs0 xs1 : Vec F S512x1 .f32) : Vec F S512x1 .f32 × Vec F S512x1 .f32 × Vec F S512x1 .f32 × Vec F S512x1 .f32 :=
  (k0_pay3 (F := F), k0_pay4 (F := F), stepR1 V c t xs0 xs1)
def caseCR1 (c : Dev nD) (t : Fin cfg1.N) (xs0 xs1 : Vec F S512x1 .f32) : Vec F S512x1 .f32 × Vec F S512x1 .f32 × Vec F S512x1 .f32 × Vec F S512x1 .f32 :=
  ((stepR1 V c t xs0 xs1).1, (stepR1 V c t xs0 xs1).2, stepR1 V c t xs0 xs1)

def outsAtR1 (c : Dev nD) : (n : ℕ) → n < cfg1.N → Vec F S512x1 .f32 × Vec F S512x1 .f32 × Vec F S512x1 .f32 × Vec F S512x1 .f32
  | 0, hn => caseAR1 V c ⟨0, hn⟩
  | n + 1, hn =>
    if (n + 1) % 8 = 0 then caseAR1 V c ⟨n + 1, hn⟩
    else if (n + 1) % 8 = 7 then caseCR1 V c ⟨n + 1, hn⟩ (outsAtR1 c n (Nat.lt_of_succ_lt hn)).2.2.1 (outsAtR1 c n (Nat.lt_of_succ_lt hn)).2.2.2
    else caseBR1 V c ⟨n + 1, hn⟩ (outsAtR1 c n (Nat.lt_of_succ_lt hn)).2.2.1 (outsAtR1 c n (Nat.lt_of_succ_lt hn)).2.2.2

theorem outsAtR1_A (c : Dev nD) (t : Fin cfg1.N) (h0 : t.val % 8 = 0) : outsAtR1 V c t.val t.isLt = caseAR1 V c t := by
  obtain ⟨n, hn⟩ := t
  cases n with
  | zero => rfl
  | succ n => exact if_pos h0

theorem outsAtR1_B (c : Dev nD) (t : Fin cfg1.N) (h0 : ¬t.val % 8 = 0) (h1 : ¬t.val % 8 = 7) :
    outsAtR1 V c t.val t.isLt = caseBR1 V c t (outsAtR1 V c (t.val - 1) (Nat.lt_of_le_of_lt (Nat.sub_le _ _) t.isLt)).2.2.1 (outsAtR1 V c (t.val - 1) (Nat.lt_of_le_of_lt (Nat.sub_le _ _) t.isLt)).2.2.2 := by
  obtain ⟨n, hn⟩ := t
  cases n with
  | zero => exact absurd (Nat.zero_mod _) h0
  | succ n => exact (if_neg h0).trans (if_neg h1)

theorem outsAtR1_C (c : Dev nD) (t : Fin cfg1.N) (h0 : ¬t.val % 8 = 0) (h1 : t.val % 8 = 7) :
    outsAtR1 V c t.val t.isLt = caseCR1 V c t (outsAtR1 V c (t.val - 1) (Nat.lt_of_le_of_lt (Nat.sub_le _ _) t.isLt)).2.2.1 (outsAtR1 V c (t.val - 1) (Nat.lt_of_le_of_lt (Nat.sub_le _ _) t.isLt)).2.2.2 := by
  obtain ⟨n, hn⟩ := t
  cases n with
  | zero => exact absurd (Nat.zero_mod _) h0
  | succ n => exact (if_neg h0).trans (if_pos h1)

abbrev restR1 (c : Dev nD) : sProp 𝕄 :=
  Pipeline.scopedRestBut (Ix := Unit) (Name := ℕ) (U := UR sig nD τ) (Lvl := ℕ) (Val := Elt F) spec1 c [cc1_scratch0, cc1_scratch1]

def PhiR1 (c : Dev nD) : (n : ℕ) → n ≤ cfg1.N → sProp 𝕄
  | 0, _ => iprop(iprop((∃ d, owns (c : Thread nD τ) scMR1_0 fullShare d) ∗ (∃ d, owns (c : Thread nD τ) scMR1_1 fullShare d)) ∗ restR1 c)
  | n + 1, hn => iprop(iprop(owns (c : Thread nD τ) scMR1_0 fullShare ((outsAtR1 V c n hn).2.2.1) ∗ owns (c : Thread nD τ) scMR1_1 fullShare ((outsAtR1 V c n hn).2.2.2)) ∗ restR1 c)

theorem PhiR1_zero (c : Dev nD) (n : ℕ) (h : n ≤ cfg1.N) (hz : n = 0) :
    PhiR1 V c n h = iprop(iprop((∃ d, owns (c : Thread nD τ) scMR1_0 fullShare d) ∗ (∃ d, owns (c : Thread nD τ) scMR1_1 fullShare d)) ∗ restR1 c) := by
  subst hz; rfl

theorem PhiR1_succ (c : Dev nD) (n : ℕ) (hn : n < cfg1.N) :
    PhiR1 V c (n + 1) hn = iprop(iprop(owns (c : Thread nD τ) scMR1_0 fullShare ((outsAtR1 V c n hn).2.2.1) ∗ owns (c : Thread nD τ) scMR1_1 fullShare ((outsAtR1 V c n hn).2.2.2)) ∗ restR1 c) := rfl

theorem PhiR1_pos (c : Dev nD) (n : ℕ) (h : n ≤ cfg1.N) (hz : n ≠ 0) :
    PhiR1 V c n h = iprop(iprop(owns (c : Thread nD τ) scMR1_0 fullShare ((outsAtR1 V c (n - 1) (by omega)).2.2.1) ∗ owns (c : Thread nD τ) scMR1_1 fullShare ((outsAtR1 V c (n - 1) (by omega)).2.2.2)) ∗ restR1 c) := by
  cases n with
  | zero => exact absurd rfl hz
  | succ n => rfl

theorem PhiR1_any (c : Dev nD) (n : ℕ) (h : n ≤ cfg1.N) :
    PhiR1 V c n h ⊢ iprop(iprop((∃ d, owns (c : Thread nD τ) scMR1_0 fullShare d) ∗ (∃ d, owns (c : Thread nD τ) scMR1_1 fullShare d)) ∗ restR1 c) := by
  cases n with
  | zero => exact .rfl
  | succ n =>
    rw [PhiR1_succ]
    iintro ⟨⟨HS0, HS1⟩, HR⟩
    isplitl [HS0 HS1]
    · isplitl [HS0]
      · iexists _; iexact HS0
      · iexists _; iexact HS1
    iexact HR

theorem scopedRestR1_eq (c : Dev nD) :
    (Pipeline.scopedRest (Ix := Unit) (Name := ℕ) (U := UR sig nD τ) (Lvl := ℕ) (Val := Elt F) spec1 c : sProp 𝕄)
      = iprop(iprop((∃ d, owns (c : Thread nD τ) scMR1_0 fullShare d) ∗ (∃ d, owns (c : Thread nD τ) scMR1_1 fullShare d)) ∗ restR1 c) := by
  rw [scopedRest1_split]; simp only [scMR1_0, scMR1_1, owns_whole]; try rfl

def datR1 (c : Dev nD) : Dat τ (Elt F) Unit ℕ (UR sig nD τ) ℕ cfg1 c where
  A w := V c (Pipeline.arrRef spec1 w)
  after w t := match w with
    | ⟨0, _⟩ => iblkR1 V c 0 t
    | ⟨1, _⟩ => iblkR1 V c 1 t
    | ⟨2, _⟩ => iblkR1 V c 2 t
    | ⟨3, _⟩ => iblkR1 V c 3 t
    | ⟨4, _⟩ => (outsAtR1 V c t.val t.isLt).1
    | ⟨5, _⟩ => (outsAtR1 V c t.val t.isLt).2.1
  Φ t := PhiR1 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eqR1 (c : Dev nD) (w : Fin cfg1.W) : (datR1 V c).A w = V c (Pipeline.arrRef spec1 w) := by
  dsimp only [datR1]

theorem PhiR1_castSucc (c : Dev nD) (t : Fin cfg1.N) :
    (datR1 V c).Φ t.castSucc = PhiR1 V c t.val (Nat.le_of_lt t.isLt) := by
  dsimp only [datR1]; simp only [Fin.coe_castSucc]

theorem afterR1_0 (c : Dev nD) (t : Fin cfg1.N) : (datR1 V c).after 0 t = iblkR1 V c 0 t := by dsimp only [datR1]
theorem afterR1_1 (c : Dev nD) (t : Fin cfg1.N) : (datR1 V c).after 1 t = iblkR1 V c 1 t := by dsimp only [datR1]
theorem afterR1_2 (c : Dev nD) (t : Fin cfg1.N) : (datR1 V c).after 2 t = iblkR1 V c 2 t := by dsimp only [datR1]
theorem afterR1_3 (c : Dev nD) (t : Fin cfg1.N) : (datR1 V c).after 3 t = iblkR1 V c 3 t := by dsimp only [datR1]
theorem afterR1_4 (c : Dev nD) (t : Fin cfg1.N) : (datR1 V c).after 4 t = (outsAtR1 V c t.val t.isLt).1 := by dsimp only [datR1]
theorem afterR1_5 (c : Dev nD) (t : Fin cfg1.N) : (datR1 V c).after 5 t = (outsAtR1 V c t.val t.isLt).2.1 := by dsimp only [datR1]

theorem beforeR1_0 (c : Dev nD) (t : Fin cfg1.N) (d) : (datR1 V c).before 0 t d = iblkR1 V c 0 t :=
  ((datR1 V c).before_in_eq_fetched 0 rfl (fun _ => rfl) (fun _ _ _ => rfl) (fun t => by rw [afterR1_0]; unfold Dat.blockOf iblkR1; rw [A_eqR1]; try rfl) t d).trans
    (by unfold Dat.fetched Dat.blockOf iblkR1; rw [A_eqR1]; try rfl)
theorem beforeR1_1 (c : Dev nD) (t : Fin cfg1.N) (d) : (datR1 V c).before 1 t d = iblkR1 V c 1 t :=
  ((datR1 V c).before_in_eq_fetched 1 rfl (fun _ => rfl) (fun _ _ _ => rfl) (fun t => by rw [afterR1_1]; unfold Dat.blockOf iblkR1; rw [A_eqR1]; try rfl) t d).trans
    (by unfold Dat.fetched Dat.blockOf iblkR1; rw [A_eqR1]; try rfl)
theorem beforeR1_2 (c : Dev nD) (t : Fin cfg1.N) (d) : (datR1 V c).before 2 t d = iblkR1 V c 2 t :=
  ((datR1 V c).before_in_eq_fetched 2 rfl (fun _ => rfl) (fun _ _ _ => rfl) (fun t => by rw [afterR1_2]; unfold Dat.blockOf iblkR1; rw [A_eqR1]; try rfl) t d).trans
    (by unfold Dat.fetched Dat.blockOf iblkR1; rw [A_eqR1]; try rfl)
theorem beforeR1_3 (c : Dev nD) (t : Fin cfg1.N) (d) : (datR1 V c).before 3 t d = iblkR1 V c 3 t :=
  ((datR1 V c).before_in_eq_fetched 3 rfl (fun _ => rfl) (fun _ _ _ => rfl) (fun t => by rw [afterR1_3]; unfold Dat.blockOf iblkR1; rw [A_eqR1]; try rfl) t d).trans
    (by unfold Dat.fetched Dat.blockOf iblkR1; rw [A_eqR1]; try rfl)

def bodyPreR1 (c : Dev nD) (t : Fin cfg1.N) : sProp 𝕄 :=
  iprop((datR1 V c).Φ t.castSucc ∗ (datR1 V c).owesAt () t.castSucc
    ∗ (∃ d, owns (c : Thread nD τ) (msR1_0 t) fullShare ((datR1 V c).before 0 t d))
    ∗ (∃ d, owns (c : Thread nD τ) (msR1_1 t) fullShare ((datR1 V c).before 1 t d))
    ∗ (∃ d, owns (c : Thread nD τ) (msR1_2 t) fullShare ((datR1 V c).before 2 t d))
    ∗ (∃ d, owns (c : Thread nD τ) (msR1_3 t) fullShare ((datR1 V c).before 3 t d))
    ∗ (∃ d, owns (c : Thread nD τ) (msR1_4 t) fullShare ((datR1 V c).before 4 t d))
    ∗ (∃ d, owns (c : Thread nD τ) (msR1_5 t) fullShare ((datR1 V c).before 5 t d)))

def bodyPostR1 (c : Dev nD) (t : Fin cfg1.N) : sProp 𝕄 :=
  iprop((datR1 V c).Φ t.succ ∗ (datR1 V c).owesAt () t.succ
    ∗ (datR1 V c).leavesExact 0 t ∗ (datR1 V c).leavesExact 1 t ∗ (datR1 V c).leavesExact 2 t
    ∗ (datR1 V c).leavesExact 3 t ∗ (datR1 V c).leavesExact 4 t ∗ (datR1 V c).leavesExact 5 t)

/-- Where window w is live at point t the body leaves its buffer at the point's contents. -/
theorem leavesR1 (c : Dev nD) (w : Fin cfg1.W) (t : Fin cfg1.N) (h : cfg1.idle w (grid1.coords t) = false) :
    (datR1 V c).leavesExact w t = owns (c : Thread nD τ) ((cfg1.win w).stage (cfg1.slots t w)) fullShare ((datR1 V c).after w t) := by
  unfold Dat.leavesExact; rw [h]

/-- The body at any point: the column step says which case runs, from the running values the point before left. -/
theorem sound_bodyR1 (c : Dev nD) (t : Fin cfg1.N) :
    bodyPreR1 V c t ⊢ wp frame (wpE (defs₀ (F := F)) Variants.none c none) Set.univ (bodyAt1 t) (fun _ => bodyPostR1 V c t) := by
  unfold bodyPreR1 bodyPostR1
  rw [bodyAtR1]
  simp only [beforeR1_0, beforeR1_1, beforeR1_2, beforeR1_3]
  rw [show (datR1 V c).owesAt () t.succ = (datR1 V c).owesAt () t.castSucc from rfl]
  rw [show (datR1 V c).Φ t.succ = PhiR1 V c (t.val + 1) t.isLt from rfl, PhiR1_succ]
  rw [leavesR1 V c 0 t (liveAtR1_0 t), afterR1_0, leavesR1 V c 1 t (liveAtR1_1 t), afterR1_1, leavesR1 V c 2 t (liveAtR1_2 t), afterR1_2,
    leavesR1 V c 3 t (liveAtR1_3 t), afterR1_3, PhiR1_castSucc V c t]
  by_cases h1 : t.val % 8 = 7
  · have h0 : ¬t.val % 8 = 0 := by omega
    have hz : t.val ≠ 0 := fun h => h0 (by rw [h])
    rw [leavesR1 V c 4 t (liveAtR1_4 t ((hcondLast t).mpr h1)), afterR1_4, leavesR1 V c 5 t (liveAtR1_5 t ((hcondLast t).mpr h1)), afterR1_5,
      outsAtR1_C V c t h0 h1]
    unfold caseCR1 stepR1; dsimp only
    rw [PhiR1_pos V c _ _ hz]
    iintro ⟨⟨⟨HS0, HS1⟩, HR⟩, Ho, ⟨%d0, H0⟩, ⟨%d1, H1⟩, ⟨%d2, H2⟩, ⟨%d3, H3⟩, ⟨%d4, H4⟩, ⟨%d5, H5⟩⟩
    iapply (bodyC c (grid1.coords t) _ _ _ _ _ _ _ _ _ _ _ _ _ _ _ _ (fun h => h0 ((hcondFirst t).mp h)) ((hcondLast t).mpr h1) (iblkR1 V c 0 t) (iblkR1 V c 1 t) (iblkR1 V c 2 t) (iblkR1 V c 3 t) _ _ Set.univ _)
    iframe H0 H1 H2 H3 HS0 HS1
    isplitl [H4]; · iexists _; iexact H4
    isplitl [H5]; · iexists _; iexact H5
    iintro ⟨H0, H1, H2, H3, H4, H5, HS0, HS1⟩
    iframe
  · have h1' : ¬condLast (grid1.coords t) := fun h => h1 ((hcondLast t).mp h)
    rw [Dat.leavesExact_idle (datR1 V c) 4 t (idleAtR1_4 t h1') (noFlushR1_4 t h1'),
      Dat.leavesExact_idle (datR1 V c) 5 t (idleAtR1_5 t h1') (noFlushR1_5 t h1')]
    by_cases h0 : t.val % 8 = 0
    · rw [outsAtR1_A V c t h0]
      unfold caseAR1 stepR1; dsimp only
      iintro ⟨HΦ, Ho, ⟨%d0, H0⟩, ⟨%d1, H1⟩, ⟨%d2, H2⟩, ⟨%d3, H3⟩, ⟨%d4, H4⟩, ⟨%d5, H5⟩⟩
      ihave HΦ' := (PhiR1_any V c t.val (Nat.le_of_lt t.isLt)) $$ HΦ
      icases HΦ' with ⟨⟨HS0, HS1⟩, HR⟩
      iapply (bodyA c (grid1.coords t) _ _ _ _ _ _ _ _ _ _ _ _ _ _ _ _ ((hcondFirst t).mpr h0) h1' (iblkR1 V c 0 t) (iblkR1 V c 1 t) (iblkR1 V c 2 t) (iblkR1 V c 3 t) _ _ Set.univ _)
      iframe H0 H1 H2 H3 H4 H5 HS0 HS1
      iintro ⟨H0, H1, H2, H3, H4, H5, HS0, HS1⟩
      iframe HS0 HS1 HR Ho H0 H1 H2 H3
      isplitl [H4]; · iexists _; iexact H4
      iexists _; iexact H5
    · have hz : t.val ≠ 0 := fun h => h0 (by rw [h])
      rw [outsAtR1_B V c t h0 h1]
      unfold caseBR1 stepR1; dsimp only
      rw [PhiR1_pos V c _ _ hz]
      iintro ⟨⟨⟨HS0, HS1⟩, HR⟩, Ho, ⟨%d0, H0⟩, ⟨%d1, H1⟩, ⟨%d2, H2⟩, ⟨%d3, H3⟩, ⟨%d4, H4⟩, ⟨%d5, H5⟩⟩
      iapply (bodyB c (grid1.coords t) _ _ _ _ _ _ _ _ _ _ _ _ _ _ _ _ (fun h => h0 ((hcondFirst t).mp h)) h1' (iblkR1 V c 0 t) (iblkR1 V c 1 t) (iblkR1 V c 2 t) (iblkR1 V c 3 t) _ _ _ _ Set.univ _)
      iframe H0 H1 H2 H3 H4 H5 HS0 HS1
      iintro ⟨H0, H1, H2, H3, H4, H5, HS0, HS1⟩
      iframe HS0 HS1 HR Ho H0 H1 H2 H3
      isplitl [H4]; · iexists _; iexact H4
      iexists _; iexact H5

theorem body_obligationR1 (c : Dev nD) : BodyObligation (datR1 (F := F) V c) (defs₀ (F := F)) Variants.none () Set.univ := fun t => by
  rw [bigSep_W1, bigSep_W1]
  exact sound_bodyR1 V c t

theorem hinR1 (c : Dev nD) :
    (Pipeline.scopedRest (Ix := Unit) (Name := ℕ) (U := UR sig nD τ) (Lvl := ℕ) (Val := Elt F) spec1 c : sProp 𝕄) ⊢ (datR1 V c).Φ 0 := by
  rw [show (datR1 V c).Φ 0 = PhiR1 V c 0 (Nat.zero_le _) from rfl, PhiR1_zero V c 0 _ rfl, scopedRestR1_eq]
  try exact Idealize.SL.BI.Entails.refl _

theorem houtR1 (c : Dev nD) :
    (datR1 V c).Φ (Fin.last cfg1.N) ⊢ (Pipeline.scopedRest (Ix := Unit) (Name := ℕ) (U := UR sig nD τ) (Lvl := ℕ) (Val := Elt F) spec1 c : sProp 𝕄) := by
  rw [show (datR1 V c).Φ (Fin.last cfg1.N) = PhiR1 V c (Fin.last cfg1.N).val (Nat.le_of_lt_succ (Fin.last cfg1.N).isLt) from rfl, scopedRestR1_eq]
  exact PhiR1_any V c _ _

end Cert.KernelIdeal.Hand

end
-- ==== Proof.KI.Dat2.lean ====
/- One launch, point by point: what its two results and the running row maximum and minimum are after each grid point, and
   that the body run at a point takes them from the point before to this one. -/
import proofs.«145578_j51728586113513_1_alg».proof.Proof.KI.Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.KernelIdeal Cert.KernelIdeal.Gen

theorem liveAtR2_0 : ∀ t : Fin cfg2.N, cfg2.idle 0 (grid2.coords t) = false := by decide +kernel
theorem liveAtR2_1 : ∀ t : Fin cfg2.N, cfg2.idle 1 (grid2.coords t) = false := by decide +kernel
theorem liveAtR2_2 : ∀ t : Fin cfg2.N, cfg2.idle 2 (grid2.coords t) = false := by decide +kernel
theorem liveAtR2_3 : ∀ t : Fin cfg2.N, cfg2.idle 3 (grid2.coords t) = false := by decide +kernel
theorem idleAtR2_4 : ∀ t : Fin cfg2.N, ¬condLast (grid2.coords t) → cfg2.idle 4 (grid2.coords t) = true := by decide +kernel
theorem idleAtR2_5 : ∀ t : Fin cfg2.N, ¬condLast (grid2.coords t) → cfg2.idle 5 (grid2.coords t) = true := by decide +kernel
theorem noFlushR2_4 : ∀ t : Fin cfg2.N, ¬condLast (grid2.coords t) → (cfg2.win 4).flush t = false := by decide +kernel
theorem noFlushR2_5 : ∀ t : Fin cfg2.N, ¬condLast (grid2.coords t) → (cfg2.win 5).flush t = false := by decide +kernel
theorem liveAtR2_4 : ∀ t : Fin cfg2.N, condLast (grid2.coords t) → cfg2.idle 4 (grid2.coords t) = false := by decide +kernel
theorem liveAtR2_5 : ∀ t : Fin cfg2.N, condLast (grid2.coords t) → cfg2.idle 5 (grid2.coords t) = false := by decide +kernel

abbrev msR2_0 (t : Fin cfg2.N) : Memref sig .tc .vmem S512x2048 .f32 := win2_0.stage (cfg2.slots t 0)
abbrev msR2_1 (t : Fin cfg2.N) : Memref sig .tc .vmem S512x2048 .f32 := win2_1.stage (cfg2.slots t 1)
abbrev msR2_2 (t : Fin cfg2.N) : Memref sig .tc .vmem S512x1 .i32 := win2_2.stage (cfg2.slots t 2)
abbrev msR2_3 (t : Fin cfg2.N) : Memref sig .tc .vmem S1x512 .i32 := win2_3.stage (cfg2.slots t 3)
abbrev msR2_4 (t : Fin cfg2.N) : Memref sig .tc .vmem S512x1 .f32 := win2_4.stage (cfg2.slots t 4)
abbrev msR2_5 (t : Fin cfg2.N) : Memref sig .tc .vmem S512x1 .f32 := win2_5.stage (cfg2.slots t 5)
abbrev scMR2_0 : Memref sig .tc .vmem S512x1 .f32 := Memref.whole cc2_scratch0
abbrev scMR2_1 : Memref sig .tc .vmem S512x1 .f32 := Memref.whole cc2_scratch1

/-- The launch's body at point t is the one body every launch runs, on this launch's buffers. -/
theorem bodyAtR2 (t : Fin cfg2.N) : bodyAt2 (F := F) t = cc0__hardest_kernel (grid2.coords t) (msR2_0 t) (hstage2_0 _) (msR2_1 t) (hstage2_1 _)
    (msR2_2 t) (hstage2_2 _) (msR2_3 t) (hstage2_3 _) (msR2_4 t) (hstage2_4 _) (msR2_5 t) (hstage2_5 _)
    scMR2_0 (Memref.isWhole_whole _) scMR2_1 (Memref.isWhole_whole _) := rfl

variable (V : (c : Dev nD) → (b : Ref sig .tc) → Buf (Elt F) ((c : Thread nD τ).loc b))

def iblkR2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The running row maximum and minimum after the tile at point t, from the values xs0 and xs1 before it. -/
def stepR2 (c : Dev nD) (t : Fin cfg2.N) (xs0 xs1 : Vec F S512x1 .f32) : Vec F S512x1 .f32 × Vec F S512x1 .f32 :=
  (k0_pay1 (k0_pay7 (iblkR2 V c 0 t) (iblkR2 V c 1 t) (iblkR2 V c 2 t) (iblkR2 V c 3 t)) xs0, k0_pay2 (k0_pay8 (iblkR2 V c 0 t) (iblkR2 V c 1 t) (iblkR2 V c 2 t) (iblkR2 V c 3 t)) xs1)

/-- The two results and the two running values after point t, by case of the column step: first, inner, last (a step that
    writes no result leaves a placeholder nothing reads in the result's place). -/
def caseAR2 (c : Dev nD) (t : Fin cfg2.N) : Vec F S512x1 .f32 × Vec F S512x1 .f32 × Vec F S512x1 .f32 × Vec F S512x1 .f32 :=
  (k0_pay3 (F := F), k0_pay4 (F := F), stepR2 V c t k0_pay3 k0_pay4)
def caseBR2 (c : Dev nD) (t : Fin cfg2.N) (xs0 xs1 : Vec F S512x1 .f32) : Vec F S512x1 .f32 × Vec F S512x1 .f32 × Vec F S512x1 .f32 × Vec F S512x1 .f32 :=
  (k0_pay3 (F := F), k0_pay4 (F := F), stepR2 V c t xs0 xs1)
def caseCR2 (c : Dev nD) (t : Fin cfg2.N) (xs0 xs1 : Vec F S512x1 .f32) : Vec F S512x1 .f32 × Vec F S512x1 .f32 × Vec F S512x1 .f32 × Vec F S512x1 .f32 :=
  ((stepR2 V c t xs0 xs1).1, (stepR2 V c t xs0 xs1).2, stepR2 V c t xs0 xs1)

def outsAtR2 (c : Dev nD) : (n : ℕ) → n < cfg2.N → Vec F S512x1 .f32 × Vec F S512x1 .f32 × Vec F S512x1 .f32 × Vec F S512x1 .f32
  | 0, hn => caseAR2 V c ⟨0, hn⟩
  | n + 1, hn =>
    if (n + 1) % 8 = 0 then caseAR2 V c ⟨n + 1, hn⟩
    else if (n + 1) % 8 = 7 then caseCR2 V c ⟨n + 1, hn⟩ (outsAtR2 c n (Nat.lt_of_succ_lt hn)).2.2.1 (outsAtR2 c n (Nat.lt_of_succ_lt hn)).2.2.2
    else caseBR2 V c ⟨n + 1, hn⟩ (outsAtR2 c n (Nat.lt_of_succ_lt hn)).2.2.1 (outsAtR2 c n (Nat.lt_of_succ_lt hn)).2.2.2

theorem outsAtR2_A (c : Dev nD) (t : Fin cfg2.N) (h0 : t.val % 8 = 0) : outsAtR2 V c t.val t.isLt = caseAR2 V c t := by
  obtain ⟨n, hn⟩ := t
  cases n with
  | zero => rfl
  | succ n => exact if_pos h0

theorem outsAtR2_B (c : Dev nD) (t : Fin cfg2.N) (h0 : ¬t.val % 8 = 0) (h1 : ¬t.val % 8 = 7) :
    outsAtR2 V c t.val t.isLt = caseBR2 V c t (outsAtR2 V c (t.val - 1) (Nat.lt_of_le_of_lt (Nat.sub_le _ _) t.isLt)).2.2.1 (outsAtR2 V c (t.val - 1) (Nat.lt_of_le_of_lt (Nat.sub_le _ _) t.isLt)).2.2.2 := by
  obtain ⟨n, hn⟩ := t
  cases n with
  | zero => exact absurd (Nat.zero_mod _) h0
  | succ n => exact (if_neg h0).trans (if_neg h1)

theorem outsAtR2_C (c : Dev nD) (t : Fin cfg2.N) (h0 : ¬t.val % 8 = 0) (h1 : t.val % 8 = 7) :
    outsAtR2 V c t.val t.isLt = caseCR2 V c t (outsAtR2 V c (t.val - 1) (Nat.lt_of_le_of_lt (Nat.sub_le _ _) t.isLt)).2.2.1 (outsAtR2 V c (t.val - 1) (Nat.lt_of_le_of_lt (Nat.sub_le _ _) t.isLt)).2.2.2 := by
  obtain ⟨n, hn⟩ := t
  cases n with
  | zero => exact absurd (Nat.zero_mod _) h0
  | succ n => exact (if_neg h0).trans (if_pos h1)

abbrev restR2 (c : Dev nD) : sProp 𝕄 :=
  Pipeline.scopedRestBut (Ix := Unit) (Name := ℕ) (U := UR sig nD τ) (Lvl := ℕ) (Val := Elt F) spec2 c [cc2_scratch0, cc2_scratch1]

def PhiR2 (c : Dev nD) : (n : ℕ) → n ≤ cfg2.N → sProp 𝕄
  | 0, _ => iprop(iprop((∃ d, owns (c : Thread nD τ) scMR2_0 fullShare d) ∗ (∃ d, owns (c : Thread nD τ) scMR2_1 fullShare d)) ∗ restR2 c)
  | n + 1, hn => iprop(iprop(owns (c : Thread nD τ) scMR2_0 fullShare ((outsAtR2 V c n hn).2.2.1) ∗ owns (c : Thread nD τ) scMR2_1 fullShare ((outsAtR2 V c n hn).2.2.2)) ∗ restR2 c)

theorem PhiR2_zero (c : Dev nD) (n : ℕ) (h : n ≤ cfg2.N) (hz : n = 0) :
    PhiR2 V c n h = iprop(iprop((∃ d, owns (c : Thread nD τ) scMR2_0 fullShare d) ∗ (∃ d, owns (c : Thread nD τ) scMR2_1 fullShare d)) ∗ restR2 c) := by
  subst hz; rfl

theorem PhiR2_succ (c : Dev nD) (n : ℕ) (hn : n < cfg2.N) :
    PhiR2 V c (n + 1) hn = iprop(iprop(owns (c : Thread nD τ) scMR2_0 fullShare ((outsAtR2 V c n hn).2.2.1) ∗ owns (c : Thread nD τ) scMR2_1 fullShare ((outsAtR2 V c n hn).2.2.2)) ∗ restR2 c) := rfl

theorem PhiR2_pos (c : Dev nD) (n : ℕ) (h : n ≤ cfg2.N) (hz : n ≠ 0) :
    PhiR2 V c n h = iprop(iprop(owns (c : Thread nD τ) scMR2_0 fullShare ((outsAtR2 V c (n - 1) (by omega)).2.2.1) ∗ owns (c : Thread nD τ) scMR2_1 fullShare ((outsAtR2 V c (n - 1) (by omega)).2.2.2)) ∗ restR2 c) := by
  cases n with
  | zero => exact absurd rfl hz
  | succ n => rfl

theorem PhiR2_any (c : Dev nD) (n : ℕ) (h : n ≤ cfg2.N) :
    PhiR2 V c n h ⊢ iprop(iprop((∃ d, owns (c : Thread nD τ) scMR2_0 fullShare d) ∗ (∃ d, owns (c : Thread nD τ) scMR2_1 fullShare d)) ∗ restR2 c) := by
  cases n with
  | zero => exact .rfl
  | succ n =>
    rw [PhiR2_succ]
    iintro ⟨⟨HS0, HS1⟩, HR⟩
    isplitl [HS0 HS1]
    · isplitl [HS0]
      · iexists _; iexact HS0
      · iexists _; iexact HS1
    iexact HR

theorem scopedRestR2_eq (c : Dev nD) :
    (Pipeline.scopedRest (Ix := Unit) (Name := ℕ) (U := UR sig nD τ) (Lvl := ℕ) (Val := Elt F) spec2 c : sProp 𝕄)
      = iprop(iprop((∃ d, owns (c : Thread nD τ) scMR2_0 fullShare d) ∗ (∃ d, owns (c : Thread nD τ) scMR2_1 fullShare d)) ∗ restR2 c) := by
  rw [scopedRest2_split]; simp only [scMR2_0, scMR2_1, owns_whole]; try rfl

def datR2 (c : Dev nD) : Dat τ (Elt F) Unit ℕ (UR sig nD τ) ℕ cfg2 c where
  A w := V c (Pipeline.arrRef spec2 w)
  after w t := match w with
    | ⟨0, _⟩ => iblkR2 V c 0 t
    | ⟨1, _⟩ => iblkR2 V c 1 t
    | ⟨2, _⟩ => iblkR2 V c 2 t
    | ⟨3, _⟩ => iblkR2 V c 3 t
    | ⟨4, _⟩ => (outsAtR2 V c t.val t.isLt).1
    | ⟨5, _⟩ => (outsAtR2 V c t.val t.isLt).2.1
  Φ t := PhiR2 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eqR2 (c : Dev nD) (w : Fin cfg2.W) : (datR2 V c).A w = V c (Pipeline.arrRef spec2 w) := by
  dsimp only [datR2]

theorem PhiR2_castSucc (c : Dev nD) (t : Fin cfg2.N) :
    (datR2 V c).Φ t.castSucc = PhiR2 V c t.val (Nat.le_of_lt t.isLt) := by
  dsimp only [datR2]; simp only [Fin.coe_castSucc]

theorem afterR2_0 (c : Dev nD) (t : Fin cfg2.N) : (datR2 V c).after 0 t = iblkR2 V c 0 t := by dsimp only [datR2]
theorem afterR2_1 (c : Dev nD) (t : Fin cfg2.N) : (datR2 V c).after 1 t = iblkR2 V c 1 t := by dsimp only [datR2]
theorem afterR2_2 (c : Dev nD) (t : Fin cfg2.N) : (datR2 V c).after 2 t = iblkR2 V c 2 t := by dsimp only [datR2]
theorem afterR2_3 (c : Dev nD) (t : Fin cfg2.N) : (datR2 V c).after 3 t = iblkR2 V c 3 t := by dsimp only [datR2]
theorem afterR2_4 (c : Dev nD) (t : Fin cfg2.N) : (datR2 V c).after 4 t = (outsAtR2 V c t.val t.isLt).1 := by dsimp only [datR2]
theorem afterR2_5 (c : Dev nD) (t : Fin cfg2.N) : (datR2 V c).after 5 t = (outsAtR2 V c t.val t.isLt).2.1 := by dsimp only [datR2]

theorem beforeR2_0 (c : Dev nD) (t : Fin cfg2.N) (d) : (datR2 V c).before 0 t d = iblkR2 V c 0 t :=
  ((datR2 V c).before_in_eq_fetched 0 rfl (fun _ => rfl) (fun _ _ _ => rfl) (fun t => by rw [afterR2_0]; unfold Dat.blockOf iblkR2; rw [A_eqR2]; try rfl) t d).trans
    (by unfold Dat.fetched Dat.blockOf iblkR2; rw [A_eqR2]; try rfl)
theorem beforeR2_1 (c : Dev nD) (t : Fin cfg2.N) (d) : (datR2 V c).before 1 t d = iblkR2 V c 1 t :=
  ((datR2 V c).before_in_eq_fetched 1 rfl (fun _ => rfl) (fun _ _ _ => rfl) (fun t => by rw [afterR2_1]; unfold Dat.blockOf iblkR2; rw [A_eqR2]; try rfl) t d).trans
    (by unfold Dat.fetched Dat.blockOf iblkR2; rw [A_eqR2]; try rfl)
theorem beforeR2_2 (c : Dev nD) (t : Fin cfg2.N) (d) : (datR2 V c).before 2 t d = iblkR2 V c 2 t :=
  ((datR2 V c).before_in_eq_fetched 2 rfl (fun _ => rfl) (fun _ _ _ => rfl) (fun t => by rw [afterR2_2]; unfold Dat.blockOf iblkR2; rw [A_eqR2]; try rfl) t d).trans
    (by unfold Dat.fetched Dat.blockOf iblkR2; rw [A_eqR2]; try rfl)
theorem beforeR2_3 (c : Dev nD) (t : Fin cfg2.N) (d) : (datR2 V c).before 3 t d = iblkR2 V c 3 t :=
  ((datR2 V c).before_in_eq_fetched 3 rfl (fun _ => rfl) (fun _ _ _ => rfl) (fun t => by rw [afterR2_3]; unfold Dat.blockOf iblkR2; rw [A_eqR2]; try rfl) t d).trans
    (by unfold Dat.fetched Dat.blockOf iblkR2; rw [A_eqR2]; try rfl)

def bodyPreR2 (c : Dev nD) (t : Fin cfg2.N) : sProp 𝕄 :=
  iprop((datR2 V c).Φ t.castSucc ∗ (datR2 V c).owesAt () t.castSucc
    ∗ (∃ d, owns (c : Thread nD τ) (msR2_0 t) fullShare ((datR2 V c).before 0 t d))
    ∗ (∃ d, owns (c : Thread nD τ) (msR2_1 t) fullShare ((datR2 V c).before 1 t d))
    ∗ (∃ d, owns (c : Thread nD τ) (msR2_2 t) fullShare ((datR2 V c).before 2 t d))
    ∗ (∃ d, owns (c : Thread nD τ) (msR2_3 t) fullShare ((datR2 V c).before 3 t d))
    ∗ (∃ d, owns (c : Thread nD τ) (msR2_4 t) fullShare ((datR2 V c).before 4 t d))
    ∗ (∃ d, owns (c : Thread nD τ) (msR2_5 t) fullShare ((datR2 V c).before 5 t d)))

def bodyPostR2 (c : Dev nD) (t : Fin cfg2.N) : sProp 𝕄 :=
  iprop((datR2 V c).Φ t.succ ∗ (datR2 V c).owesAt () t.succ
    ∗ (datR2 V c).leavesExact 0 t ∗ (datR2 V c).leavesExact 1 t ∗ (datR2 V c).leavesExact 2 t
    ∗ (datR2 V c).leavesExact 3 t ∗ (datR2 V c).leavesExact 4 t ∗ (datR2 V c).leavesExact 5 t)

/-- Where window w is live at point t the body leaves its buffer at the point's contents. -/
theorem leavesR2 (c : Dev nD) (w : Fin cfg2.W) (t : Fin cfg2.N) (h : cfg2.idle w (grid2.coords t) = false) :
    (datR2 V c).leavesExact w t = owns (c : Thread nD τ) ((cfg2.win w).stage (cfg2.slots t w)) fullShare ((datR2 V c).after w t) := by
  unfold Dat.leavesExact; rw [h]

/-- The body at any point: the column step says which case runs, from the running values the point before left. -/
theorem sound_bodyR2 (c : Dev nD) (t : Fin cfg2.N) :
    bodyPreR2 V c t ⊢ wp frame (wpE (defs₀ (F := F)) Variants.none c none) Set.univ (bodyAt2 t) (fun _ => bodyPostR2 V c t) := by
  unfold bodyPreR2 bodyPostR2
  rw [bodyAtR2]
  simp only [beforeR2_0, beforeR2_1, beforeR2_2, beforeR2_3]
  rw [show (datR2 V c).owesAt () t.succ = (datR2 V c).owesAt () t.castSucc from rfl]
  rw [show (datR2 V c).Φ t.succ = PhiR2 V c (t.val + 1) t.isLt from rfl, PhiR2_succ]
  rw [leavesR2 V c 0 t (liveAtR2_0 t), afterR2_0, leavesR2 V c 1 t (liveAtR2_1 t), afterR2_1, leavesR2 V c 2 t (liveAtR2_2 t), afterR2_2,
    leavesR2 V c 3 t (liveAtR2_3 t), afterR2_3, PhiR2_castSucc V c t]
  by_cases h1 : t.val % 8 = 7
  · have h0 : ¬t.val % 8 = 0 := by omega
    have hz : t.val ≠ 0 := fun h => h0 (by rw [h])
    rw [leavesR2 V c 4 t (liveAtR2_4 t ((hcondLast t).mpr h1)), afterR2_4, leavesR2 V c 5 t (liveAtR2_5 t ((hcondLast t).mpr h1)), afterR2_5,
      outsAtR2_C V c t h0 h1]
    unfold caseCR2 stepR2; dsimp only
    rw [PhiR2_pos V c _ _ hz]
    iintro ⟨⟨⟨HS0, HS1⟩, HR⟩, Ho, ⟨%d0, H0⟩, ⟨%d1, H1⟩, ⟨%d2, H2⟩, ⟨%d3, H3⟩, ⟨%d4, H4⟩, ⟨%d5, H5⟩⟩
    iapply (bodyC c (grid2.coords t) _ _ _ _ _ _ _ _ _ _ _ _ _ _ _ _ (fun h => h0 ((hcondFirst t).mp h)) ((hcondLast t).mpr h1) (iblkR2 V c 0 t) (iblkR2 V c 1 t) (iblkR2 V c 2 t) (iblkR2 V c 3 t) _ _ Set.univ _)
    iframe H0 H1 H2 H3 HS0 HS1
    isplitl [H4]; · iexists _; iexact H4
    isplitl [H5]; · iexists _; iexact H5
    iintro ⟨H0, H1, H2, H3, H4, H5, HS0, HS1⟩
    iframe
  · have h1' : ¬condLast (grid2.coords t) := fun h => h1 ((hcondLast t).mp h)
    rw [Dat.leavesExact_idle (datR2 V c) 4 t (idleAtR2_4 t h1') (noFlushR2_4 t h1'),
      Dat.leavesExact_idle (datR2 V c) 5 t (idleAtR2_5 t h1') (noFlushR2_5 t h1')]
    by_cases h0 : t.val % 8 = 0
    · rw [outsAtR2_A V c t h0]
      unfold caseAR2 stepR2; dsimp only
      iintro ⟨HΦ, Ho, ⟨%d0, H0⟩, ⟨%d1, H1⟩, ⟨%d2, H2⟩, ⟨%d3, H3⟩, ⟨%d4, H4⟩, ⟨%d5, H5⟩⟩
      ihave HΦ' := (PhiR2_any V c t.val (Nat.le_of_lt t.isLt)) $$ HΦ
      icases HΦ' with ⟨⟨HS0, HS1⟩, HR⟩
      iapply (bodyA c (grid2.coords t) _ _ _ _ _ _ _ _ _ _ _ _ _ _ _ _ ((hcondFirst t).mpr h0) h1' (iblkR2 V c 0 t) (iblkR2 V c 1 t) (iblkR2 V c 2 t) (iblkR2 V c 3 t) _ _ Set.univ _)
      iframe H0 H1 H2 H3 H4 H5 HS0 HS1
      iintro ⟨H0, H1, H2, H3, H4, H5, HS0, HS1⟩
      iframe HS0 HS1 HR Ho H0 H1 H2 H3
      isplitl [H4]; · iexists _; iexact H4
      iexists _; iexact H5
    · have hz : t.val ≠ 0 := fun h => h0 (by rw [h])
      rw [outsAtR2_B V c t h0 h1]
      unfold caseBR2 stepR2; dsimp only
      rw [PhiR2_pos V c _ _ hz]
      iintro ⟨⟨⟨HS0, HS1⟩, HR⟩, Ho, ⟨%d0, H0⟩, ⟨%d1, H1⟩, ⟨%d2, H2⟩, ⟨%d3, H3⟩, ⟨%d4, H4⟩, ⟨%d5, H5⟩⟩
      iapply (bodyB c (grid2.coords t) _ _ _ _ _ _ _ _ _ _ _ _ _ _ _ _ (fun h => h0 ((hcondFirst t).mp h)) h1' (iblkR2 V c 0 t) (iblkR2 V c 1 t) (iblkR2 V c 2 t) (iblkR2 V c 3 t) _ _ _ _ Set.univ _)
      iframe H0 H1 H2 H3 H4 H5 HS0 HS1
      iintro ⟨H0, H1, H2, H3, H4, H5, HS0, HS1⟩
      iframe HS0 HS1 HR Ho H0 H1 H2 H3
      isplitl [H4]; · iexists _; iexact H4
      iexists _; iexact H5

theorem body_obligationR2 (c : Dev nD) : BodyObligation (datR2 (F := F) V c) (defs₀ (F := F)) Variants.none () Set.univ := fun t => by
  rw [bigSep_W2, bigSep_W2]
  exact sound_bodyR2 V c t

theorem hinR2 (c : Dev nD) :
    (Pipeline.scopedRest (Ix := Unit) (Name := ℕ) (U := UR sig nD τ) (Lvl := ℕ) (Val := Elt F) spec2 c : sProp 𝕄) ⊢ (datR2 V c).Φ 0 := by
  rw [show (datR2 V c).Φ 0 = PhiR2 V c 0 (Nat.zero_le _) from rfl, PhiR2_zero V c 0 _ rfl, scopedRestR2_eq]
  try exact Idealize.SL.BI.Entails.refl _

theorem houtR2 (c : Dev nD) :
    (datR2 V c).Φ (Fin.last cfg2.N) ⊢ (Pipeline.scopedRest (Ix := Unit) (Name := ℕ) (U := UR sig nD τ) (Lvl := ℕ) (Val := Elt F) spec2 c : sProp 𝕄) := by
  rw [show (datR2 V c).Φ (Fin.last cfg2.N) = PhiR2 V c (Fin.last cfg2.N).val (Nat.le_of_lt_succ (Fin.last cfg2.N).isLt) from rfl, scopedRestR2_eq]
  exact PhiR2_any V c _ _

end Cert.KernelIdeal.Hand

end
-- ==== Proof.KI.Arrays0.lean ====
/- One launch's five arrays split off the rest of memory and joined back; the matrix is read through two windows,
   each holding half of its share. -/
import proofs.«145578_j51728586113513_1_alg».proof.Proof.Gen.KernelIdeal.Launch
import Idealize.ShloMosaic.Lib.Pipeline.Frame
import Idealize.ShloMosaic.Lib.Pipeline.Regions

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F] [Named F]

local notation "𝕄" => MT nD τ sig Unit (Elt F) ℕ (UR sig nD τ) ℕ

def arrRefsR0 : Finset (DevRef τ sig) :=
  {Proc.devRef .tc main_arg0, Proc.devRef .tc main_v0, Proc.devRef .tc main_v1, Proc.devRef .tc main_v2_0, Proc.devRef .tc main_v2_1}

def restRefsR0 : Finset (DevRef τ sig) := Pipeline.ucRefs τ sig \ arrRefsR0

theorem arrRefsR0_sub : arrRefsR0 ⊆ Pipeline.ucRefs τ sig := by
  intro b hb
  simp only [arrRefsR0, Finset.mem_insert, Finset.mem_singleton] at hb
  rcases hb with rfl | rfl | rfl | rfl | rfl <;> exact Finset.mem_filter.mpr ⟨StableHlo.devRef_mem_tcRefs _, by decide⟩

theorem restRefsR0_ne {b : DevRef τ sig} (hb : b ∈ restRefsR0) :
    b ≠ Proc.devRef .tc main_arg0 ∧ b ≠ Proc.devRef .tc main_v0 ∧ b ≠ Proc.devRef .tc main_v1
      ∧ b ≠ Proc.devRef .tc main_v2_0 ∧ b ≠ Proc.devRef .tc main_v2_1 := by
  have h := (Finset.mem_sdiff.mp hb).2
  simp only [arrRefsR0, Finset.mem_insert, Finset.mem_singleton, not_or] at h
  exact h

theorem arrays_eqR0 (c : Dev nD) (dat : Dat τ (Elt F) Unit ℕ (UR sig nD τ) ℕ cfg0 c)
    (G : (w : Fin cfg0.W) → Buf (Elt F) ((cfg0.win w).arr.view.loc (c.tc : Thread nD τ))) :
    (dat.arrays G : sProp 𝕄) = iprop(
      ((((c : Thread nD τ).1, Proc.devRef .tc main_arg0) : Loc nD τ sig) ↦{dat.q 0} G 0)
      ∗ ((((c : Thread nD τ).1, Proc.devRef .tc main_arg0) : Loc nD τ sig) ↦{dat.q 1} G 1)
      ∗ ((((c : Thread nD τ).1, Proc.devRef .tc main_v0) : Loc nD τ sig) ↦{dat.q 2} G 2)
      ∗ ((((c : Thread nD τ).1, Proc.devRef .tc main_v1) : Loc nD τ sig) ↦{dat.q 3} G 3)
      ∗ ((((c : Thread nD τ).1, Proc.devRef .tc main_v2_0) : Loc nD τ sig) ↦{fullShare} G 4)
      ∗ ((((c : Thread nD τ).1, Proc.devRef .tc main_v2_1) : Loc nD τ sig) ↦{fullShare} G 5)) := by
  unfold Dat.arrays
  rw [bigSep_W0]
  have s0 : (cfg0.win 0).arr.view.set = Finset.univ := (arr_whole0 0).set_eq_univ
  have s2 : (cfg0.win 2).arr.view.set = Finset.univ := (arr_whole0 2).set_eq_univ
  have s3 : (cfg0.win 3).arr.view.set = Finset.univ := (arr_whole0 3).set_eq_univ
  have s4 : (cfg0.win 4).arr.view.set = Finset.univ := (arr_whole0 4).set_eq_univ
  have s5 : (cfg0.win 5).arr.view.set = Finset.univ := (arr_whole0 5).set_eq_univ
  have q0 : dat.share 0 = dat.q 0 := if_neg (by decide)
  have q1 : dat.share 1 = dat.q 1 := if_neg (by decide)
  have q2 : dat.share 2 = dat.q 2 := if_neg (by decide)
  have q3 : dat.share 3 = dat.q 3 := if_neg (by decide)
  have q4 : dat.share 4 = fullShare := if_pos (by decide)
  have q5 : dat.share 5 = fullShare := if_pos (by decide)
  rw [s0, s2, s3, s4, s5, q0, q1, q2, q3, q4, q5]

theorem held_arrRefsR0 (c : Dev nD) (W : Valuation τ sig (Elt F)) :
    (StableHlo.held (c : Thread nD τ) arrRefsR0 W : sProp 𝕄) = iprop(
      ((((c : Thread nD τ).1, Proc.devRef .tc main_arg0) : Loc nD τ sig) ↦{fullShare} W (Proc.devRef .tc main_arg0))
      ∗ ((((c : Thread nD τ).1, Proc.devRef .tc main_v0) : Loc nD τ sig) ↦{fullShare} W (Proc.devRef .tc main_v0))
      ∗ ((((c : Thread nD τ).1, Proc.devRef .tc main_v1) : Loc nD τ sig) ↦{fullShare} W (Proc.devRef .tc main_v1))
      ∗ ((((c : Thread nD τ).1, Proc.devRef .tc main_v2_0) : Loc nD τ sig) ↦{fullShare} W (Proc.devRef .tc main_v2_0))
      ∗ ((((c : Thread nD τ).1, Proc.devRef .tc main_v2_1) : Loc nD τ sig) ↦{fullShare} W (Proc.devRef .tc main_v2_1))) := by
  unfold StableHlo.held arrRefsR0
  rw [bigSep_insert (by
        simp only [Finset.mem_insert, Finset.mem_singleton, not_or]
        exact ⟨StableHlo.devRef_ne_of_ne (by decide), StableHlo.devRef_ne_of_ne (by decide), StableHlo.devRef_ne_of_ne (by decide), StableHlo.devRef_ne_of_ne (by decide)⟩),
    bigSep_insert (by
        simp only [Finset.mem_insert, Finset.mem_singleton, not_or]
        exact ⟨StableHlo.devRef_ne_of_ne (by decide), StableHlo.devRef_ne_of_ne (by decide), StableHlo.devRef_ne_of_ne (by decide)⟩),
    bigSep_insert (by
        simp only [Finset.mem_insert, Finset.mem_singleton, not_or]
        exact ⟨StableHlo.devRef_ne_of_ne (by decide), StableHlo.devRef_ne_of_ne (by decide)⟩),
    bigSep_insert (by
        simp only [Finset.mem_singleton]
        exact StableHlo.devRef_ne_of_ne (by decide)),
    bigSep_singleton]
  rfl

theorem entryR0 (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (W : Valuation τ sig (Elt F)) (hA : ∀ w, dat.A w = W (Proc.devRef .tc (Pipeline.arrRef spec0 w))) :
    (StableHlo.held (c : Thread nD τ) (Pipeline.ucRefs τ sig) W : sProp 𝕄)
      ⊢ iprop(dat.arrays (dat.arrAt · 0) ∗ StableHlo.held (c : Thread nD τ) restRefsR0 W) := by
  rw [StableHlo.held_sub_split (c : Thread nD τ) arrRefsR0_sub W]
  refine BIClass.sep_mono ?_ .rfl
  have hG : (fun w => dat.arrAt w 0) = fun w => W (Proc.devRef .tc (Pipeline.arrRef spec0 w)) := funext hA
  rw [hG, held_arrRefsR0, arrays_eqR0, hq0, hq1, hq2, hq3]
  iintro ⟨H0, H2, H3, H4, H5⟩
  ihave H0' := (pointsTo_share (PosShare.mem_left_op_right fullShare)).1 $$ H0
  icases H0' with ⟨Hl, Hr⟩
  iframe

theorem exitR0 (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (W W' : Valuation τ sig (Elt F))
    (G : (w : Fin cfg0.W) → Buf (Elt F) ((cfg0.win w).arr.view.loc (c.tc : Thread nD τ)))
    (hG : ∀ w, G w = W' (Proc.devRef .tc (Pipeline.arrRef spec0 w)))
    (hrest : ∀ b ∈ restRefsR0, W' b = W b) :
    iprop(dat.arrays G ∗ StableHlo.held (c : Thread nD τ) restRefsR0 W)
      ⊢ (StableHlo.held (c : Thread nD τ) (Pipeline.ucRefs τ sig) W' : sProp 𝕄) := by
  rw [StableHlo.held_sub_split (c : Thread nD τ) arrRefsR0_sub W']
  refine BIClass.sep_mono ?_ (Entails.of_eq (StableHlo.held_congr (c : Thread nD τ) hrest).symm)
  obtain rfl : G = fun w => W' (Proc.devRef .tc (Pipeline.arrRef spec0 w)) := funext hG
  rw [held_arrRefsR0, arrays_eqR0, hq0, hq1, hq2, hq3]
  iintro ⟨Hl, Hr, H2, H3, H4, H5⟩
  isplitl [Hl Hr]
  · iapply (pointsTo_share (PosShare.mem_left_op_right fullShare)).2
    iframe
  iframe

end Cert.KernelIdeal.Hand

end
-- ==== Proof.KI.Arrays1.lean ====
/- One launch's five arrays split off the rest of memory and joined back; the matrix is read through two windows,
   each holding half of its share. -/
import proofs.«145578_j51728586113513_1_alg».proof.Proof.Gen.KernelIdeal.Launch
import Idealize.ShloMosaic.Lib.Pipeline.Frame
import Idealize.ShloMosaic.Lib.Pipeline.Regions

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F] [Named F]

local notation "𝕄" => MT nD τ sig Unit (Elt F) ℕ (UR sig nD τ) ℕ

def arrRefsR1 : Finset (DevRef τ sig) :=
  {Proc.devRef .tc main_arg1, Proc.devRef .tc main_v5, Proc.devRef .tc main_v6, Proc.devRef .tc main_v7_0, Proc.devRef .tc main_v7_1}

def restRefsR1 : Finset (DevRef τ sig) := Pipeline.ucRefs τ sig \ arrRefsR1

theorem arrRefsR1_sub : arrRefsR1 ⊆ Pipeline.ucRefs τ sig := by
  intro b hb
  simp only [arrRefsR1, Finset.mem_insert, Finset.mem_singleton] at hb
  rcases hb with rfl | rfl | rfl | rfl | rfl <;> exact Finset.mem_filter.mpr ⟨StableHlo.devRef_mem_tcRefs _, by decide⟩

theorem restRefsR1_ne {b : DevRef τ sig} (hb : b ∈ restRefsR1) :
    b ≠ Proc.devRef .tc main_arg1 ∧ b ≠ Proc.devRef .tc main_v5 ∧ b ≠ Proc.devRef .tc main_v6
      ∧ b ≠ Proc.devRef .tc main_v7_0 ∧ b ≠ Proc.devRef .tc main_v7_1 := by
  have h := (Finset.mem_sdiff.mp hb).2
  simp only [arrRefsR1, Finset.mem_insert, Finset.mem_singleton, not_or] at h
  exact h

theorem arrays_eqR1 (c : Dev nD) (dat : Dat τ (Elt F) Unit ℕ (UR sig nD τ) ℕ cfg1 c)
    (G : (w : Fin cfg1.W) → Buf (Elt F) ((cfg1.win w).arr.view.loc (c.tc : Thread nD τ))) :
    (dat.arrays G : sProp 𝕄) = iprop(
      ((((c : Thread nD τ).1, Proc.devRef .tc main_arg1) : Loc nD τ sig) ↦{dat.q 0} G 0)
      ∗ ((((c : Thread nD τ).1, Proc.devRef .tc main_arg1) : Loc nD τ sig) ↦{dat.q 1} G 1)
      ∗ ((((c : Thread nD τ).1, Proc.devRef .tc main_v5) : Loc nD τ sig) ↦{dat.q 2} G 2)
      ∗ ((((c : Thread nD τ).1, Proc.devRef .tc main_v6) : Loc nD τ sig) ↦{dat.q 3} G 3)
      ∗ ((((c : Thread nD τ).1, Proc.devRef .tc main_v7_0) : Loc nD τ sig) ↦{fullShare} G 4)
      ∗ ((((c : Thread nD τ).1, Proc.devRef .tc main_v7_1) : Loc nD τ sig) ↦{fullShare} G 5)) := by
  unfold Dat.arrays
  rw [bigSep_W1]
  have s0 : (cfg1.win 0).arr.view.set = Finset.univ := (arr_whole1 0).set_eq_univ
  have s2 : (cfg1.win 2).arr.view.set = Finset.univ := (arr_whole1 2).set_eq_univ
  have s3 : (cfg1.win 3).arr.view.set = Finset.univ := (arr_whole1 3).set_eq_univ
  have s4 : (cfg1.win 4).arr.view.set = Finset.univ := (arr_whole1 4).set_eq_univ
  have s5 : (cfg1.win 5).arr.view.set = Finset.univ := (arr_whole1 5).set_eq_univ
  have q0 : dat.share 0 = dat.q 0 := if_neg (by decide)
  have q1 : dat.share 1 = dat.q 1 := if_neg (by decide)
  have q2 : dat.share 2 = dat.q 2 := if_neg (by decide)
  have q3 : dat.share 3 = dat.q 3 := if_neg (by decide)
  have q4 : dat.share 4 = fullShare := if_pos (by decide)
  have q5 : dat.share 5 = fullShare := if_pos (by decide)
  rw [s0, s2, s3, s4, s5, q0, q1, q2, q3, q4, q5]

theorem held_arrRefsR1 (c : Dev nD) (W : Valuation τ sig (Elt F)) :
    (StableHlo.held (c : Thread nD τ) arrRefsR1 W : sProp 𝕄) = iprop(
      ((((c : Thread nD τ).1, Proc.devRef .tc main_arg1) : Loc nD τ sig) ↦{fullShare} W (Proc.devRef .tc main_arg1))
      ∗ ((((c : Thread nD τ).1, Proc.devRef .tc main_v5) : Loc nD τ sig) ↦{fullShare} W (Proc.devRef .tc main_v5))
      ∗ ((((c : Thread nD τ).1, Proc.devRef .tc main_v6) : Loc nD τ sig) ↦{fullShare} W (Proc.devRef .tc main_v6))
      ∗ ((((c : Thread nD τ).1, Proc.devRef .tc main_v7_0) : Loc nD τ sig) ↦{fullShare} W (Proc.devRef .tc main_v7_0))
      ∗ ((((c : Thread nD τ).1, Proc.devRef .tc main_v7_1) : Loc nD τ sig) ↦{fullShare} W (Proc.devRef .tc main_v7_1))) := by
  unfold StableHlo.held arrRefsR1
  rw [bigSep_insert (by
        simp only [Finset.mem_insert, Finset.mem_singleton, not_or]
        exact ⟨StableHlo.devRef_ne_of_ne (by decide), StableHlo.devRef_ne_of_ne (by decide), StableHlo.devRef_ne_of_ne (by decide), StableHlo.devRef_ne_of_ne (by decide)⟩),
    bigSep_insert (by
        simp only [Finset.mem_insert, Finset.mem_singleton, not_or]
        exact ⟨StableHlo.devRef_ne_of_ne (by decide), StableHlo.devRef_ne_of_ne (by decide), StableHlo.devRef_ne_of_ne (by decide)⟩),
    bigSep_insert (by
        simp only [Finset.mem_insert, Finset.mem_singleton, not_or]
        exact ⟨StableHlo.devRef_ne_of_ne (by decide), StableHlo.devRef_ne_of_ne (by decide)⟩),
    bigSep_insert (by
        simp only [Finset.mem_singleton]
        exact StableHlo.devRef_ne_of_ne (by decide)),
    bigSep_singleton]
  rfl

theorem entryR1 (c : Dev nD) (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (W : Valuation τ sig (Elt F)) (hA : ∀ w, dat.A w = W (Proc.devRef .tc (Pipeline.arrRef spec1 w))) :
    (StableHlo.held (c : Thread nD τ) (Pipeline.ucRefs τ sig) W : sProp 𝕄)
      ⊢ iprop(dat.arrays (dat.arrAt · 0) ∗ StableHlo.held (c : Thread nD τ) restRefsR1 W) := by
  rw [StableHlo.held_sub_split (c : Thread nD τ) arrRefsR1_sub W]
  refine BIClass.sep_mono ?_ .rfl
  have hG : (fun w => dat.arrAt w 0) = fun w => W (Proc.devRef .tc (Pipeline.arrRef spec1 w)) := funext hA
  rw [hG, held_arrRefsR1, arrays_eqR1, hq0, hq1, hq2, hq3]
  iintro ⟨H0, H2, H3, H4, H5⟩
  ihave H0' := (pointsTo_share (PosShare.mem_left_op_right fullShare)).1 $$ H0
  icases H0' with ⟨Hl, Hr⟩
  iframe

theorem exitR1 (c : Dev nD) (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (W W' : Valuation τ sig (Elt F))
    (G : (w : Fin cfg1.W) → Buf (Elt F) ((cfg1.win w).arr.view.loc (c.tc : Thread nD τ)))
    (hG : ∀ w, G w = W' (Proc.devRef .tc (Pipeline.arrRef spec1 w)))
    (hrest : ∀ b ∈ restRefsR1, W' b = W b) :
    iprop(dat.arrays G ∗ StableHlo.held (c : Thread nD τ) restRefsR1 W)
      ⊢ (StableHlo.held (c : Thread nD τ) (Pipeline.ucRefs τ sig) W' : sProp 𝕄) := by
  rw [StableHlo.held_sub_split (c : Thread nD τ) arrRefsR1_sub W']
  refine BIClass.sep_mono ?_ (Entails.of_eq (StableHlo.held_congr (c : Thread nD τ) hrest).symm)
  obtain rfl : G = fun w => W' (Proc.devRef .tc (Pipeline.arrRef spec1 w)) := funext hG
  rw [held_arrRefsR1, arrays_eqR1, hq0, hq1, hq2, hq3]
  iintro ⟨Hl, Hr, H2, H3, H4, H5⟩
  isplitl [Hl Hr]
  · iapply (pointsTo_share (PosShare.mem_left_op_right fullShare)).2
    iframe
  iframe

end Cert.KernelIdeal.Hand

end
-- ==== Proof.KI.Arrays2.lean ====
/- One launch's five arrays split off the rest of memory and joined back; the matrix is read through two windows,
   each holding half of its share. -/
import proofs.«145578_j51728586113513_1_alg».proof.Proof.Gen.KernelIdeal.Launch
import Idealize.ShloMosaic.Lib.Pipeline.Frame
import Idealize.ShloMosaic.Lib.Pipeline.Regions

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F] [Named F]

local notation "𝕄" => MT nD τ sig Unit (Elt F) ℕ (UR sig nD τ) ℕ

def arrRefsR2 : Finset (DevRef τ sig) :=
  {Proc.devRef .tc main_arg2, Proc.devRef .tc main_v10, Proc.devRef .tc main_v11, Proc.devRef .tc main_v12_0, Proc.devRef .tc main_v12_1}

def restRefsR2 : Finset (DevRef τ sig) := Pipeline.ucRefs τ sig \ arrRefsR2

theorem arrRefsR2_sub : arrRefsR2 ⊆ Pipeline.ucRefs τ sig := by
  intro b hb
  simp only [arrRefsR2, Finset.mem_insert, Finset.mem_singleton] at hb
  rcases hb with rfl | rfl | rfl | rfl | rfl <;> exact Finset.mem_filter.mpr ⟨StableHlo.devRef_mem_tcRefs _, by decide⟩

theorem restRefsR2_ne {b : DevRef τ sig} (hb : b ∈ restRefsR2) :
    b ≠ Proc.devRef .tc main_arg2 ∧ b ≠ Proc.devRef .tc main_v10 ∧ b ≠ Proc.devRef .tc main_v11
      ∧ b ≠ Proc.devRef .tc main_v12_0 ∧ b ≠ Proc.devRef .tc main_v12_1 := by
  have h := (Finset.mem_sdiff.mp hb).2
  simp only [arrRefsR2, Finset.mem_insert, Finset.mem_singleton, not_or] at h
  exact h

theorem arrays_eqR2 (c : Dev nD) (dat : Dat τ (Elt F) Unit ℕ (UR sig nD τ) ℕ cfg2 c)
    (G : (w : Fin cfg2.W) → Buf (Elt F) ((cfg2.win w).arr.view.loc (c.tc : Thread nD τ))) :
    (dat.arrays G : sProp 𝕄) = iprop(
      ((((c : Thread nD τ).1, Proc.devRef .tc main_arg2) : Loc nD τ sig) ↦{dat.q 0} G 0)
      ∗ ((((c : Thread nD τ).1, Proc.devRef .tc main_arg2) : Loc nD τ sig) ↦{dat.q 1} G 1)
      ∗ ((((c : Thread nD τ).1, Proc.devRef .tc main_v10) : Loc nD τ sig) ↦{dat.q 2} G 2)
      ∗ ((((c : Thread nD τ).1, Proc.devRef .tc main_v11) : Loc nD τ sig) ↦{dat.q 3} G 3)
      ∗ ((((c : Thread nD τ).1, Proc.devRef .tc main_v12_0) : Loc nD τ sig) ↦{fullShare} G 4)
      ∗ ((((c : Thread nD τ).1, Proc.devRef .tc main_v12_1) : Loc nD τ sig) ↦{fullShare} G 5)) := by
  unfold Dat.arrays
  rw [bigSep_W2]
  have s0 : (cfg2.win 0).arr.view.set = Finset.univ := (arr_whole2 0).set_eq_univ
  have s2 : (cfg2.win 2).arr.view.set = Finset.univ := (arr_whole2 2).set_eq_univ
  have s3 : (cfg2.win 3).arr.view.set = Finset.univ := (arr_whole2 3).set_eq_univ
  have s4 : (cfg2.win 4).arr.view.set = Finset.univ := (arr_whole2 4).set_eq_univ
  have s5 : (cfg2.win 5).arr.view.set = Finset.univ := (arr_whole2 5).set_eq_univ
  have q0 : dat.share 0 = dat.q 0 := if_neg (by decide)
  have q1 : dat.share 1 = dat.q 1 := if_neg (by decide)
  have q2 : dat.share 2 = dat.q 2 := if_neg (by decide)
  have q3 : dat.share 3 = dat.q 3 := if_neg (by decide)
  have q4 : dat.share 4 = fullShare := if_pos (by decide)
  have q5 : dat.share 5 = fullShare := if_pos (by decide)
  rw [s0, s2, s3, s4, s5, q0, q1, q2, q3, q4, q5]

theorem held_arrRefsR2 (c : Dev nD) (W : Valuation τ sig (Elt F)) :
    (StableHlo.held (c : Thread nD τ) arrRefsR2 W : sProp 𝕄) = iprop(
      ((((c : Thread nD τ).1, Proc.devRef .tc main_arg2) : Loc nD τ sig) ↦{fullShare} W (Proc.devRef .tc main_arg2))
      ∗ ((((c : Thread nD τ).1, Proc.devRef .tc main_v10) : Loc nD τ sig) ↦{fullShare} W (Proc.devRef .tc main_v10))
      ∗ ((((c : Thread nD τ).1, Proc.devRef .tc main_v11) : Loc nD τ sig) ↦{fullShare} W (Proc.devRef .tc main_v11))
      ∗ ((((c : Thread nD τ).1, Proc.devRef .tc main_v12_0) : Loc nD τ sig) ↦{fullShare} W (Proc.devRef .tc main_v12_0))
      ∗ ((((c : Thread nD τ).1, Proc.devRef .tc main_v12_1) : Loc nD τ sig) ↦{fullShare} W (Proc.devRef .tc main_v12_1))) := by
  unfold StableHlo.held arrRefsR2
  rw [bigSep_insert (by
        simp only [Finset.mem_insert, Finset.mem_singleton, not_or]
        exact ⟨StableHlo.devRef_ne_of_ne (by decide), StableHlo.devRef_ne_of_ne (by decide), StableHlo.devRef_ne_of_ne (by decide), StableHlo.devRef_ne_of_ne (by decide)⟩),
    bigSep_insert (by
        simp only [Finset.mem_insert, Finset.mem_singleton, not_or]
        exact ⟨StableHlo.devRef_ne_of_ne (by decide), StableHlo.devRef_ne_of_ne (by decide), StableHlo.devRef_ne_of_ne (by decide)⟩),
    bigSep_insert (by
        simp only [Finset.mem_insert, Finset.mem_singleton, not_or]
        exact ⟨StableHlo.devRef_ne_of_ne (by decide), StableHlo.devRef_ne_of_ne (by decide)⟩),
    bigSep_insert (by
        simp only [Finset.mem_singleton]
        exact StableHlo.devRef_ne_of_ne (by decide)),
    bigSep_singleton]
  rfl

theorem entryR2 (c : Dev nD) (dat : Dat τ (Elt F) Unit ℕ (UR sig nD τ) ℕ cfg2 c)
    (hq0 : dat.q 0 = fullShare.left) (hq1 : dat.q 1 = fullShare.right) (hq2 : dat.q 2 = fullShare) (hq3 : dat.q 3 = fullShare)
    (W : Valuation τ sig (Elt F)) (hA : ∀ w, dat.A w = W (Proc.devRef .tc (Pipeline.arrRef spec2 w))) :
    (StableHlo.held (c : Thread nD τ) (Pipeline.ucRefs τ sig) W : sProp 𝕄)
      ⊢ iprop(dat.arrays (dat.arrAt · 0) ∗ StableHlo.held (c : Thread nD τ) restRefsR2 W) := by
  rw [StableHlo.held_sub_split (c : Thread nD τ) arrRefsR2_sub W]
  refine BIClass.sep_mono ?_ .rfl
  have hG : (fun w => dat.arrAt w 0) = fun w => W (Proc.devRef .tc (Pipeline.arrRef spec2 w)) := funext hA
  rw [hG, held_arrRefsR2, arrays_eqR2, hq0, hq1, hq2, hq3]
  iintro ⟨H0, H2, H3, H4, H5⟩
  ihave H0' := (pointsTo_share (PosShare.mem_left_op_right fullShare)).1 $$ H0
  icases H0' with ⟨Hl, Hr⟩
  iframe

theorem exitR2 (c : Dev nD) (dat : Dat τ (Elt F) Unit ℕ (UR sig nD τ) ℕ cfg2 c)
    (hq0 : dat.q 0 = fullShare.left) (hq1 : dat.q 1 = fullShare.right) (hq2 : dat.q 2 = fullShare) (hq3 : dat.q 3 = fullShare)
    (W W' : Valuation τ sig (Elt F))
    (G : (w : Fin cfg2.W) → Buf (Elt F) ((cfg2.win w).arr.view.loc (c.tc : Thread nD τ)))
    (hG : ∀ w, G w = W' (Proc.devRef .tc (Pipeline.arrRef spec2 w)))
    (hrest : ∀ b ∈ restRefsR2, W' b = W b) :
    iprop(dat.arrays G ∗ StableHlo.held (c : Thread nD τ) restRefsR2 W)
      ⊢ (StableHlo.held (c : Thread nD τ) (Pipeline.ucRefs τ sig) W' : sProp 𝕄) := by
  rw [StableHlo.held_sub_split (c : Thread nD τ) arrRefsR2_sub W']
  refine BIClass.sep_mono ?_ (Entails.of_eq (StableHlo.held_congr (c : Thread nD τ) hrest).symm)
  obtain rfl : G = fun w => W' (Proc.devRef .tc (Pipeline.arrRef spec2 w)) := funext hG
  rw [held_arrRefsR2, arrays_eqR2, hq0, hq1, hq2, hq3]
  iintro ⟨Hl, Hr, H2, H3, H4, H5⟩
  isplitl [Hl Hr]
  · iapply (pointsTo_share (PosShare.mem_left_op_right fullShare)).2
    iframe
  iframe

end Cert.KernelIdeal.Hand

end
-- ==== Proof.KI.Frame.lean ====
/- The whole program's run: three launches between stretches of host operations, the memory's contents followed
   through each; every execution ends, faults nowhere and leaves the arguments as they were. -/
import proofs.«145578_j51728586113513_1_alg».proof.Proof.KI.Dat0
import proofs.«145578_j51728586113513_1_alg».proof.Proof.KI.Dat1
import proofs.«145578_j51728586113513_1_alg».proof.Proof.KI.Dat2
import proofs.«145578_j51728586113513_1_alg».proof.Proof.KI.Arrays0
import proofs.«145578_j51728586113513_1_alg».proof.Proof.KI.Arrays1
import proofs.«145578_j51728586113513_1_alg».proof.Proof.KI.Arrays2
import proofs.«145578_j51728586113513_1_alg».proof.Proof.Gen.KernelIdeal.Regions
import Idealize.ShloMosaic.Lib.Pipeline.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.KernelIdeal Cert.KernelIdeal.Gen

variable (m : (ℓ : Loc nD τ sig) → Buf (Elt F) ℓ) (ρ : Dev nD → PrngReg)

abbrev W0 : Dev nD → Valuation τ sig (Elt F) := fun c b => m (c, b)
abbrev W1 : Dev nD → Valuation τ sig (Elt F) := fun c => StableHlo.after hostOps0 (W0 m c)
abbrev U1 : (c : Dev nD) → (b : Ref sig .tc) → Buf (Elt F) ((c : Thread nD τ).loc b) := fun c b => W1 m c b

def W2 (c : Dev nD) : Valuation τ sig (Elt F) :=
  Function.update (Function.update (W1 m c) (Proc.devRef .tc main_v2_0) ((datR0 (U1 m) c).arrAt 4 cfg0.N)) (Proc.devRef .tc main_v2_1) ((datR0 (U1 m) c).arrAt 5 cfg0.N)
theorem W2_o0 (c : Dev nD) : W2 m c (Proc.devRef .tc main_v2_0) = (datR0 (U1 m) c).arrAt 4 cfg0.N := by
  unfold W2; rw [Function.update_of_ne (StableHlo.devRef_ne_of_ne (by decide)), Function.update_self]
theorem W2_o1 (c : Dev nD) : W2 m c (Proc.devRef .tc main_v2_1) = (datR0 (U1 m) c).arrAt 5 cfg0.N := by
  unfold W2; rw [Function.update_self]
theorem W2_of_ne (c : Dev nD) (b : DevRef τ sig) (h0 : b ≠ Proc.devRef .tc main_v2_0) (h1 : b ≠ Proc.devRef .tc main_v2_1) : W2 m c b = W1 m c b := by
  unfold W2; rw [Function.update_of_ne h1, Function.update_of_ne h0]
theorem hG0 (c : Dev nD) (w : Fin cfg0.W) : (datR0 (U1 m) c).arrAt w cfg0.N = W2 m c (Proc.devRef .tc (Pipeline.arrRef spec0 w)) :=
  match w with
  | ⟨0, _⟩ => (((datR0 (U1 m) c).arrAt_in 0 rfl _).trans (A_eqR0 (U1 m) c 0)).trans (W2_of_ne m c _ (StableHlo.devRef_ne_of_ne (by decide)) (StableHlo.devRef_ne_of_ne (by decide))).symm
  | ⟨1, _⟩ => (((datR0 (U1 m) c).arrAt_in 1 rfl _).trans (A_eqR0 (U1 m) c 1)).trans (W2_of_ne m c _ (StableHlo.devRef_ne_of_ne (by decide)) (StableHlo.devRef_ne_of_ne (by decide))).symm
  | ⟨2, _⟩ => (((datR0 (U1 m) c).arrAt_in 2 rfl _).trans (A_eqR0 (U1 m) c 2)).trans (W2_of_ne m c _ (StableHlo.devRef_ne_of_ne (by decide)) (StableHlo.devRef_ne_of_ne (by decide))).symm
  | ⟨3, _⟩ => (((datR0 (U1 m) c).arrAt_in 3 rfl _).trans (A_eqR0 (U1 m) c 3)).trans (W2_of_ne m c _ (StableHlo.devRef_ne_of_ne (by decide)) (StableHlo.devRef_ne_of_ne (by decide))).symm
  | ⟨4, _⟩ => (W2_o0 m c).symm
  | ⟨5, _⟩ => (W2_o1 m c).symm

abbrev W3 : Dev nD → Valuation τ sig (Elt F) := fun c => StableHlo.after hostOps1 (W2 m c)
abbrev U3 : (c : Dev nD) → (b : Ref sig .tc) → Buf (Elt F) ((c : Thread nD τ).loc b) := fun c b => W3 m c b

def W4 (c : Dev nD) : Valuation τ sig (Elt F) :=
  Function.update (Function.update (W3 m c) (Proc.devRef .tc main_v7_0) ((datR1 (U3 m) c).arrAt 4 cfg1.N)) (Proc.devRef .tc main_v7_1) ((datR1 (U3 m) c).arrAt 5 cfg1.N)
theorem W4_o0 (c : Dev nD) : W4 m c (Proc.devRef .tc main_v7_0) = (datR1 (U3 m) c).arrAt 4 cfg1.N := by
  unfold W4; rw [Function.update_of_ne (StableHlo.devRef_ne_of_ne (by decide)), Function.update_self]
theorem W4_o1 (c : Dev nD) : W4 m c (Proc.devRef .tc main_v7_1) = (datR1 (U3 m) c).arrAt 5 cfg1.N := by
  unfold W4; rw [Function.update_self]
theorem W4_of_ne (c : Dev nD) (b : DevRef τ sig) (h0 : b ≠ Proc.devRef .tc main_v7_0) (h1 : b ≠ Proc.devRef .tc main_v7_1) : W4 m c b = W3 m c b := by
  unfold W4; rw [Function.update_of_ne h1, Function.update_of_ne h0]
theorem hG1 (c : Dev nD) (w : Fin cfg1.W) : (datR1 (U3 m) c).arrAt w cfg1.N = W4 m c (Proc.devRef .tc (Pipeline.arrRef spec1 w)) :=
  match w with
  | ⟨0, _⟩ => (((datR1 (U3 m) c).arrAt_in 0 rfl _).trans (A_eqR1 (U3 m) c 0)).trans (W4_of_ne m c _ (StableHlo.devRef_ne_of_ne (by decide)) (StableHlo.devRef_ne_of_ne (by decide))).symm
  | ⟨1, _⟩ => (((datR1 (U3 m) c).arrAt_in 1 rfl _).trans (A_eqR1 (U3 m) c 1)).trans (W4_of_ne m c _ (StableHlo.devRef_ne_of_ne (by decide)) (StableHlo.devRef_ne_of_ne (by decide))).symm
  | ⟨2, _⟩ => (((datR1 (U3 m) c).arrAt_in 2 rfl _).trans (A_eqR1 (U3 m) c 2)).trans (W4_of_ne m c _ (StableHlo.devRef_ne_of_ne (by decide)) (StableHlo.devRef_ne_of_ne (by decide))).symm
  | ⟨3, _⟩ => (((datR1 (U3 m) c).arrAt_in 3 rfl _).trans (A_eqR1 (U3 m) c 3)).trans (W4_of_ne m c _ (StableHlo.devRef_ne_of_ne (by decide)) (StableHlo.devRef_ne_of_ne (by decide))).symm
  | ⟨4, _⟩ => (W4_o0 m c).symm
  | ⟨5, _⟩ => (W4_o1 m c).symm

abbrev W5 : Dev nD → Valuation τ sig (Elt F) := fun c => StableHlo.after hostOps2 (W4 m c)
abbrev U5 : (c : Dev nD) → (b : Ref sig .tc) → Buf (Elt F) ((c : Thread nD τ).loc b) := fun c b => W5 m c b

def W6 (c : Dev nD) : Valuation τ sig (Elt F) :=
  Function.update (Function.update (W5 m c) (Proc.devRef .tc main_v12_0) ((datR2 (U5 m) c).arrAt 4 cfg2.N)) (Proc.devRef .tc main_v12_1) ((datR2 (U5 m) c).arrAt 5 cfg2.N)
theorem W6_o0 (c : Dev nD) : W6 m c (Proc.devRef .tc main_v12_0) = (datR2 (U5 m) c).arrAt 4 cfg2.N := by
  unfold W6; rw [Function.update_of_ne (StableHlo.devRef_ne_of_ne (by decide)), Function.update_self]
theorem W6_o1 (c : Dev nD) : W6 m c (Proc.devRef .tc main_v12_1) = (datR2 (U5 m) c).arrAt 5 cfg2.N := by
  unfold W6; rw [Function.update_self]
theorem W6_of_ne (c : Dev nD) (b : DevRef τ sig) (h0 : b ≠ Proc.devRef .tc main_v12_0) (h1 : b ≠ Proc.devRef .tc main_v12_1) : W6 m c b = W5 m c b := by
  unfold W6; rw [Function.update_of_ne h1, Function.update_of_ne h0]
theorem hG2 (c : Dev nD) (w : Fin cfg2.W) : (datR2 (U5 m) c).arrAt w cfg2.N = W6 m c (Proc.devRef .tc (Pipeline.arrRef spec2 w)) :=
  match w with
  | ⟨0, _⟩ => (((datR2 (U5 m) c).arrAt_in 0 rfl _).trans (A_eqR2 (U5 m) c 0)).trans (W6_of_ne m c _ (StableHlo.devRef_ne_of_ne (by decide)) (StableHlo.devRef_ne_of_ne (by decide))).symm
  | ⟨1, _⟩ => (((datR2 (U5 m) c).arrAt_in 1 rfl _).trans (A_eqR2 (U5 m) c 1)).trans (W6_of_ne m c _ (StableHlo.devRef_ne_of_ne (by decide)) (StableHlo.devRef_ne_of_ne (by decide))).symm
  | ⟨2, _⟩ => (((datR2 (U5 m) c).arrAt_in 2 rfl _).trans (A_eqR2 (U5 m) c 2)).trans (W6_of_ne m c _ (StableHlo.devRef_ne_of_ne (by decide)) (StableHlo.devRef_ne_of_ne (by decide))).symm
  | ⟨3, _⟩ => (((datR2 (U5 m) c).arrAt_in 3 rfl _).trans (A_eqR2 (U5 m) c 3)).trans (W6_of_ne m c _ (StableHlo.devRef_ne_of_ne (by decide)) (StableHlo.devRef_ne_of_ne (by decide))).symm
  | ⟨4, _⟩ => (W6_o0 m c).symm
  | ⟨5, _⟩ => (W6_o1 m c).symm

abbrev W7 : Dev nD → Valuation τ sig (Elt F) := fun c => StableHlo.after hostOps3 (W6 m c)

theorem hrest0 (c : Dev nD) : ∀ b ∈ restRefsR0, W2 m c b = W1 m c b :=
  fun b hb => W2_of_ne m c b (restRefsR0_ne hb).2.2.2.1 (restRefsR0_ne hb).2.2.2.2
theorem hrest1 (c : Dev nD) : ∀ b ∈ restRefsR1, W4 m c b = W3 m c b :=
  fun b hb => W4_of_ne m c b (restRefsR1_ne hb).2.2.2.1 (restRefsR1_ne hb).2.2.2.2
theorem hrest2 (c : Dev nD) : ∀ b ∈ restRefsR2, W6 m c b = W5 m c b :=
  fun b hb => W6_of_ne m c b (restRefsR2_ne hb).2.2.2.1 (restRefsR2_ne hb).2.2.2.2

def pdats : (p : Fin 3) → (c : Dev nD) → Dat τ (Elt F) Unit ℕ (UR sig nD τ) ℕ (Pipeline.pin (pcfgs (F := F)) adm p) c
  | ⟨0, _⟩ => fun c => datR0 (U1 m) c
  | ⟨1, _⟩ => fun c => datR1 (U3 m) c
  | ⟨2, _⟩ => fun c => datR2 (U5 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W7 m c) ∗ ∃ r, prngReg c r)

set_option backward.isDefEq.respectTransparency.types false in
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligationR0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(emp)
  Y c := iprop(emp)
  Z c := iprop(StableHlo.held (c : Thread nD τ) restRefsR0 (W1 m c) ∗ ∃ r, prngReg c r)
  hentry c := by
    rw [Pipeline.ownSems0_none]
    iintro ⟨⟨Hub, Hp, HO⟩, -, -⟩
    ihave H := (entryR0 c (pdats m 0 c) rfl rfl rfl rfl (W1 m c) (fun w => A_eqR0 (U1 m) c w)) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 0 c).Φ 0 = (datR0 (U1 m) c).Φ 0 from rfl]
    iintro ⟨-, -, Hr⟩
    iapply (hinR0 (U1 m) c)
    iexact Hr
  hout c := by
    rw [Pipeline.ownSems0_none, show (pdats m 0 c).Φ (Fin.last _) = (datR0 (U1 m) c).Φ (Fin.last cfg0.N) from rfl]
    iintro H
    isplitr; · iempintro
    isplitr; · iempintro
    iapply (houtR0 (U1 m) c)
    iexact H
  hexit c := by
    iintro ⟨Ha, HO, -, Hrest, Hp⟩
    imodintro
    isplitl [Ha Hrest]
    · iapply (exitR0 c (pdats m 0 c) rfl rfl rfl rfl (W1 m c) (W2 m c) ((pdats m 0 c).arrAt · cfg0.N) (hG0 m c) (hrest0 m c))
      isplitl [Ha] <;> iassumption
    isplitl [Hp]; · iexact Hp
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligationR1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(emp)
  Y c := iprop(emp)
  Z c := iprop(StableHlo.held (c : Thread nD τ) restRefsR1 (W3 m c) ∗ ∃ r, prngReg c r)
  hentry c := by
    rw [Pipeline.ownSems0_none]
    iintro ⟨⟨Hub, Hp, HO⟩, -, -⟩
    ihave H := (entryR1 c (pdats m 1 c) rfl rfl rfl rfl (W3 m c) (fun w => A_eqR1 (U3 m) c w)) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 1 c).Φ 0 = (datR1 (U3 m) c).Φ 0 from rfl]
    iintro ⟨-, -, Hr⟩
    iapply (hinR1 (U3 m) c)
    iexact Hr
  hout c := by
    rw [Pipeline.ownSems0_none, show (pdats m 1 c).Φ (Fin.last _) = (datR1 (U3 m) c).Φ (Fin.last cfg1.N) from rfl]
    iintro H
    isplitr; · iempintro
    isplitr; · iempintro
    iapply (houtR1 (U3 m) c)
    iexact H
  hexit c := by
    iintro ⟨Ha, HO, -, Hrest, Hp⟩
    imodintro
    isplitl [Ha Hrest]
    · iapply (exitR1 c (pdats m 1 c) rfl rfl rfl rfl (W3 m c) (W4 m c) ((pdats m 1 c).arrAt · cfg1.N) (hG1 m c) (hrest1 m c))
      isplitl [Ha] <;> iassumption
    isplitl [Hp]; · iexact Hp
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligationR2 (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(emp)
  Y c := iprop(emp)
  Z c := iprop(StableHlo.held (c : Thread nD τ) restRefsR2 (W5 m c) ∗ ∃ r, prngReg c r)
  hentry c := by
    rw [Pipeline.ownSems0_none]
    iintro ⟨⟨Hub, Hp, HO⟩, -, -⟩
    ihave H := (entryR2 c (pdats m 2 c) rfl rfl rfl rfl (W5 m c) (fun w => A_eqR2 (U5 m) c w)) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 2 c).Φ 0 = (datR2 (U5 m) c).Φ 0 from rfl]
    iintro ⟨-, -, Hr⟩
    iapply (hinR2 (U5 m) c)
    iexact Hr
  hout c := by
    rw [Pipeline.ownSems0_none, show (pdats m 2 c).Φ (Fin.last _) = (datR2 (U5 m) c).Φ (Fin.last cfg2.N) from rfl]
    iintro H
    isplitr; · iempintro
    isplitr; · iempintro
    iapply (houtR2 (U5 m) c)
    iexact H
  hexit c := by
    iintro ⟨Ha, HO, -, Hrest, Hp⟩
    imodintro
    isplitl [Ha Hrest]
    · iapply (exitR2 c (pdats m 2 c) rfl rfl rfl rfl (W5 m c) (W6 m c) ((pdats m 2 c).arrAt · cfg2.N) (hG2 m c) (hrest2 m c))
      isplitl [Ha] <;> iassumption
    isplitl [Hp]; · iexact Hp
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
theorem main_run (c : Dev nD) : main (F := F) c = Pipeline.Seg.run (segs m) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No item writes an argument: the run's last contents of each are the launch memory's. -/
theorem W7_arg (c : Dev nD) (b : Ref sig .tc) (hb : b = main_arg0 ∨ b = main_arg1 ∨ b = main_arg2 ∨ b = main_arg3) :
    W7 m c (Proc.devRef .tc b) = m ((c : Thread nD τ).loc b) := by
  rcases hb with rfl | rfl | rfl | rfl <;>
  exact (StableHlo.after_of_writes_sub hostOps3 _ hostOps3_writes (by decide)).trans <|
    (W6_of_ne m c _ (StableHlo.devRef_ne_of_ne (by decide)) (StableHlo.devRef_ne_of_ne (by decide))).trans <|
    (StableHlo.after_of_writes_sub hostOps2 _ hostOps2_writes (by decide)).trans <|
    (W4_of_ne m c _ (StableHlo.devRef_ne_of_ne (by decide)) (StableHlo.devRef_ne_of_ne (by decide))).trans <|
    (StableHlo.after_of_writes_sub hostOps1 _ hostOps1_writes (by decide)).trans <|
    (W2_of_ne m c _ (StableHlo.devRef_ne_of_ne (by decide)) (StableHlo.devRef_ne_of_ne (by decide))).trans <|
    StableHlo.after_of_writes_sub hostOps0 _ hostOps0_writes (by decide)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W7_arg m c _ (.inl rfl)), (h c _ (mem_uc main_arg1 (by decide))).trans (W7_arg m c _ (.inr (.inl rfl))),
     (h c _ (mem_uc main_arg2 (by decide))).trans (W7_arg m c _ (.inr (.inr (.inl rfl)))), (h c _ (mem_uc main_arg3 (by decide))).trans (W7_arg m c _ (.inr (.inr (.inr rfl))))⟩) (run_all m ρ)

end Cert.KernelIdeal.Hand

end
-- ==== Proof.Spec.lean ====
/- What the program computes: squared norms, pairwise distances clamped below, per row the largest distance over
   equal labels and the smallest over different labels, then the mean of the clamped margins. -/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

def eps : EReal := Ideal.ofBits .f32 0x2B8CBCCC#32
def two : EReal := Ideal.ofBits .f32 0x40000000#32

def sqn (x : (⟨2, ![4096, 2048]⟩ : Shape).Idx → EReal) (i : Fin 4096) : EReal := ∑ k : Fin 2048, x (ix2 i k) * x (ix2 i k)
def gram (x : (⟨2, ![4096, 2048]⟩ : Shape).Idx → EReal) (i j : Fin 4096) : EReal := ∑ k : Fin 2048, x (ix2 i k) * x (ix2 j k)
def dist (x : (⟨2, ![4096, 2048]⟩ : Shape).Idx → EReal) (i j : Fin 4096) : EReal :=
  Ideal.sqrt (max eps ((sqn x i + sqn x j) - two * gram x i j))
def ap (x : (⟨2, ![4096, 2048]⟩ : Shape).Idx → EReal) (t : (⟨1, ![4096]⟩ : Shape).Idx → BitVec 32) (i : Fin 4096) : EReal :=
  (Finset.univ : Finset (Fin 4096)).fold max ⊥ fun j => if t (ix1 i) = t (ix1 j) then dist x i j else ⊥
def an (x : (⟨2, ![4096, 2048]⟩ : Shape).Idx → EReal) (t : (⟨1, ![4096]⟩ : Shape).Idx → BitVec 32) (i : Fin 4096) : EReal :=
  (Finset.univ : Finset (Fin 4096)).fold min ⊤ fun j => if t (ix1 i) = t (ix1 j) then ⊤ else dist x i j

end Cert.Spec

end
-- ==== Proof.RefSpec.lean ====
/- The reference program against the specification, index by index over the extended reals. -/
import proofs.«145578_j51728586113513_1_alg».proof.Proof.Gen.ReferenceIdeal.Read
import proofs.«145578_j51728586113513_1_alg».proof.Proof.Spec
import Idealize.ShloMosaic.Lib.ValueIdx
import Idealize.ShloMosaic.PureOps.Ideal.Laws
import Idealize.ShloMosaic.PureOps.Reduce

noncomputable section

namespace Cert.ReferenceIdeal.RefSpec

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

theorem neg_inf : Ideal.ofBits .f32 0xFF800000#32 = (⊥ : EReal) := by simp [Ideal.ofBits, Ideal.ieee]
theorem pos_inf : Ideal.ofBits .f32 0x7F800000#32 = (⊤ : EReal) := by simp [Ideal.ofBits, Ideal.ieee]

theorem sel_eq {α : Type} {w : Nat} (a b : BitVec w) (u v : α) :
    Scalar.select (IntOp.cmpi .eq a b) u v = if a = b then u else v := by
  unfold Scalar.select
  by_cases h : a = b
  · rw [if_pos h, if_pos (by simp only [IntOp.cmpi, h, beq_self_eq_true, BitVec.ofBool_true])]
  · rw [if_neg h, if_neg (by simp only [IntOp.cmpi, beq_eq_false_iff_ne.2 h, BitVec.ofBool_false]; decide)]

theorem lift_eq (i j : Fin 4096) :
    (show S4096x4096.Reduces [1] S4096 by decide).lift (ix1 i) j = ix2 i j := by
  funext a
  apply Fin.ext
  match a with
  | ⟨0, _⟩ => rfl
  | ⟨1, _⟩ => rfl

theorem label_row_idx (i j : Fin 4096) : idx_main_v0 (idx_main_v2 (ix2 i j)) = ix1 i := by
  funext a; match a with | ⟨0, _⟩ => rfl
theorem label_col_idx (i j : Fin 4096) : idx_main_v1 (idx_main_v3 (ix2 i j)) = ix1 j := by
  funext a; match a with | ⟨0, _⟩ => rfl

theorem label_eq (x3 : (⟨S4096, .i32⟩ : BufTy).Contents (Elt Ideal)) (i j : Fin 4096) :
    val_main_v4 (F := Ideal) x3 (ix2 i j) = IntOp.cmpi .eq (x3 (ix1 i)) (x3 (ix1 j)) := by
  rw [val_main_v4_apply, val_main_v2_apply, val_main_v0_apply, val_main_v3_apply, val_main_v1_apply, label_row_idx, label_col_idx]

theorem sq_idx_a (i : Fin 4096) (k : Fin 2048) : idx_main_v6 (ix1 i) k = ix2 i k := by
  funext a; match a with | ⟨0, _⟩ => rfl | ⟨1, _⟩ => rfl
theorem row_idx_a (i j : Fin 4096) : idx_main_v7 (idx_main_v9 (ix2 i j)) = ix1 i := by
  funext a; match a with | ⟨0, _⟩ => rfl
theorem col_idx_a (i j : Fin 4096) : idx_main_v8 (idx_main_v10 (ix2 i j)) = ix1 j := by
  funext a; match a with | ⟨0, _⟩ => rfl
theorem lhs_idx_a (i j : Fin 4096) (k : Fin 2048) : lidx_main_v13 (ix2 i j) k = ix2 i k := by
  funext a; match a with | ⟨0, _⟩ => rfl | ⟨1, _⟩ => rfl
theorem rhs_idx_a (i j : Fin 4096) (k : Fin 2048) : idx_main_v12 (ridx_main_v13 (ix2 i j) k) = ix2 j k := by
  funext a; match a with | ⟨0, _⟩ => rfl | ⟨1, _⟩ => rfl

theorem dist_a (x0 : (⟨S4096x2048, .f32⟩ : BufTy).Contents (Elt Ideal)) (i j : Fin 4096) :
    val_main_v18 (F := Ideal) x0 (ix2 i j) = Cert.Spec.dist x0 i j := by
  simp only [val_main_v18_apply, val_main_v17_apply, val_main_call0_v1_apply, val_main_call0_v0_apply, val_main_cst_1_apply,
    val_main_v16_apply, val_main_v11_apply, val_main_v9_apply, val_main_v7_apply, val_main_v10_apply, val_main_v8_apply,
    val_main_v6_apply, val_main_cst_apply, val_main_v5_apply, val_main_v15_apply, val_main_v14_apply, val_main_cst_0_apply,
    val_main_v13_apply, val_main_v12_apply]
  simp only [row_idx_a, col_idx_a, sq_idx_a, lhs_idx_a, rhs_idx_a, Ideal.hostUnary_sqrt_def, Ideal.maximumf_def,
    Ideal.subf_def, Ideal.addf_def, Ideal.mulf_def, Ideal.ofBits_def, Ideal.ofBits_zero_f32, zero_add]
  rfl

theorem v20_eq (x0 : (⟨S4096x2048, .f32⟩ : BufTy).Contents (Elt Ideal)) (x3 : (⟨S4096, .i32⟩ : BufTy).Contents (Elt Ideal)) (i : Fin 4096) :
    val_main_v20 (F := Ideal) x0 x3 (ix1 i) = Cert.Spec.ap x0 x3 i := by
  unfold val_main_v20
  rw [Host.reduce_eq_fold_single FloatOps.maximumf _ _ reducesTo_S4096x4096_S4096_d1 (by decide) h_S_ (ix1 i)]
  unfold Cert.Spec.ap
  rw [val_main_cst_3_apply, Ideal.ofBits_def, neg_inf]
  refine congrArg (fun g => Finset.fold max (⊥ : EReal) g Finset.univ) (funext fun (j : Fin 4096) => ?_)
  refine (congrArg (val_main_v19 (F := Ideal) x0 x3) (lift_eq i j)).trans ?_
  rw [val_main_v19_apply, label_eq, dist_a, val_main_call1_v0_apply, val_main_cst_2_apply, Ideal.ofBits_def, neg_inf, sel_eq]

theorem v22_eq (x0 : (⟨S4096x2048, .f32⟩ : BufTy).Contents (Elt Ideal)) (x3 : (⟨S4096, .i32⟩ : BufTy).Contents (Elt Ideal)) (i : Fin 4096) :
    val_main_v22 (F := Ideal) x0 x3 (ix1 i) = Cert.Spec.an x0 x3 i := by
  unfold val_main_v22
  rw [Host.reduce_eq_fold_single FloatOps.minimumf _ _ reducesTo_S4096x4096_S4096_d1 (by decide) h_S_ (ix1 i)]
  unfold Cert.Spec.an
  rw [val_main_cst_5_apply, Ideal.ofBits_def, pos_inf]
  refine congrArg (fun g => Finset.fold min (⊤ : EReal) g Finset.univ) (funext fun (j : Fin 4096) => ?_)
  refine (congrArg (val_main_v21 (F := Ideal) x0 x3) (lift_eq i j)).trans ?_
  rw [val_main_v21_apply, label_eq, dist_a, val_main_call2_v0_apply, val_main_cst_4_apply, Ideal.ofBits_def, pos_inf, sel_eq]

theorem sq_idx_b (i : Fin 4096) (k : Fin 2048) : idx_main_v24 (ix1 i) k = ix2 i k := by
  funext a; match a with | ⟨0, _⟩ => rfl | ⟨1, _⟩ => rfl
theorem row_idx_b (i j : Fin 4096) : idx_main_v25 (idx_main_v27 (ix2 i j)) = ix1 i := by
  funext a; match a with | ⟨0, _⟩ => rfl
theorem col_idx_b (i j : Fin 4096) : idx_main_v26 (idx_main_v28 (ix2 i j)) = ix1 j := by
  funext a; match a with | ⟨0, _⟩ => rfl
theorem lhs_idx_b (i j : Fin 4096) (k : Fin 2048) : lidx_main_v31 (ix2 i j) k = ix2 i k := by
  funext a; match a with | ⟨0, _⟩ => rfl | ⟨1, _⟩ => rfl
theorem rhs_idx_b (i j : Fin 4096) (k : Fin 2048) : idx_main_v30 (ridx_main_v31 (ix2 i j) k) = ix2 j k := by
  funext a; match a with | ⟨0, _⟩ => rfl | ⟨1, _⟩ => rfl

theorem dist_b (x1 : (⟨S4096x2048, .f32⟩ : BufTy).Contents (Elt Ideal)) (i j : Fin 4096) :
    val_main_v36 (F := Ideal) x1 (ix2 i j) = Cert.Spec.dist x1 i j := by
  simp only [val_main_v36_apply, val_main_v35_apply, val_main_call3_v1_apply, val_main_call3_v0_apply, val_main_cst_8_apply,
    val_main_v34_apply, val_main_v29_apply, val_main_v27_apply, val_main_v25_apply, val_main_v28_apply, val_main_v26_apply,
    val_main_v24_apply, val_main_cst_6_apply, val_main_v23_apply, val_main_v33_apply, val_main_v32_apply, val_main_cst_7_apply,
    val_main_v31_apply, val_main_v30_apply]
  simp only [row_idx_b, col_idx_b, sq_idx_b, lhs_idx_b, rhs_idx_b, Ideal.hostUnary_sqrt_def, Ideal.maximumf_def,
    Ideal.subf_def, Ideal.addf_def, Ideal.mulf_def, Ideal.ofBits_def, Ideal.ofBits_zero_f32, zero_add]
  rfl

theorem v38_eq (x1 : (⟨S4096x2048, .f32⟩ : BufTy).Contents (Elt Ideal)) (x3 : (⟨S4096, .i32⟩ : BufTy).Contents (Elt Ideal)) (i : Fin 4096) :
    val_main_v38 (F := Ideal) x1 x3 (ix1 i) = Cert.Spec.ap x1 x3 i := by
  unfold val_main_v38
  rw [Host.reduce_eq_fold_single FloatOps.maximumf _ _ reducesTo_S4096x4096_S4096_d1 (by decide) h_S_ (ix1 i)]
  unfold Cert.Spec.ap
  rw [val_main_cst_10_apply, Ideal.ofBits_def, neg_inf]
  refine congrArg (fun g => Finset.fold max (⊥ : EReal) g Finset.univ) (funext fun (j : Fin 4096) => ?_)
  refine (congrArg (val_main_v37 (F := Ideal) x1 x3) (lift_eq i j)).trans ?_
  rw [val_main_v37_apply, label_eq, dist_b, val_main_call4_v0_apply, val_main_cst_9_apply, Ideal.ofBits_def, neg_inf, sel_eq]

theorem v40_eq (x1 : (⟨S4096x2048, .f32⟩ : BufTy).Contents (Elt Ideal)) (x3 : (⟨S4096, .i32⟩ : BufTy).Contents (Elt Ideal)) (i : Fin 4096) :
    val_main_v40 (F := Ideal) x1 x3 (ix1 i) = Cert.Spec.an x1 x3 i := by
  unfold val_main_v40
  rw [Host.reduce_eq_fold_single FloatOps.minimumf _ _ reducesTo_S4096x4096_S4096_d1 (by decide) h_S_ (ix1 i)]
  unfold Cert.Spec.an
  rw [val_main_cst_12_apply, Ideal.ofBits_def, pos_inf]
  refine congrArg (fun g => Finset.fold min (⊤ : EReal) g Finset.univ) (funext fun (j : Fin 4096) => ?_)
  refine (congrArg (val_main_v39 (F := Ideal) x1 x3) (lift_eq i j)).trans ?_
  rw [val_main_v39_apply, label_eq, dist_b, val_main_call5_v0_apply, val_main_cst_11_apply, Ideal.ofBits_def, pos_inf, sel_eq]

theorem sq_idx_c (i : Fin 4096) (k : Fin 2048) : idx_main_v42 (ix1 i) k = ix2 i k := by
  funext a; match a with | ⟨0, _⟩ => rfl | ⟨1, _⟩ => rfl
theorem row_idx_c (i j : Fin 4096) : idx_main_v43 (idx_main_v45 (ix2 i j)) = ix1 i := by
  funext a; match a with | ⟨0, _⟩ => rfl
theorem col_idx_c (i j : Fin 4096) : idx_main_v44 (idx_main_v46 (ix2 i j)) = ix1 j := by
  funext a; match a with | ⟨0, _⟩ => rfl
theorem lhs_idx_c (i j : Fin 4096) (k : Fin 2048) : lidx_main_v49 (ix2 i j) k = ix2 i k := by
  funext a; match a with | ⟨0, _⟩ => rfl | ⟨1, _⟩ => rfl
theorem rhs_idx_c (i j : Fin 4096) (k : Fin 2048) : idx_main_v48 (ridx_main_v49 (ix2 i j) k) = ix2 j k := by
  funext a; match a with | ⟨0, _⟩ => rfl | ⟨1, _⟩ => rfl

theorem dist_c (x2 : (⟨S4096x2048, .f32⟩ : BufTy).Contents (Elt Ideal)) (i j : Fin 4096) :
    val_main_v54 (F := Ideal) x2 (ix2 i j) = Cert.Spec.dist x2 i j := by
  simp only [val_main_v54_apply, val_main_v53_apply, val_main_call6_v1_apply, val_main_call6_v0_apply, val_main_cst_15_apply,
    val_main_v52_apply, val_main_v47_apply, val_main_v45_apply, val_main_v43_apply, val_main_v46_apply, val_main_v44_apply,
    val_main_v42_apply, val_main_cst_13_apply, val_main_v41_apply, val_main_v51_apply, val_main_v50_apply, val_main_cst_14_apply,
    val_main_v49_apply, val_main_v48_apply]
  simp only [row_idx_c, col_idx_c, sq_idx_c, lhs_idx_c, rhs_idx_c, Ideal.hostUnary_sqrt_def, Ideal.maximumf_def,
    Ideal.subf_def, Ideal.addf_def, Ideal.mulf_def, Ideal.ofBits_def, Ideal.ofBits_zero_f32, zero_add]
  rfl

theorem v56_eq (x2 : (⟨S4096x2048, .f32⟩ : BufTy).Contents (Elt Ideal)) (x3 : (⟨S4096, .i32⟩ : BufTy).Contents (Elt Ideal)) (i : Fin 4096) :
    val_main_v56 (F := Ideal) x2 x3 (ix1 i) = Cert.Spec.ap x2 x3 i := by
  unfold val_main_v56
  rw [Host.reduce_eq_fold_single FloatOps.maximumf _ _ reducesTo_S4096x4096_S4096_d1 (by decide) h_S_ (ix1 i)]
  unfold Cert.Spec.ap
  rw [val_main_cst_17_apply, Ideal.ofBits_def, neg_inf]
  refine congrArg (fun g => Finset.fold max (⊥ : EReal) g Finset.univ) (funext fun (j : Fin 4096) => ?_)
  refine (congrArg (val_main_v55 (F := Ideal) x2 x3) (lift_eq i j)).trans ?_
  rw [val_main_v55_apply, label_eq, dist_c, val_main_call7_v0_apply, val_main_cst_16_apply, Ideal.ofBits_def, neg_inf, sel_eq]

theorem v58_eq (x2 : (⟨S4096x2048, .f32⟩ : BufTy).Contents (Elt Ideal)) (x3 : (⟨S4096, .i32⟩ : BufTy).Contents (Elt Ideal)) (i : Fin 4096) :
    val_main_v58 (F := Ideal) x2 x3 (ix1 i) = Cert.Spec.an x2 x3 i := by
  unfold val_main_v58
  rw [Host.reduce_eq_fold_single FloatOps.minimumf _ _ reducesTo_S4096x4096_S4096_d1 (by decide) h_S_ (ix1 i)]
  unfold Cert.Spec.an
  rw [val_main_cst_19_apply, Ideal.ofBits_def, pos_inf]
  refine congrArg (fun g => Finset.fold min (⊤ : EReal) g Finset.univ) (funext fun (j : Fin 4096) => ?_)
  refine (congrArg (val_main_v57 (F := Ideal) x2 x3) (lift_eq i j)).trans ?_
  rw [val_main_v57_apply, label_eq, dist_c, val_main_call8_v0_apply, val_main_cst_18_apply, Ideal.ofBits_def, pos_inf, sel_eq]

def tail (a1 a2 a3 b1 b2 b3 : (⟨S4096, .f32⟩ : BufTy).Contents (Elt Ideal)) : (⟨S_, .f32⟩ : BufTy).Contents (Elt Ideal) :=
  Host.divf (F := Ideal)
    (Host.reduceAdd (F := Ideal)
      (maximumf (broadcastInDim S4096 ![] bcast_S_S4096 (constant (F := Ideal) S_ .f32 0x00000000#32))
        (addf (subf (minimumf (minimumf a1 a2) a3) (maximumf (maximumf b1 b2) b3))
          (broadcastInDim S4096 ![] bcast_S_S4096 (constant (F := Ideal) S_ .f32 0x3F800000#32))))
      (constant (F := Ideal) S_ .f32 0x00000000#32) reducesTo_S4096_S_d0 h_S_)
    (constant (F := Ideal) S_ .f32 0x45800000#32)

theorem res_eq (m : (ℓ : Loc nD τ sig) → Buf (Elt Ideal) ℓ) (c : Dev nD) :
    Cert.ReferenceIdeal.Value.res_out0 (F := Ideal) m c
      = tail (val_main_v20 (F := Ideal) (m ((c.tc : Thread nD τ).loc main_arg0)) (m ((c.tc : Thread nD τ).loc main_arg3)))
          (val_main_v38 (F := Ideal) (m ((c.tc : Thread nD τ).loc main_arg1)) (m ((c.tc : Thread nD τ).loc main_arg3)))
          (val_main_v56 (F := Ideal) (m ((c.tc : Thread nD τ).loc main_arg2)) (m ((c.tc : Thread nD τ).loc main_arg3)))
          (val_main_v22 (F := Ideal) (m ((c.tc : Thread nD τ).loc main_arg0)) (m ((c.tc : Thread nD τ).loc main_arg3)))
          (val_main_v40 (F := Ideal) (m ((c.tc : Thread nD τ).loc main_arg1)) (m ((c.tc : Thread nD τ).loc main_arg3)))
          (val_main_v58 (F := Ideal) (m ((c.tc : Thread nD τ).loc main_arg2)) (m ((c.tc : Thread nD τ).loc main_arg3))) := by
  show Cert.ReferenceIdeal.Value.res_main_v69 m c = _
  rw [val_main_v69_eq]
  unfold val_main_v69 val_main_v68 val_main_v67 val_main_v66 val_main_v65 val_main_v64 val_main_v63 val_main_v62
    val_main_v61 val_main_v60 val_main_v59 val_main_cst_23 val_main_cst_22 val_main_cst_21 val_main_cst_20 tail
  generalize val_main_v20 (F := Ideal) (m ((c.tc : Thread nD τ).loc main_arg0)) (m ((c.tc : Thread nD τ).loc main_arg3)) = a1
  generalize val_main_v38 (F := Ideal) (m ((c.tc : Thread nD τ).loc main_arg1)) (m ((c.tc : Thread nD τ).loc main_arg3)) = a2
  generalize val_main_v56 (F := Ideal) (m ((c.tc : Thread nD τ).loc main_arg2)) (m ((c.tc : Thread nD τ).loc main_arg3)) = a3
  generalize val_main_v22 (F := Ideal) (m ((c.tc : Thread nD τ).loc main_arg0)) (m ((c.tc : Thread nD τ).loc main_arg3)) = b1
  generalize val_main_v40 (F := Ideal) (m ((c.tc : Thread nD τ).loc main_arg1)) (m ((c.tc : Thread nD τ).loc main_arg3)) = b2
  generalize val_main_v58 (F := Ideal) (m ((c.tc : Thread nD τ).loc main_arg2)) (m ((c.tc : Thread nD τ).loc main_arg3)) = b3
  rfl

end Cert.ReferenceIdeal.RefSpec

end
-- ==== Proof.KI.Final.lean ====
/- The program's result read off the contents followed through its items. -/
import proofs.«145578_j51728586113513_1_alg».proof.Proof.KI.Frame
import proofs.«145578_j51728586113513_1_alg».proof.Proof.RefSpec
import proofs.«145578_j51728586113513_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL.Sem
open Idealize.ShloMosaic.StableHlo Idealize.ShloMosaic.ValueIdx
open Cert.KernelIdeal Cert.KernelIdeal.Gen

variable (m : (ℓ : Loc nD τ sig) → Buf (Elt Ideal) ℓ) (ρ : Dev nD → PrngReg) (c : Dev nD)

theorem U1_arg0 : U1 m c main_arg0 = m ((c : Thread nD τ).loc main_arg0) :=
  StableHlo.after_of_writes_sub hostOps0 _ hostOps0_writes (by decide)

theorem U3_arg1 : U3 m c main_arg1 = m ((c : Thread nD τ).loc main_arg1) :=
  calc W3 m c (Proc.devRef .tc main_arg1)
    _ = W2 m c (Proc.devRef .tc main_arg1) := StableHlo.after_of_writes_sub hostOps1 _ hostOps1_writes (by decide)
    _ = W1 m c (Proc.devRef .tc main_arg1) := W2_of_ne m c _ (StableHlo.devRef_ne_of_ne (by decide)) (StableHlo.devRef_ne_of_ne (by decide))
    _ = W0 m c (Proc.devRef .tc main_arg1) := StableHlo.after_of_writes_sub hostOps0 _ hostOps0_writes (by decide)
    _ = m ((c : Thread nD τ).loc main_arg1) := rfl

theorem U5_arg2 : U5 m c main_arg2 = m ((c : Thread nD τ).loc main_arg2) :=
  calc W5 m c (Proc.devRef .tc main_arg2)
    _ = W4 m c (Proc.devRef .tc main_arg2) := StableHlo.after_of_writes_sub hostOps2 _ hostOps2_writes (by decide)
    _ = W3 m c (Proc.devRef .tc main_arg2) := W4_of_ne m c _ (StableHlo.devRef_ne_of_ne (by decide)) (StableHlo.devRef_ne_of_ne (by decide))
    _ = W2 m c (Proc.devRef .tc main_arg2) := StableHlo.after_of_writes_sub hostOps1 _ hostOps1_writes (by decide)
    _ = W1 m c (Proc.devRef .tc main_arg2) := W2_of_ne m c _ (StableHlo.devRef_ne_of_ne (by decide)) (StableHlo.devRef_ne_of_ne (by decide))
    _ = W0 m c (Proc.devRef .tc main_arg2) := StableHlo.after_of_writes_sub hostOps0 _ hostOps0_writes (by decide)
    _ = m ((c : Thread nD τ).loc main_arg2) := rfl

theorem W2_arg3 : W2 m c (Proc.devRef .tc main_arg3) = m ((c : Thread nD τ).loc main_arg3) :=
  calc W2 m c (Proc.devRef .tc main_arg3)
    _ = W1 m c (Proc.devRef .tc main_arg3) := W2_of_ne m c _ (StableHlo.devRef_ne_of_ne (by decide)) (StableHlo.devRef_ne_of_ne (by decide))
    _ = W0 m c (Proc.devRef .tc main_arg3) := StableHlo.after_of_writes_sub hostOps0 _ hostOps0_writes (by decide)
    _ = m ((c : Thread nD τ).loc main_arg3) := rfl

theorem W4_arg3 : W4 m c (Proc.devRef .tc main_arg3) = m ((c : Thread nD τ).loc main_arg3) :=
  calc W4 m c (Proc.devRef .tc main_arg3)
    _ = W3 m c (Proc.devRef .tc main_arg3) := W4_of_ne m c _ (StableHlo.devRef_ne_of_ne (by decide)) (StableHlo.devRef_ne_of_ne (by decide))
    _ = W2 m c (Proc.devRef .tc main_arg3) := StableHlo.after_of_writes_sub hostOps1 _ hostOps1_writes (by decide)
    _ = m ((c : Thread nD τ).loc main_arg3) := W2_arg3 m c

theorem cast_to_col {α : Type} (x : S4096.Idx → α) (h : S4096.ShapeCasts S4096x1) (i : Fin 4096) :
    shapeCast S4096x1 x h (ix2 i (0 : Fin 1)) = x (ix1 i) :=
  shapeCast_apply x h _ _ (by
    rw [Shape.rowMajor_val_two, Shape.rowMajor_val_one]
    show i.val = i.val * 1 + 0
    omega)

theorem cast_to_row {α : Type} (x : S4096.Idx → α) (h : S4096.ShapeCasts S1x4096) (j : Fin 4096) :
    shapeCast S1x4096 x h (ix2 (0 : Fin 1) j) = x (ix1 j) :=
  shapeCast_apply x h _ _ (by
    rw [Shape.rowMajor_val_two, Shape.rowMajor_val_one]
    show j.val = 0 * 4096 + j.val
    omega)

theorem cast_of_col {α : Type} (f : Fin 4096 → α) (h : S4096x1.ShapeCasts S4096) :
    shapeCast S4096 (fun i : S4096x1.Idx => f (i 0)) h = fun j : S4096.Idx => f (j 0) := by
  funext j
  exact shapeCast_apply (fun i : S4096x1.Idx => f (i 0)) h j (ix2 (j 0) (0 : Fin 1)) (by
    rw [Shape.rowMajor_val_two, Shape.rowMajor_val_one]
    show (j 0).val * 1 + 0 = (j 0).val
    omega)

theorem U1_v0 (i : Fin 4096) : U1 m c main_v0 (ix2 i (0 : Fin 1)) = m ((c : Thread nD τ).loc main_arg3) (ix1 i) := by
  have e : W1 m c (Proc.devRef .tc main_v0) = shapeCast S4096x1 (m ((c : Thread nD τ).loc main_arg3)) shapeCasts_S4096_S4096x1 := by
    show StableHlo.after hostOps0 (W0 m c) (Proc.devRef .tc main_v0) = _
    after_results
    rfl
  exact (congrFun e _).trans (cast_to_col _ _ i)

theorem U1_v1 (j : Fin 4096) : U1 m c main_v1 (ix2 (0 : Fin 1) j) = m ((c : Thread nD τ).loc main_arg3) (ix1 j) := by
  have e : W1 m c (Proc.devRef .tc main_v1) = shapeCast S1x4096 (m ((c : Thread nD τ).loc main_arg3)) shapeCasts_S4096_S1x4096 := by
    show StableHlo.after hostOps0 (W0 m c) (Proc.devRef .tc main_v1) = _
    after_results
    rfl
  exact (congrFun e _).trans (cast_to_row _ _ j)

theorem U3_v5 (i : Fin 4096) : U3 m c main_v5 (ix2 i (0 : Fin 1)) = m ((c : Thread nD τ).loc main_arg3) (ix1 i) := by
  have e : W3 m c (Proc.devRef .tc main_v5) = shapeCast S4096x1 (W2 m c (Proc.devRef .tc main_arg3)) shapeCasts_S4096_S4096x1 := by
    show StableHlo.after hostOps1 (W2 m c) (Proc.devRef .tc main_v5) = _
    after_results
    rfl
  rw [W2_arg3] at e
  exact (congrFun e _).trans (cast_to_col _ _ i)

theorem U3_v6 (j : Fin 4096) : U3 m c main_v6 (ix2 (0 : Fin 1) j) = m ((c : Thread nD τ).loc main_arg3) (ix1 j) := by
  have e : W3 m c (Proc.devRef .tc main_v6) = shapeCast S1x4096 (W2 m c (Proc.devRef .tc main_arg3)) shapeCasts_S4096_S1x4096 := by
    show StableHlo.after hostOps1 (W2 m c) (Proc.devRef .tc main_v6) = _
    after_results
    rfl
  rw [W2_arg3] at e
  exact (congrFun e _).trans (cast_to_row _ _ j)

theorem U5_v10 (i : Fin 4096) : U5 m c main_v10 (ix2 i (0 : Fin 1)) = m ((c : Thread nD τ).loc main_arg3) (ix1 i) := by
  have e : W5 m c (Proc.devRef .tc main_v10) = shapeCast S4096x1 (W4 m c (Proc.devRef .tc main_arg3)) shapeCasts_S4096_S4096x1 := by
    show StableHlo.after hostOps2 (W4 m c) (Proc.devRef .tc main_v10) = _
    after_results
    rfl
  rw [W4_arg3] at e
  exact (congrFun e _).trans (cast_to_col _ _ i)

theorem U5_v11 (j : Fin 4096) : U5 m c main_v11 (ix2 (0 : Fin 1) j) = m ((c : Thread nD τ).loc main_arg3) (ix1 j) := by
  have e : W5 m c (Proc.devRef .tc main_v11) = shapeCast S1x4096 (W4 m c (Proc.devRef .tc main_arg3)) shapeCasts_S4096_S1x4096 := by
    show StableHlo.after hostOps2 (W4 m c) (Proc.devRef .tc main_v11) = _
    after_results
    rfl
  rw [W4_arg3] at e
  exact (congrFun e _).trans (cast_to_row _ _ j)

def apv (x : (⟨S4096x2048, .f32⟩ : BufTy).Contents (Elt Ideal)) (t : (⟨S4096, .i32⟩ : BufTy).Contents (Elt Ideal)) :
    (⟨S4096, .f32⟩ : BufTy).Contents (Elt Ideal) := fun i => Cert.Spec.ap x t (i 0)
def anv (x : (⟨S4096x2048, .f32⟩ : BufTy).Contents (Elt Ideal)) (t : (⟨S4096, .i32⟩ : BufTy).Contents (Elt Ideal)) :
    (⟨S4096, .f32⟩ : BufTy).Contents (Elt Ideal) := fun i => Cert.Spec.an x t (i 0)

def resG : Buf (Elt Ideal) ((c.tc : Thread nD τ).loc main_v25) :=
  Cert.ReferenceIdeal.RefSpec.tail
    (apv (m ((c.tc : Thread nD τ).loc main_arg0)) (m ((c.tc : Thread nD τ).loc main_arg3)))
    (apv (m ((c.tc : Thread nD τ).loc main_arg1)) (m ((c.tc : Thread nD τ).loc main_arg3)))
    (apv (m ((c.tc : Thread nD τ).loc main_arg2)) (m ((c.tc : Thread nD τ).loc main_arg3)))
    (anv (m ((c.tc : Thread nD τ).loc main_arg0)) (m ((c.tc : Thread nD τ).loc main_arg3)))
    (anv (m ((c.tc : Thread nD τ).loc main_arg1)) (m ((c.tc : Thread nD τ).loc main_arg3)))
    (anv (m ((c.tc : Thread nD τ).loc main_arg2)) (m ((c.tc : Thread nD τ).loc main_arg3)))

theorem after3_v25 (V : Valuation τ sig (Elt Ideal)) :
    StableHlo.after hostOps3 V (Proc.devRef .tc main_v25)
      = Cert.ReferenceIdeal.RefSpec.tail (V (Proc.devRef .tc main_v3)) (V (Proc.devRef .tc main_v8))
          (shapeCast S4096 (V (Proc.devRef .tc main_v12_0)) shapeCasts_S4096x1_S4096)
          (V (Proc.devRef .tc main_v4)) (V (Proc.devRef .tc main_v9))
          (shapeCast S4096 (V (Proc.devRef .tc main_v12_1)) shapeCasts_S4096x1_S4096) := by
  after_results
  rfl

theorem W6_v3 : W6 m c (Proc.devRef .tc main_v3)
    = shapeCast S4096 ((datR0 (U1 m) c).arrAt 4 cfg0.N) shapeCasts_S4096x1_S4096 :=
  calc W6 m c (Proc.devRef .tc main_v3)
    _ = W5 m c (Proc.devRef .tc main_v3) := W6_of_ne m c _ (StableHlo.devRef_ne_of_ne (by decide)) (StableHlo.devRef_ne_of_ne (by decide))
    _ = W4 m c (Proc.devRef .tc main_v3) := StableHlo.after_of_writes_sub hostOps2 _ hostOps2_writes (by decide)
    _ = W3 m c (Proc.devRef .tc main_v3) := W4_of_ne m c _ (StableHlo.devRef_ne_of_ne (by decide)) (StableHlo.devRef_ne_of_ne (by decide))
    _ = shapeCast S4096 (W2 m c (Proc.devRef .tc main_v2_0)) shapeCasts_S4096x1_S4096 := by
        show StableHlo.after hostOps1 (W2 m c) (Proc.devRef .tc main_v3) = _
        after_results
        rfl
    _ = _ := by rw [W2_o0]

theorem W6_v4 : W6 m c (Proc.devRef .tc main_v4)
    = shapeCast S4096 ((datR0 (U1 m) c).arrAt 5 cfg0.N) shapeCasts_S4096x1_S4096 :=
  calc W6 m c (Proc.devRef .tc main_v4)
    _ = W5 m c (Proc.devRef .tc main_v4) := W6_of_ne m c _ (StableHlo.devRef_ne_of_ne (by decide)) (StableHlo.devRef_ne_of_ne (by decide))
    _ = W4 m c (Proc.devRef .tc main_v4) := StableHlo.after_of_writes_sub hostOps2 _ hostOps2_writes (by decide)
    _ = W3 m c (Proc.devRef .tc main_v4) := W4_of_ne m c _ (StableHlo.devRef_ne_of_ne (by decide)) (StableHlo.devRef_ne_of_ne (by decide))
    _ = shapeCast S4096 (W2 m c (Proc.devRef .tc main_v2_1)) shapeCasts_S4096x1_S4096 := by
        show StableHlo.after hostOps1 (W2 m c) (Proc.devRef .tc main_v4) = _
        after_results
        rfl
    _ = _ := by rw [W2_o1]

theorem W6_v8 : W6 m c (Proc.devRef .tc main_v8)
    = shapeCast S4096 ((datR1 (U3 m) c).arrAt 4 cfg1.N) shapeCasts_S4096x1_S4096 :=
  calc W6 m c (Proc.devRef .tc main_v8)
    _ = W5 m c (Proc.devRef .tc main_v8) := W6_of_ne m c _ (StableHlo.devRef_ne_of_ne (by decide)) (StableHlo.devRef_ne_of_ne (by decide))
    _ = shapeCast S4096 (W4 m c (Proc.devRef .tc main_v7_0)) shapeCasts_S4096x1_S4096 := by
        show StableHlo.after hostOps2 (W4 m c) (Proc.devRef .tc main_v8) = _
        after_results
        rfl
    _ = _ := by rw [W4_o0]

theorem W6_v9 : W6 m c (Proc.devRef .tc main_v9)
    = shapeCast S4096 ((datR1 (U3 m) c).arrAt 5 cfg1.N) shapeCasts_S4096x1_S4096 :=
  calc W6 m c (Proc.devRef .tc main_v9)
    _ = W5 m c (Proc.devRef .tc main_v9) := W6_of_ne m c _ (StableHlo.devRef_ne_of_ne (by decide)) (StableHlo.devRef_ne_of_ne (by decide))
    _ = shapeCast S4096 (W4 m c (Proc.devRef .tc main_v7_1)) shapeCasts_S4096x1_S4096 := by
        show StableHlo.after hostOps2 (W4 m c) (Proc.devRef .tc main_v9) = _
        after_results
        rfl
    _ = _ := by rw [W4_o1]

theorem W7_v25_of
    (h40 : (datR0 (U1 m) c).arrAt 4 cfg0.N = fun i => Cert.Spec.ap (m ((c.tc : Thread nD τ).loc main_arg0)) (m ((c.tc : Thread nD τ).loc main_arg3)) (i 0))
    (h50 : (datR0 (U1 m) c).arrAt 5 cfg0.N = fun i => Cert.Spec.an (m ((c.tc : Thread nD τ).loc main_arg0)) (m ((c.tc : Thread nD τ).loc main_arg3)) (i 0))
    (h41 : (datR1 (U3 m) c).arrAt 4 cfg1.N = fun i => Cert.Spec.ap (m ((c.tc : Thread nD τ).loc main_arg1)) (m ((c.tc : Thread nD τ).loc main_arg3)) (i 0))
    (h51 : (datR1 (U3 m) c).arrAt 5 cfg1.N = fun i => Cert.Spec.an (m ((c.tc : Thread nD τ).loc main_arg1)) (m ((c.tc : Thread nD τ).loc main_arg3)) (i 0))
    (h42 : (datR2 (U5 m) c).arrAt 4 cfg2.N = fun i => Cert.Spec.ap (m ((c.tc : Thread nD τ).loc main_arg2)) (m ((c.tc : Thread nD τ).loc main_arg3)) (i 0))
    (h52 : (datR2 (U5 m) c).arrAt 5 cfg2.N = fun i => Cert.Spec.an (m ((c.tc : Thread nD τ).loc main_arg2)) (m ((c.tc : Thread nD τ).loc main_arg3)) (i 0)) :
    W7 m c (Proc.devRef .tc main_v25) = resG m c := by
  have e3 : W6 m c (Proc.devRef .tc main_v3) = apv (m ((c.tc : Thread nD τ).loc main_arg0)) (m ((c.tc : Thread nD τ).loc main_arg3)) := by
    rw [W6_v3, h40]; exact cast_of_col _ _
  have e4 : W6 m c (Proc.devRef .tc main_v4) = anv (m ((c.tc : Thread nD τ).loc main_arg0)) (m ((c.tc : Thread nD τ).loc main_arg3)) := by
    rw [W6_v4, h50]; exact cast_of_col _ _
  have e8 : W6 m c (Proc.devRef .tc main_v8) = apv (m ((c.tc : Thread nD τ).loc main_arg1)) (m ((c.tc : Thread nD τ).loc main_arg3)) := by
    rw [W6_v8, h41]; exact cast_of_col _ _
  have e9 : W6 m c (Proc.devRef .tc main_v9) = anv (m ((c.tc : Thread nD τ).loc main_arg1)) (m ((c.tc : Thread nD τ).loc main_arg3)) := by
    rw [W6_v9, h51]; exact cast_of_col _ _
  have e13 : shapeCast S4096 (W6 m c (Proc.devRef .tc main_v12_0)) shapeCasts_S4096x1_S4096
      = apv (m ((c.tc : Thread nD τ).loc main_arg2)) (m ((c.tc : Thread nD τ).loc main_arg3)) := by
    rw [W6_o0, h42]; exact cast_of_col _ _
  have e14 : shapeCast S4096 (W6 m c (Proc.devRef .tc main_v12_1)) shapeCasts_S4096x1_S4096
      = anv (m ((c.tc : Thread nD τ).loc main_arg2)) (m ((c.tc : Thread nD τ).loc main_arg3)) := by
    rw [W6_o1, h52]; exact cast_of_col _ _
  show StableHlo.after hostOps3 (W6 m c) (Proc.devRef .tc main_v25) = _
  rw [after3_v25, e3, e4, e8, e9, e13, e14]
  rfl

end Cert.KernelIdeal.Hand

end
-- ==== Proof.KI.PayLib.lean ====
/- Columns cast, broadcast and reduced at coordinates; a product of two row blocks as inner products of rows; a row's
   maximum and minimum as folds; the distance of two rows. -/
import proofs.«145578_j51728586113513_1_alg».proof.Proof.Gen.KernelIdeal.Skeleton
import proofs.«145578_j51728586113513_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lift_axis1 {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

theorem lhs_dot_0 (i : S512x512.Idx) (q : dot_S512x2048_S512x2048_S512x512_1_1_0_0_n_n.contr.Idx) :
    (dot_S512x2048_S512x2048_S512x512_1_1_0_0_n_n.lhsIdx i q 0).val = (i 0).val := by
  unfold DotDims.lhsIdx
  rw [dif_neg (show ¬(0 : Fin S512x2048.rank) ∈ dot_S512x2048_S512x2048_S512x512_1_1_0_0_n_n.lhsBatch by decide), dif_pos (show (0 : Fin S512x2048.rank) ∈ dot_S512x2048_S512x2048_S512x512_1_1_0_0_n_n.lhsNonContracting by decide)]
  rfl
theorem lhs_dot_1 (i : S512x512.Idx) (q : dot_S512x2048_S512x2048_S512x512_1_1_0_0_n_n.contr.Idx) :
    (dot_S512x2048_S512x2048_S512x512_1_1_0_0_n_n.lhsIdx i q 1).val = (q ⟨0, by decide⟩).val :=
  dot_S512x2048_S512x2048_S512x512_1_1_0_0_n_n.lhsIdx_val_of_single rfl i q
theorem rhs_dot_0 (i : S512x512.Idx) (q : dot_S512x2048_S512x2048_S512x512_1_1_0_0_n_n.contr.Idx) :
    (dot_S512x2048_S512x2048_S512x512_1_1_0_0_n_n.rhsIdx i q 0).val = (i 1).val := by
  unfold DotDims.rhsIdx
  rw [dif_neg (show ¬(0 : Fin S512x2048.rank) ∈ dot_S512x2048_S512x2048_S512x512_1_1_0_0_n_n.rhsBatch by decide), dif_pos (show (0 : Fin S512x2048.rank) ∈ dot_S512x2048_S512x2048_S512x512_1_1_0_0_n_n.rhsNonContracting by decide)]
  rfl
theorem rhs_dot_1 (i : S512x512.Idx) (q : dot_S512x2048_S512x2048_S512x512_1_1_0_0_n_n.contr.Idx) :
    (dot_S512x2048_S512x2048_S512x512_1_1_0_0_n_n.rhsIdx i q 1).val = (q ⟨0, by decide⟩).val :=
  dot_S512x2048_S512x2048_S512x512_1_1_0_0_n_n.rhsIdx_val_of_single rfl i q

theorem matmul_rows_apply (a b : FVec Ideal S512x2048 .bf16) (r c : Fin 512) :
    FloatOps.matmul dot_S512x2048_S512x2048_S512x512_1_1_0_0_n_n none a b (constant (F := Ideal) S512x512 .f32 0x00000000#32) (ix2 r c)
      = ∑ k : Fin 2048, a (ix2 r k) * b (ix2 c k) := by
  rw [Ideal.matmul_constant_zero_apply, ← Equiv.sum_comp (ValueIdx.contrEquiv1 dot_S512x2048_S512x2048_S512x512_1_1_0_0_n_n 2048 rfl rfl).symm]
  refine Finset.sum_congr rfl fun k _ => ?_
  have hk := ValueIdx.contrEquiv1_symm_val dot_S512x2048_S512x2048_S512x512_1_1_0_0_n_n 2048 rfl rfl k
  have el : dot_S512x2048_S512x2048_S512x512_1_1_0_0_n_n.lhsIdx (ix2 r c) ((ValueIdx.contrEquiv1 dot_S512x2048_S512x2048_S512x512_1_1_0_0_n_n 2048 rfl rfl).symm k) = ix2 r k := funext fun ax => Fin.ext (by
    match ax with
    | ⟨0, _⟩ => exact lhs_dot_0 _ _
    | ⟨1, _⟩ => exact (lhs_dot_1 _ _).trans hk)
  have er : dot_S512x2048_S512x2048_S512x512_1_1_0_0_n_n.rhsIdx (ix2 r c) ((ValueIdx.contrEquiv1 dot_S512x2048_S512x2048_S512x512_1_1_0_0_n_n 2048 rfl rfl).symm k) = ix2 c k := funext fun ax => Fin.ext (by
    match ax with
    | ⟨0, _⟩ => exact rhs_dot_0 _ _
    | ⟨1, _⟩ => exact (rhs_dot_1 _ _).trans hk)
  rw [el, er]

theorem rowsq_apply (x : FVec Ideal S512x2048 .f32) (r : Fin 512) (u : Fin 1) :
    shapeCast S512x1 (multiReduction (F := Ideal) .add [1] S512 (mulf x x) 0x00000000#32 reduces_S512x2048_S512 (.inl rfl) rfl)
        shapeCasts_S512_S512x1 (ix2 r u)
      = ∑ k : Fin 2048, x (ix2 r k) * x (ix2 r k) := by
  rw [shapeCast_a_a1_apply]
  refine (Ideal.multiReduction_add_single (mulf x x) 0x00000000#32 reduces_S512x2048_S512 (.inl rfl) rfl (ix1 r)).trans ?_
  refine Finset.sum_congr rfl fun k _ => ?_
  rw [lift_axis1]
  rfl

theorem neg_big : Named.named (F := Ideal) Cert.KernelIdeal.κ "neg_big" (φ := .f32) 0xF149F2CA#32 = (⊥ : EReal) :=
  IdealRules.named_const.ideal_named_scalar _ _ _ _ rfl
theorem pos_big : Named.named (F := Ideal) Cert.KernelIdeal.κ "pos_big" (φ := .f32) 0x7149F2CA#32 = (⊤ : EReal) :=
  IdealRules.named_const.ideal_named_scalar _ _ _ _ rfl
theorem ofBits_ninf : Ideal.ofBits .f32 0xFF800000#32 = (⊥ : EReal) := by simp [Ideal.ofBits, Ideal.ieee]
theorem ofBits_pinf : Ideal.ofBits .f32 0x7F800000#32 = (⊤ : EReal) := by simp [Ideal.ofBits, Ideal.ieee]

def distB (x0 x1 : Vec Ideal S512x2048 .f32) (r c : Fin 512) : EReal :=
  Ideal.sqrt (max Cert.Spec.eps (((∑ k : Fin 2048, x0 (ix2 r k) * x0 (ix2 r k)) + (∑ k : Fin 2048, x1 (ix2 c k) * x1 (ix2 c k)))
    - Cert.Spec.two * ∑ k : Fin 2048, x0 (ix2 r k) * x1 (ix2 c k)))

theorem cmpi_eq_one_iff {w : ℕ} (a b : BitVec w) : IntOp.cmpi .eq a b = 1#1 ↔ a = b := by
  show BitVec.ofBool (a == b) = 1#1 ↔ a = b
  constructor
  · intro h
    by_contra hne
    have hb : (a == b) = false := beq_eq_false_iff_ne.2 hne
    rw [hb] at h
    exact absurd h (by decide)
  · intro h
    subst h
    rw [beq_self_eq_true]
    rfl

theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

theorem rowmax_apply (src : FVec Ideal S512x512 .f32) (r : Fin 512) (u : Fin 1) :
    shapeCast S512x1 (multiReduction (F := Ideal) .maximumf [1] S512 src 0xFF800000#32 reduces_S512x512_S512 (.inl rfl) rfl)
        shapeCasts_S512_S512x1 (ix2 r u)
      = (Finset.univ : Finset (Fin 512)).fold max ⊥ (fun c => src (ix2 r c)) := by
  rw [shapeCast_a_a1_apply]
  refine (Ideal.multiReduction_maximumf_single src 0xFF800000#32 reduces_S512x512_S512 (.inl rfl) rfl (ix1 r)).trans ?_
  show (Finset.univ : Finset (Fin 512)).fold max (Ideal.ofBits .f32 0xFF800000#32) _ = _
  rw [ofBits_ninf]
  refine Finset.fold_congr fun c _ => ?_
  exact congrArg src (lift_axis1 reduces_S512x512_S512 r c)

theorem rowmin_apply (src : FVec Ideal S512x512 .f32) (r : Fin 512) :
    multiReduction (F := Ideal) .minimumf [1] S512 src 0x7F800000#32 reduces_S512x512_S512 (.inl rfl) rfl (ix1 r)
      = (Finset.univ : Finset (Fin 512)).fold min ⊤ (fun c => src (ix2 r c)) := by
  refine (multiReduction_minimumf_single src 0x7F800000#32 reduces_S512x512_S512 (.inl rfl) rfl (ix1 r)).trans ?_
  show (Finset.univ : Finset (Fin 512)).fold min (Ideal.ofBits .f32 0x7F800000#32) _ = _
  rw [ofBits_pinf]
  refine Finset.fold_congr fun c _ => ?_
  exact congrArg src (lift_axis1 reduces_S512x512_S512 r c)

end Cert.KernelIdeal.Hand

end
-- ==== Proof.KI.Pay.lean ====
/- The body's arithmetic read at an index over the extended reals. -/
import proofs.«145578_j51728586113513_1_alg».proof.Proof.KI.PayLib

noncomputable section

namespace Cert.KernelIdeal.Hand

open Cert.KernelIdeal Cert.KernelIdeal.Gen Idealize.ShloMosaic Idealize.ShloMosaic.ValueIdx

theorem pay5_apply (x0 x1 : Vec Ideal S512x2048 .f32) (r c : Fin 512) :
    k0_pay5 (F := Ideal) x0 x1 (ix2 r c) = distB x0 x1 r c := by
  unfold k0_pay5 distB
  show Ideal.sqrt (max Cert.Spec.eps ((broadcastTo S512x512 _ broadcasts_S512x1_S512x512 (ix2 r c)
      + broadcastTo S512x512 _ broadcasts_S1x512_S512x512 (ix2 r c))
      - Cert.Spec.two * FloatOps.matmul (F := Ideal) dot_S512x2048_S512x2048_S512x512_1_1_0_0_n_n none _ _ _ (ix2 r c))) = _
  rw [broadcastTo_a1_ab_apply, broadcastTo_1b_ab_apply, transpose_ix2_apply, rowsq_apply, rowsq_apply, matmul_rows_apply]
  rfl

theorem pay6_apply (x2 : Vec Ideal S512x1 .i32) (x3 : Vec Ideal S1x512 .i32) (r c : Fin 512) :
    k0_pay6 (F := Ideal) x2 x3 (ix2 r c) = 1#1 ↔ x2 (ix2 r (0 : Fin 1)) = x3 (ix2 (0 : Fin 1) c) := by
  unfold k0_pay6
  show IntOp.cmpi .eq (broadcastTo S512x512 _ broadcasts_S512x1_S512x512 (ix2 r c))
      (broadcastTo S512x512 _ broadcasts_S1x512_S512x512 (ix2 r c)) = 1#1 ↔ _
  rw [broadcastTo_a1_ab_apply, broadcastTo_1b_ab_apply, shapeCast_self, shapeCast_self]
  exact cmpi_eq_one_iff _ _

theorem pay7_apply (x0 x1 : Vec Ideal S512x2048 .f32) (x2 : Vec Ideal S512x1 .i32) (x3 : Vec Ideal S1x512 .i32) (r : Fin 512) :
    k0_pay7 (F := Ideal) x0 x1 x2 x3 (ix2 r (0 : Fin 1))
      = (Finset.univ : Finset (Fin 512)).fold max ⊥
          (fun c => if x2 (ix2 r (0 : Fin 1)) = x3 (ix2 (0 : Fin 1) c) then distB x0 x1 r c else ⊥) := by
  unfold k0_pay7
  refine (rowmax_apply _ r 0).trans ?_
  refine Finset.fold_congr fun c _ => ?_
  show Scalar.select (k0_pay6 (F := Ideal) x2 x3 (ix2 r c)) (k0_pay5 (F := Ideal) x0 x1 (ix2 r c))
      (Named.named (F := Ideal) Cert.KernelIdeal.κ "neg_big" (φ := .f32) 0xF149F2CA#32) = _
  rw [neg_big, pay5_apply]
  by_cases h : x2 (ix2 r (0 : Fin 1)) = x3 (ix2 (0 : Fin 1) c)
  · rw [if_pos h, (pay6_apply x2 x3 r c).2 h, select_one]
  · rw [if_neg h, eq_zero_of_ne_one (fun e => h ((pay6_apply x2 x3 r c).1 e)), select_zero]

theorem pay8_apply (x0 x1 : Vec Ideal S512x2048 .f32) (x2 : Vec Ideal S512x1 .i32) (x3 : Vec Ideal S1x512 .i32) (r : Fin 512) :
    k0_pay8 (F := Ideal) x0 x1 x2 x3 (ix1 r)
      = (Finset.univ : Finset (Fin 512)).fold min ⊤
          (fun c => if x2 (ix2 r (0 : Fin 1)) = x3 (ix2 (0 : Fin 1) c) then ⊤ else distB x0 x1 r c) := by
  unfold k0_pay8
  refine (rowmin_apply _ r).trans ?_
  refine Finset.fold_congr fun c _ => ?_
  show Scalar.select (k0_pay6 (F := Ideal) x2 x3 (ix2 r c))
      (Named.named (F := Ideal) Cert.KernelIdeal.κ "pos_big" (φ := .f32) 0x7149F2CA#32)
      (k0_pay5 (F := Ideal) x0 x1 (ix2 r c)) = _
  rw [pos_big, pay5_apply]
  by_cases h : x2 (ix2 r (0 : Fin 1)) = x3 (ix2 (0 : Fin 1) c)
  · rw [if_pos h, (pay6_apply x2 x3 r c).2 h, select_one]
  · rw [if_neg h, eq_zero_of_ne_one (fun e => h ((pay6_apply x2 x3 r c).1 e)), select_zero]

theorem pay1_apply (v36 : FVec Ideal S512x1 .f32) (v39 : Vec Ideal S512x1 .f32) (r : Fin 512) :
    k0_pay1 (F := Ideal) v36 v39 (ix2 r (0 : Fin 1)) = max (v39 (ix2 r 0)) (v36 (ix2 r 0)) := by
  unfold k0_pay1
  rw [shapeCast_self]
  rfl

theorem pay2_apply (v37 : FVec Ideal S512 .f32) (v44 : Vec Ideal S512x1 .f32) (r : Fin 512) :
    k0_pay2 (F := Ideal) v37 v44 (ix2 r (0 : Fin 1)) = min (v44 (ix2 r 0)) (v37 (ix1 r)) := by
  unfold k0_pay2
  rw [shapeCast_self]
  show min (v44 (ix2 r 0)) (shapeCast S512x1 v37 shapeCasts_S512_S512x1 (ix2 r (0 : Fin 1))) = _
  rw [shapeCast_a_a1_apply]

theorem pay3_apply (j : S512x1.Idx) : k0_pay3 (F := Ideal) j = ⊥ := by
  unfold k0_pay3
  rw [shapeCast_self]
  exact neg_big

theorem pay4_apply (j : S512x1.Idx) : k0_pay4 (F := Ideal) j = ⊤ := by
  unfold k0_pay4
  rw [shapeCast_self]
  exact pos_big

end Cert.KernelIdeal.Hand

end
-- ==== Proof.KI.Blocks0.lean ====
/- Where one launch's blocks sit: point t of the 8 x 8 grid is row step t / 8 and column step t % 8, and each result
   row is written once, at the last column step of its row block. -/
import proofs.«145578_j51728586113513_1_alg».proof.Proof.KI.Dat0
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [Named F]

local notation "𝕄" => MT nD τ sig Unit (Elt F) ℕ (UR sig nD τ) ℕ

open Cert.KernelIdeal Cert.KernelIdeal.Gen

variable (V : (c : Dev nD) → (b : Ref sig .tc) → Buf (Elt F) ((c : Thread nD τ).loc b))

theorem idxR0_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0
    ∧ win0_5.index t (0 : Fin 2) = t.val / 8 ∧ win0_5.index t (1 : Fin 2) = 0 :=
  (by decide +kernel : ∀ t : Fin grid0.N, _)

theorem iblkR0_0_apply (c : Dev nD) (t : Fin cfg0.N) (r : Fin 512) (k : Fin 2048) :
    iblkR0 V c 0 t (ix2 r k) = V c main_arg0 (ix2 (⟨512 * (t.val / 8) + r.val, by have := t.isLt; have : cfg0.N = 64 := N_0; omega⟩ : Fin 4096) k) := by
  obtain ⟨e0, e1, -⟩ := idxR0_facts t
  unfold iblkR0
  rw [View.read_apply]
  show V c main_arg0 _ = V c main_arg0 _
  congr 1
  funext a
  apply Fin.ext
  match a with
  | ⟨0, _⟩ => show win0_0.index t (0 : Fin 2) * 512 + 1 * r.val = 512 * (t.val / 8) + r.val; omega
  | ⟨1, _⟩ => show win0_0.index t (1 : Fin 2) * 2048 + 1 * k.val = k.val; omega

theorem iblkR0_1_apply (c : Dev nD) (t : Fin cfg0.N) (r : Fin 512) (k : Fin 2048) :
    iblkR0 V c 1 t (ix2 r k) = V c main_arg0 (ix2 (⟨512 * (t.val % 8) + r.val, by have := t.isLt; have : cfg0.N = 64 := N_0; omega⟩ : Fin 4096) k) := by
  obtain ⟨-, -, e0, e1, -⟩ := idxR0_facts t
  unfold iblkR0
  rw [View.read_apply]
  show V c main_arg0 _ = V c main_arg0 _
  congr 1
  funext a
  apply Fin.ext
  match a with
  | ⟨0, _⟩ => show win0_1.index t (0 : Fin 2) * 512 + 1 * r.val = 512 * (t.val % 8) + r.val; omega
  | ⟨1, _⟩ => show win0_1.index t (1 : Fin 2) * 2048 + 1 * k.val = k.val; omega

theorem iblkR0_2_apply (c : Dev nD) (t : Fin cfg0.N) (r : Fin 512) :
    iblkR0 V c 2 t (ix2 r (0 : Fin 1)) = V c main_v0 (ix2 (⟨512 * (t.val / 8) + r.val, by have := t.isLt; have : cfg0.N = 64 := N_0; omega⟩ : Fin 4096) (0 : Fin 1)) := by
  obtain ⟨-, -, -, -, e0, e1, -⟩ := idxR0_facts t
  unfold iblkR0
  rw [View.read_apply]
  show V c main_v0 _ = V c main_v0 _
  congr 1
  funext a
  apply Fin.ext
  match a with
  | ⟨0, _⟩ => show win0_2.index t (0 : Fin 2) * 512 + 1 * r.val = 512 * (t.val / 8) + r.val; omega
  | ⟨1, _⟩ => show win0_2.index t (1 : Fin 2) * 1 + 1 * 0 = 0; omega

theorem iblkR0_3_apply (c : Dev nD) (t : Fin cfg0.N) (q : Fin 512) :
    iblkR0 V c 3 t (ix2 (0 : Fin 1) q) = V c main_v1 (ix2 (0 : Fin 1) (⟨512 * (t.val % 8) + q.val, by have := t.isLt; have : cfg0.N = 64 := N_0; omega⟩ : Fin 4096)) := by
  obtain ⟨-, -, -, -, -, -, e0, e1, -⟩ := idxR0_facts t
  unfold iblkR0
  rw [View.read_apply]
  show V c main_v1 _ = V c main_v1 _
  congr 1
  funext a
  apply Fin.ext
  match a with
  | ⟨0, _⟩ => show win0_3.index t (0 : Fin 2) * 1 + 1 * 0 = 0; omega
  | ⟨1, _⟩ => show win0_3.index t (1 : Fin 2) * 512 + 1 * q.val = 512 * (t.val % 8) + q.val; omega

theorem flushedR0_4_eq (c : Dev nD) (G : Vec F S4096x1 .f32)
    (hG : ∀ t : Fin cfg0.N, t.val % 8 = 7 → ∀ r : Fin 512,
      (outsAtR0 V c t.val t.isLt).1 (ix2 r (0 : Fin 1)) = G (ix2 (⟨512 * (t.val / 8) + r.val, by have := t.isLt; have : cfg0.N = 64 := N_0; omega⟩ : Fin 4096) (0 : Fin 1)))
    (t : Fin cfg0.N) (hf : (cfg0.win 4).flush t = true) :
    (datR0 V c).flushed 4 t = ((cfg0.win 4).blk t).view.read (Elt F) G := by
  have h7 : t.val % 8 = 7 := (flush0_4 t).mp hf
  obtain ⟨-, -, -, -, -, -, -, -, e40, e41, e50, e51⟩ := idxR0_facts t
  show (cfg0.win 4).cut (grid0.coords t) ((datR0 V c).after 4 t) = _
  rw [afterR0_4]
  funext y
  obtain ⟨r, z, rfl⟩ : ∃ (a : Fin 512) (b : Fin 1), y = ix2 a b := ⟨y 0, y 1, eq_ix2 y⟩
  obtain rfl : z = 0 := Subsingleton.elim _ _
  rw [View.read_apply]
  show (outsAtR0 V c t.val t.isLt).1 (ix2 r (0 : Fin 1)) = G _
  rw [hG t h7 r]
  congr 1
  funext a
  apply Fin.ext
  match a with
  | ⟨0, _⟩ => show 512 * (t.val / 8) + r.val = win0_4.index t (0 : Fin 2) * 512 + 1 * r.val; omega
  | ⟨1, _⟩ => show 0 = win0_4.index t (1 : Fin 2) * 1 + 1 * 0; omega

theorem mem_blkR0_4 (t : Fin cfg0.N) (i : S4096x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v2_0).slice (win0_4.rect t)).set ↔ _
  rw [View.set_slice_whole, Rect.mem_set_unit]
  exact Iff.rfl

theorem coveredR0_4 (i : S4096x1.Idx) :
    ∃ t : Fin cfg0.N, (cfg0.win 4).flush t = true ∧ i ∈ ((cfg0.win 4).blk t).view.set := by
  have hi0 : (i 0).val < 4096 := (i 0).isLt
  have hi1 : (i 1).val < 1 := (i 1).isLt
  have hN : cfg0.N = 64 := N_0
  obtain ⟨t, ht⟩ : ∃ t : Fin cfg0.N, t.val = 8 * ((i 0).val / 512) + 7 := ⟨⟨8 * ((i 0).val / 512) + 7, by omega⟩, rfl⟩
  obtain ⟨-, -, -, -, -, -, -, -, e40, e41, e50, e51⟩ := idxR0_facts t
  refine ⟨t, (flush0_4 t).mpr (by omega), ?_⟩
  rw [mem_blkR0_4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1 ≤ (i 1).val ∧ (i 1).val < win0_4.index t (1 : Fin 2) * 1 + 1; omega

theorem arrAt4R0_of (c : Dev nD) (G : Vec F S4096x1 .f32)
    (hG : ∀ t : Fin cfg0.N, t.val % 8 = 7 → ∀ r : Fin 512,
      (outsAtR0 V c t.val t.isLt).1 (ix2 r (0 : Fin 1)) = G (ix2 (⟨512 * (t.val / 8) + r.val, by have := t.isLt; have : cfg0.N = 64 := N_0; omega⟩ : Fin 4096) (0 : Fin 1))) :
    (datR0 V c).arrAt 4 cfg0.N = G :=
  (datR0 V c).arrAt_eq_of_cover 4 G (fun t hf => flushedR0_4_eq V c G hG t hf) coveredR0_4

theorem flushedR0_5_eq (c : Dev nD) (G : Vec F S4096x1 .f32)
    (hG : ∀ t : Fin cfg0.N, t.val % 8 = 7 → ∀ r : Fin 512,
      (outsAtR0 V c t.val t.isLt).2.1 (ix2 r (0 : Fin 1)) = G (ix2 (⟨512 * (t.val / 8) + r.val, by have := t.isLt; have : cfg0.N = 64 := N_0; omega⟩ : Fin 4096) (0 : Fin 1)))
    (t : Fin cfg0.N) (hf : (cfg0.win 5).flush t = true) :
    (datR0 V c).flushed 5 t = ((cfg0.win 5).blk t).view.read (Elt F) G := by
  have h7 : t.val % 8 = 7 := (flush0_5 t).mp hf
  obtain ⟨-, -, -, -, -, -, -, -, e40, e41, e50, e51⟩ := idxR0_facts t
  show (cfg0.win 5).cut (grid0.coords t) ((datR0 V c).after 5 t) = _
  rw [afterR0_5]
  funext y
  obtain ⟨r, z, rfl⟩ : ∃ (a : Fin 512) (b : Fin 1), y = ix2 a b := ⟨y 0, y 1, eq_ix2 y⟩
  obtain rfl : z = 0 := Subsingleton.elim _ _
  rw [View.read_apply]
  show (outsAtR0 V c t.val t.isLt).2.1 (ix2 r (0 : Fin 1)) = G _
  rw [hG t h7 r]
  congr 1
  funext a
  apply Fin.ext
  match a with
  | ⟨0, _⟩ => show 512 * (t.val / 8) + r.val = win0_5.index t (0 : Fin 2) * 512 + 1 * r.val; omega
  | ⟨1, _⟩ => show 0 = win0_5.index t (1 : Fin 2) * 1 + 1 * 0; omega

theorem mem_blkR0_5 (t : Fin cfg0.N) (i : S4096x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v2_1).slice (win0_5.rect t)).set ↔ _
  rw [View.set_slice_whole, Rect.mem_set_unit]
  exact Iff.rfl

theorem coveredR0_5 (i : S4096x1.Idx) :
    ∃ t : Fin cfg0.N, (cfg0.win 5).flush t = true ∧ i ∈ ((cfg0.win 5).blk t).view.set := by
  have hi0 : (i 0).val < 4096 := (i 0).isLt
  have hi1 : (i 1).val < 1 := (i 1).isLt
  have hN : cfg0.N = 64 := N_0
  obtain ⟨t, ht⟩ : ∃ t : Fin cfg0.N, t.val = 8 * ((i 0).val / 512) + 7 := ⟨⟨8 * ((i 0).val / 512) + 7, by omega⟩, rfl⟩
  obtain ⟨-, -, -, -, -, -, -, -, e40, e41, e50, e51⟩ := idxR0_facts t
  refine ⟨t, (flush0_5 t).mpr (by omega), ?_⟩
  rw [mem_blkR0_5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1 ≤ (i 1).val ∧ (i 1).val < win0_5.index t (1 : Fin 2) * 1 + 1; omega

theorem arrAt5R0_of (c : Dev nD) (G : Vec F S4096x1 .f32)
    (hG : ∀ t : Fin cfg0.N, t.val % 8 = 7 → ∀ r : Fin 512,
      (outsAtR0 V c t.val t.isLt).2.1 (ix2 r (0 : Fin 1)) = G (ix2 (⟨512 * (t.val / 8) + r.val, by have := t.isLt; have : cfg0.N = 64 := N_0; omega⟩ : Fin 4096) (0 : Fin 1))) :
    (datR0 V c).arrAt 5 cfg0.N = G :=
  (datR0 V c).arrAt_eq_of_cover 5 G (fun t hf => flushedR0_5_eq V c G hG t hf) coveredR0_5

end Cert.KernelIdeal.Hand

end
-- ==== Proof.BlockFold.lean ====
/- A maximum (minimum) over 4096 = 8 x 512 indices is the running maximum (minimum) of eight block maxima (minima). -/
import Mathlib.Data.Finset.Fold
import Mathlib.Data.Finset.Lattice.Fold
import Mathlib.Data.Fintype.Basic
import Mathlib.Data.EReal.Basic
import Mathlib.Tactic.IntervalCases

namespace Cert.BlockFold

theorem fold_max_eq_sup {ι : Type*} (s : Finset ι) (f : ι → EReal) :
    s.fold max ⊥ f = s.sup f := rfl

theorem fold_min_eq_inf {ι : Type*} (s : Finset ι) (f : ι → EReal) :
    s.fold min ⊤ f = s.inf f := rfl

theorem index_split (f : Fin 4096 → EReal) (i : Fin 4096) :
    f i = f ⟨512 * (⟨i.val / 512, by omega⟩ : Fin 8).val
      + (⟨i.val % 512, Nat.mod_lt _ (by norm_num)⟩ : Fin 512).val, by omega⟩ := by
  congr 1
  apply Fin.ext
  show i.val = 512 * (i.val / 512) + i.val % 512
  omega

theorem fold_max_blocks (f : Fin 4096 → EReal) :
    (Finset.univ : Finset (Fin 4096)).fold max ⊥ f
      = (Finset.univ : Finset (Fin 8)).fold max ⊥ (fun b =>
          (Finset.univ : Finset (Fin 512)).fold max ⊥ (fun c =>
            f ⟨512 * b.val + c.val, by omega⟩)) := by
  simp only [fold_max_eq_sup]
  apply le_antisymm
  ·
    apply Finset.sup_le
    intro i _
    rw [index_split f i]
    exact le_trans
      (Finset.le_sup (f := fun c : Fin 512 =>
          f ⟨512 * (⟨i.val / 512, by omega⟩ : Fin 8).val + c.val, by omega⟩)
        (Finset.mem_univ (⟨i.val % 512, Nat.mod_lt _ (by norm_num)⟩ : Fin 512)))
      (Finset.le_sup (f := fun b : Fin 8 =>
          (Finset.univ : Finset (Fin 512)).sup (fun c => f ⟨512 * b.val + c.val, by omega⟩))
        (Finset.mem_univ (⟨i.val / 512, by omega⟩ : Fin 8)))
  ·
    apply Finset.sup_le
    intro b _
    apply Finset.sup_le
    intro c _
    exact Finset.le_sup (f := f) (Finset.mem_univ _)

theorem fold_min_blocks (f : Fin 4096 → EReal) :
    (Finset.univ : Finset (Fin 4096)).fold min ⊤ f
      = (Finset.univ : Finset (Fin 8)).fold min ⊤ (fun b =>
          (Finset.univ : Finset (Fin 512)).fold min ⊤ (fun c =>
            f ⟨512 * b.val + c.val, by omega⟩)) := by
  simp only [fold_min_eq_inf]
  apply le_antisymm
  ·
    apply Finset.le_inf
    intro b _
    apply Finset.le_inf
    intro c _
    exact Finset.inf_le (f := f) (Finset.mem_univ _)
  ·
    apply Finset.le_inf
    intro i _
    rw [index_split f i]
    exact le_trans
      (Finset.inf_le (f := fun b : Fin 8 =>
          (Finset.univ : Finset (Fin 512)).inf (fun c => f ⟨512 * b.val + c.val, by omega⟩))
        (Finset.mem_univ (⟨i.val / 512, by omega⟩ : Fin 8)))
      (Finset.inf_le (f := fun c : Fin 512 =>
          f ⟨512 * (⟨i.val / 512, by omega⟩ : Fin 8).val + c.val, by omega⟩)
        (Finset.mem_univ (⟨i.val % 512, Nat.mod_lt _ (by norm_num)⟩ : Fin 512)))

theorem acc_max_eq (B acc : ℕ → EReal) (h0 : acc 0 = max ⊥ (B 0))
    (hs : ∀ k, acc (k + 1) = max (acc k) (B (k + 1))) :
    acc 7 = (Finset.univ : Finset (Fin 8)).fold max ⊥ (fun b => B b.val) := by
  have e1 : acc 1 = max (acc 0) (B 1) := hs 0
  have e2 : acc 2 = max (acc 1) (B 2) := hs 1
  have e3 : acc 3 = max (acc 2) (B 3) := hs 2
  have e4 : acc 4 = max (acc 3) (B 4) := hs 3
  have e5 : acc 5 = max (acc 4) (B 5) := hs 4
  have e6 : acc 6 = max (acc 5) (B 6) := hs 5
  have e7 : acc 7 = max (acc 6) (B 7) := hs 6
  rw [e7, e6, e5, e4, e3, e2, e1, h0, fold_max_eq_sup]
  have hle : ∀ k (hk : k < 8), B k ≤ (Finset.univ : Finset (Fin 8)).sup (fun b => B b.val) :=
    fun k hk => Finset.le_sup (f := fun b : Fin 8 => B b.val) (Finset.mem_univ (⟨k, hk⟩ : Fin 8))
  apply le_antisymm
  · simp only [max_le_iff]
    exact ⟨⟨⟨⟨⟨⟨⟨⟨bot_le, hle 0 (by norm_num)⟩, hle 1 (by norm_num)⟩, hle 2 (by norm_num)⟩,
      hle 3 (by norm_num)⟩, hle 4 (by norm_num)⟩, hle 5 (by norm_num)⟩, hle 6 (by norm_num)⟩,
      hle 7 (by norm_num)⟩
  · apply Finset.sup_le
    rintro ⟨k, hk⟩ _
    interval_cases k <;> simp [le_max_iff]

theorem acc_min_eq (B acc : ℕ → EReal) (h0 : acc 0 = min ⊤ (B 0))
    (hs : ∀ k, acc (k + 1) = min (acc k) (B (k + 1))) :
    acc 7 = (Finset.univ : Finset (Fin 8)).fold min ⊤ (fun b => B b.val) := by
  have e1 : acc 1 = min (acc 0) (B 1) := hs 0
  have e2 : acc 2 = min (acc 1) (B 2) := hs 1
  have e3 : acc 3 = min (acc 2) (B 3) := hs 2
  have e4 : acc 4 = min (acc 3) (B 4) := hs 3
  have e5 : acc 5 = min (acc 4) (B 5) := hs 4
  have e6 : acc 6 = min (acc 5) (B 6) := hs 5
  have e7 : acc 7 = min (acc 6) (B 7) := hs 6
  rw [e7, e6, e5, e4, e3, e2, e1, h0, fold_min_eq_inf]
  have hle : ∀ k (hk : k < 8), (Finset.univ : Finset (Fin 8)).inf (fun b => B b.val) ≤ B k :=
    fun k hk => Finset.inf_le (f := fun b : Fin 8 => B b.val) (Finset.mem_univ (⟨k, hk⟩ : Fin 8))
  apply le_antisymm
  · apply Finset.le_inf
    rintro ⟨k, hk⟩ _
    interval_cases k <;> simp [min_le_iff]
  · simp only [le_min_iff]
    exact ⟨⟨⟨⟨⟨⟨⟨⟨le_top, hle 0 (by norm_num)⟩, hle 1 (by norm_num)⟩, hle 2 (by norm_num)⟩,
      hle 3 (by norm_num)⟩, hle 4 (by norm_num)⟩, hle 5 (by norm_num)⟩, hle 6 (by norm_num)⟩,
      hle 7 (by norm_num)⟩

end Cert.BlockFold
-- ==== Proof.KI.Val0.lean ====
/- The value of one launch's two results: per row, the largest distance over equal labels and the smallest over different
   labels, as the eight column steps' running maximum and minimum. -/
import proofs.«145578_j51728586113513_1_alg».proof.Proof.KI.Pay
import proofs.«145578_j51728586113513_1_alg».proof.Proof.KI.Blocks0
import proofs.«145578_j51728586113513_1_alg».proof.Proof.BlockFold

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (V : (c : Dev nD) → (b : Ref sig .tc) → Buf (Elt Ideal) ((c : Thread nD τ).loc b)) (c : Dev nD)
variable (tt : (⟨1, ![4096]⟩ : Shape).Idx → BitVec 32)

def rowR0 (b : ℕ) (r : Fin 512) : Fin 4096 := ⟨(512 * b + r.val) % 4096, Nat.mod_lt _ (by decide)⟩

theorem rowR0_of_lt (b : ℕ) (hb : b < 8) (r : Fin 512) : rowR0 b r = ⟨512 * b + r.val, by have := r.isLt; omega⟩ :=
  Fin.ext (Nat.mod_eq_of_lt (by have := r.isLt; omega))

def bmaxR0 (a : ℕ) (r : Fin 512) (b : ℕ) : EReal :=
  (Finset.univ : Finset (Fin 512)).fold max ⊥ fun q => if tt (ix1 (rowR0 a r)) = tt (ix1 (rowR0 b q)) then Cert.Spec.dist (V c main_arg0) (rowR0 a r) (rowR0 b q) else ⊥
def bminR0 (a : ℕ) (r : Fin 512) (b : ℕ) : EReal :=
  (Finset.univ : Finset (Fin 512)).fold min ⊤ fun q => if tt (ix1 (rowR0 a r)) = tt (ix1 (rowR0 b q)) then ⊤ else Cert.Spec.dist (V c main_arg0) (rowR0 a r) (rowR0 b q)

def accMaxR0 (a : ℕ) (r : Fin 512) : ℕ → EReal
  | 0 => max ⊥ (bmaxR0 V c tt a r 0)
  | k + 1 => max (accMaxR0 a r k) (bmaxR0 V c tt a r (k + 1))
def accMinR0 (a : ℕ) (r : Fin 512) : ℕ → EReal
  | 0 => min ⊤ (bminR0 V c tt a r 0)
  | k + 1 => min (accMinR0 a r k) (bminR0 V c tt a r (k + 1))

variable (h2 : ∀ i : Fin 4096, V c main_v0 (ix2 i (0 : Fin 1)) = tt (ix1 i)) (h3 : ∀ j : Fin 4096, V c main_v1 (ix2 (0 : Fin 1) j) = tt (ix1 j))

include h2 h3 in
theorem distBR0_eq (t : Fin cfg0.N) (r q : Fin 512) :
    distB (iblkR0 V c 0 t) (iblkR0 V c 1 t) r q = Cert.Spec.dist (V c main_arg0) (rowR0 (t.val / 8) r) (rowR0 (t.val % 8) q) := by
  have hN : t.val < 64 := lt_of_lt_of_eq t.isLt N_0
  rw [rowR0_of_lt _ (by omega), rowR0_of_lt _ (by omega)]
  unfold distB Cert.Spec.dist Cert.Spec.sqn Cert.Spec.gram
  simp only [iblkR0_0_apply, iblkR0_1_apply]

include h2 h3 in
theorem pay7R0_at (t : Fin cfg0.N) (r : Fin 512) :
    k0_pay7 (F := Ideal) (iblkR0 V c 0 t) (iblkR0 V c 1 t) (iblkR0 V c 2 t) (iblkR0 V c 3 t) (ix2 r (0 : Fin 1)) = bmaxR0 V c tt (t.val / 8) r (t.val % 8) := by
  have hN : t.val < 64 := lt_of_lt_of_eq t.isLt N_0
  rw [pay7_apply]
  unfold bmaxR0
  refine congrArg (fun f => Finset.fold _ _ f Finset.univ) (funext fun q => ?_)
  rw [distBR0_eq V c tt h2 h3 t r q, iblkR0_2_apply, iblkR0_3_apply, h2, h3, rowR0_of_lt _ (by omega : t.val / 8 < 8), rowR0_of_lt _ (by omega : t.val % 8 < 8)]

include h2 h3 in
theorem pay8R0_at (t : Fin cfg0.N) (r : Fin 512) :
    k0_pay8 (F := Ideal) (iblkR0 V c 0 t) (iblkR0 V c 1 t) (iblkR0 V c 2 t) (iblkR0 V c 3 t) (ix1 r) = bminR0 V c tt (t.val / 8) r (t.val % 8) := by
  have hN : t.val < 64 := lt_of_lt_of_eq t.isLt N_0
  rw [pay8_apply]
  unfold bminR0
  refine congrArg (fun f => Finset.fold _ _ f Finset.univ) (funext fun q => ?_)
  rw [distBR0_eq V c tt h2 h3 t r q, iblkR0_2_apply, iblkR0_3_apply, h2, h3, rowR0_of_lt _ (by omega : t.val / 8 < 8), rowR0_of_lt _ (by omega : t.val % 8 < 8)]

include h2 h3 in
theorem scratchR0_eq : ∀ (n : ℕ) (hn : n < cfg0.N) (r : Fin 512),
    (outsAtR0 V c n hn).2.2.1 (ix2 r (0 : Fin 1)) = accMaxR0 V c tt (n / 8) r (n % 8)
    ∧ (outsAtR0 V c n hn).2.2.2 (ix2 r (0 : Fin 1)) = accMinR0 V c tt (n / 8) r (n % 8) := by
  intro n
  induction n with
  | zero =>
    intro hn r
    have hA := outsAtR0_A V c ⟨0, hn⟩ (Nat.zero_mod _)
    dsimp only at hA
    rw [hA]; dsimp only [caseAR0, stepR0]
    rw [pay1_apply, pay2_apply, pay3_apply, pay4_apply, pay7R0_at V c tt h2 h3 ⟨0, hn⟩ r, pay8R0_at V c tt h2 h3 ⟨0, hn⟩ r]
    exact ⟨rfl, rfl⟩
  | succ n ih =>
    intro hn r
    have hN : n + 1 < 64 := lt_of_lt_of_eq hn N_0
    by_cases h0 : (n + 1) % 8 = 0
    · have hA := outsAtR0_A V c ⟨n + 1, hn⟩ h0
      dsimp only at hA
      rw [hA]; dsimp only [caseAR0, stepR0]
      rw [pay1_apply, pay2_apply, pay3_apply, pay4_apply, pay7R0_at V c tt h2 h3 ⟨n + 1, hn⟩ r, pay8R0_at V c tt h2 h3 ⟨n + 1, hn⟩ r]
      dsimp only
      rw [h0]
      exact ⟨rfl, rfl⟩
    · obtain ⟨ih0, ih1⟩ := ih (Nat.lt_of_succ_lt hn) r
      have hd : (n + 1) / 8 = n / 8 := by omega
      have hm : (n + 1) % 8 = n % 8 + 1 := by omega
      by_cases h1 : (n + 1) % 8 = 7
      · have hC := outsAtR0_C V c ⟨n + 1, hn⟩ h0 h1
        dsimp only at hC
        rw [hC]; dsimp only [caseCR0, stepR0]
        rw [pay1_apply, pay2_apply, pay7R0_at V c tt h2 h3 ⟨n + 1, hn⟩ r, pay8R0_at V c tt h2 h3 ⟨n + 1, hn⟩ r]
        dsimp only
        simp only [Nat.add_sub_cancel] at *
        rw [ih0, ih1, hd, hm]
        exact ⟨rfl, rfl⟩
      · have hB := outsAtR0_B V c ⟨n + 1, hn⟩ h0 h1
        dsimp only at hB
        rw [hB]; dsimp only [caseBR0, stepR0]
        rw [pay1_apply, pay2_apply, pay7R0_at V c tt h2 h3 ⟨n + 1, hn⟩ r, pay8R0_at V c tt h2 h3 ⟨n + 1, hn⟩ r]
        dsimp only
        simp only [Nat.add_sub_cancel] at *
        rw [ih0, ih1, hd, hm]
        exact ⟨rfl, rfl⟩

theorem accMaxR0_zero (a : ℕ) (r : Fin 512) : accMaxR0 V c tt a r 0 = max ⊥ (bmaxR0 V c tt a r 0) := by rw [accMaxR0]
theorem accMaxR0_succ (a : ℕ) (r : Fin 512) (k : ℕ) : accMaxR0 V c tt a r (k + 1) = max (accMaxR0 V c tt a r k) (bmaxR0 V c tt a r (k + 1)) := by rw [accMaxR0]
theorem accMinR0_zero (a : ℕ) (r : Fin 512) : accMinR0 V c tt a r 0 = min ⊤ (bminR0 V c tt a r 0) := by rw [accMinR0]
theorem accMinR0_succ (a : ℕ) (r : Fin 512) (k : ℕ) : accMinR0 V c tt a r (k + 1) = min (accMinR0 V c tt a r k) (bminR0 V c tt a r (k + 1)) := by rw [accMinR0]

theorem accMaxR0_seven (a : ℕ) (ha : a < 8) (r : Fin 512) :
    accMaxR0 V c tt a r 7 = Cert.Spec.ap (V c main_arg0) tt (rowR0 a r) := by
  refine (Cert.BlockFold.acc_max_eq (bmaxR0 V c tt a r) (accMaxR0 V c tt a r) (accMaxR0_zero V c tt a r) (accMaxR0_succ V c tt a r)).trans ?_
  unfold Cert.Spec.ap
  refine Eq.trans ?_ (Cert.BlockFold.fold_max_blocks _).symm
  refine congrArg (fun f => Finset.fold max ⊥ f Finset.univ) (funext fun b => ?_)
  unfold bmaxR0
  refine congrArg (fun f => Finset.fold max ⊥ f Finset.univ) (funext fun q => ?_)
  rw [rowR0_of_lt b.val b.isLt q]

theorem accMinR0_seven (a : ℕ) (ha : a < 8) (r : Fin 512) :
    accMinR0 V c tt a r 7 = Cert.Spec.an (V c main_arg0) tt (rowR0 a r) := by
  refine (Cert.BlockFold.acc_min_eq (bminR0 V c tt a r) (accMinR0 V c tt a r) (accMinR0_zero V c tt a r) (accMinR0_succ V c tt a r)).trans ?_
  unfold Cert.Spec.an
  refine Eq.trans ?_ (Cert.BlockFold.fold_min_blocks _).symm
  refine congrArg (fun f => Finset.fold min ⊤ f Finset.univ) (funext fun b => ?_)
  unfold bminR0
  refine congrArg (fun f => Finset.fold min ⊤ f Finset.univ) (funext fun q => ?_)
  rw [rowR0_of_lt b.val b.isLt q]

include h2 h3 in
theorem outR0_eq (t : Fin cfg0.N) (h7 : t.val % 8 = 7) (r : Fin 512) :
    (outsAtR0 V c t.val t.isLt).1 (ix2 r (0 : Fin 1)) = Cert.Spec.ap (V c main_arg0) tt (rowR0 (t.val / 8) r)
    ∧ (outsAtR0 V c t.val t.isLt).2.1 (ix2 r (0 : Fin 1)) = Cert.Spec.an (V c main_arg0) tt (rowR0 (t.val / 8) r) := by
  have hN : t.val < 64 := lt_of_lt_of_eq t.isLt N_0
  have hs := scratchR0_eq V c tt h2 h3 t.val t.isLt r
  rw [h7, accMaxR0_seven V c tt _ (by omega) r, accMinR0_seven V c tt _ (by omega) r] at hs
  have hC := outsAtR0_C V c t (by omega) h7
  rw [hC] at hs ⊢
  dsimp only [caseCR0, stepR0] at hs ⊢
  exact hs

include h2 h3 in
theorem arrAt4R0 : (datR0 V c).arrAt 4 cfg0.N = fun i => Cert.Spec.ap (V c main_arg0) tt (i 0) :=
  arrAt4R0_of V c _ fun t h7 r => by
    have hN : t.val < 64 := lt_of_lt_of_eq t.isLt N_0
    rw [(outR0_eq V c tt h2 h3 t h7 r).1, rowR0_of_lt _ (by omega)]; rfl

include h2 h3 in
theorem arrAt5R0 : (datR0 V c).arrAt 5 cfg0.N = fun i => Cert.Spec.an (V c main_arg0) tt (i 0) :=
  arrAt5R0_of V c _ fun t h7 r => by
    have hN : t.val < 64 := lt_of_lt_of_eq t.isLt N_0
    rw [(outR0_eq V c tt h2 h3 t h7 r).2, rowR0_of_lt _ (by omega)]; rfl

end Cert.KernelIdeal.Hand

end
-- ==== Proof.KI.Blocks1.lean ====
/- Where one launch's blocks sit: point t of the 8 x 8 grid is row step t / 8 and column step t % 8, and each result
   row is written once, at the last column step of its row block. -/
import proofs.«145578_j51728586113513_1_alg».proof.Proof.KI.Dat1
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [Named F]

local notation "𝕄" => MT nD τ sig Unit (Elt F) ℕ (UR sig nD τ) ℕ

open Cert.KernelIdeal Cert.KernelIdeal.Gen

variable (V : (c : Dev nD) → (b : Ref sig .tc) → Buf (Elt F) ((c : Thread nD τ).loc b))

theorem idxR1_facts : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = 0 ∧ win1_3.index t (1 : Fin 2) = t.val % 8
    ∧ win1_4.index t (0 : Fin 2) = t.val / 8 ∧ win1_4.index t (1 : Fin 2) = 0
    ∧ win1_5.index t (0 : Fin 2) = t.val / 8 ∧ win1_5.index t (1 : Fin 2) = 0 :=
  (by decide +kernel : ∀ t : Fin grid1.N, _)

theorem iblkR1_0_apply (c : Dev nD) (t : Fin cfg1.N) (r : Fin 512) (k : Fin 2048) :
    iblkR1 V c 0 t (ix2 r k) = V c main_arg1 (ix2 (⟨512 * (t.val / 8) + r.val, by have := t.isLt; have : cfg1.N = 64 := N_1; omega⟩ : Fin 4096) k) := by
  obtain ⟨e0, e1, -⟩ := idxR1_facts t
  unfold iblkR1
  rw [View.read_apply]
  show V c main_arg1 _ = V c main_arg1 _
  congr 1
  funext a
  apply Fin.ext
  match a with
  | ⟨0, _⟩ => show win1_0.index t (0 : Fin 2) * 512 + 1 * r.val = 512 * (t.val / 8) + r.val; omega
  | ⟨1, _⟩ => show win1_0.index t (1 : Fin 2) * 2048 + 1 * k.val = k.val; omega

theorem iblkR1_1_apply (c : Dev nD) (t : Fin cfg1.N) (r : Fin 512) (k : Fin 2048) :
    iblkR1 V c 1 t (ix2 r k) = V c main_arg1 (ix2 (⟨512 * (t.val % 8) + r.val, by have := t.isLt; have : cfg1.N = 64 := N_1; omega⟩ : Fin 4096) k) := by
  obtain ⟨-, -, e0, e1, -⟩ := idxR1_facts t
  unfold iblkR1
  rw [View.read_apply]
  show V c main_arg1 _ = V c main_arg1 _
  congr 1
  funext a
  apply Fin.ext
  match a with
  | ⟨0, _⟩ => show win1_1.index t (0 : Fin 2) * 512 + 1 * r.val = 512 * (t.val % 8) + r.val; omega
  | ⟨1, _⟩ => show win1_1.index t (1 : Fin 2) * 2048 + 1 * k.val = k.val; omega

theorem iblkR1_2_apply (c : Dev nD) (t : Fin cfg1.N) (r : Fin 512) :
    iblkR1 V c 2 t (ix2 r (0 : Fin 1)) = V c main_v5 (ix2 (⟨512 * (t.val / 8) + r.val, by have := t.isLt; have : cfg1.N = 64 := N_1; omega⟩ : Fin 4096) (0 : Fin 1)) := by
  obtain ⟨-, -, -, -, e0, e1, -⟩ := idxR1_facts t
  unfold iblkR1
  rw [View.read_apply]
  show V c main_v5 _ = V c main_v5 _
  congr 1
  funext a
  apply Fin.ext
  match a with
  | ⟨0, _⟩ => show win1_2.index t (0 : Fin 2) * 512 + 1 * r.val = 512 * (t.val / 8) + r.val; omega
  | ⟨1, _⟩ => show win1_2.index t (1 : Fin 2) * 1 + 1 * 0 = 0; omega

theorem iblkR1_3_apply (c : Dev nD) (t : Fin cfg1.N) (q : Fin 512) :
    iblkR1 V c 3 t (ix2 (0 : Fin 1) q) = V c main_v6 (ix2 (0 : Fin 1) (⟨512 * (t.val % 8) + q.val, by have := t.isLt; have : cfg1.N = 64 := N_1; omega⟩ : Fin 4096)) := by
  obtain ⟨-, -, -, -, -, -, e0, e1, -⟩ := idxR1_facts t
  unfold iblkR1
  rw [View.read_apply]
  show V c main_v6 _ = V c main_v6 _
  congr 1
  funext a
  apply Fin.ext
  match a with
  | ⟨0, _⟩ => show win1_3.index t (0 : Fin 2) * 1 + 1 * 0 = 0; omega
  | ⟨1, _⟩ => show win1_3.index t (1 : Fin 2) * 512 + 1 * q.val = 512 * (t.val % 8) + q.val; omega

theorem flushedR1_4_eq (c : Dev nD) (G : Vec F S4096x1 .f32)
    (hG : ∀ t : Fin cfg1.N, t.val % 8 = 7 → ∀ r : Fin 512,
      (outsAtR1 V c t.val t.isLt).1 (ix2 r (0 : Fin 1)) = G (ix2 (⟨512 * (t.val / 8) + r.val, by have := t.isLt; have : cfg1.N = 64 := N_1; omega⟩ : Fin 4096) (0 : Fin 1)))
    (t : Fin cfg1.N) (hf : (cfg1.win 4).flush t = true) :
    (datR1 V c).flushed 4 t = ((cfg1.win 4).blk t).view.read (Elt F) G := by
  have h7 : t.val % 8 = 7 := (flush1_4 t).mp hf
  obtain ⟨-, -, -, -, -, -, -, -, e40, e41, e50, e51⟩ := idxR1_facts t
  show (cfg1.win 4).cut (grid1.coords t) ((datR1 V c).after 4 t) = _
  rw [afterR1_4]
  funext y
  obtain ⟨r, z, rfl⟩ : ∃ (a : Fin 512) (b : Fin 1), y = ix2 a b := ⟨y 0, y 1, eq_ix2 y⟩
  obtain rfl : z = 0 := Subsingleton.elim _ _
  rw [View.read_apply]
  show (outsAtR1 V c t.val t.isLt).1 (ix2 r (0 : Fin 1)) = G _
  rw [hG t h7 r]
  congr 1
  funext a
  apply Fin.ext
  match a with
  | ⟨0, _⟩ => show 512 * (t.val / 8) + r.val = win1_4.index t (0 : Fin 2) * 512 + 1 * r.val; omega
  | ⟨1, _⟩ => show 0 = win1_4.index t (1 : Fin 2) * 1 + 1 * 0; omega

theorem mem_blkR1_4 (t : Fin cfg1.N) (i : S4096x1.Idx) :
    i ∈ ((cfg1.win 4).blk t).view.set ↔ ∀ a : Fin 2, win1_4.index t a * S512x1.size a ≤ (i a).val ∧ (i a).val < win1_4.index t a * S512x1.size a + S512x1.size a := by
  show i ∈ ((View.whole main_v7_0).slice (win1_4.rect t)).set ↔ _
  rw [View.set_slice_whole, Rect.mem_set_unit]
  exact Iff.rfl

theorem coveredR1_4 (i : S4096x1.Idx) :
    ∃ t : Fin cfg1.N, (cfg1.win 4).flush t = true ∧ i ∈ ((cfg1.win 4).blk t).view.set := by
  have hi0 : (i 0).val < 4096 := (i 0).isLt
  have hi1 : (i 1).val < 1 := (i 1).isLt
  have hN : cfg1.N = 64 := N_1
  obtain ⟨t, ht⟩ : ∃ t : Fin cfg1.N, t.val = 8 * ((i 0).val / 512) + 7 := ⟨⟨8 * ((i 0).val / 512) + 7, by omega⟩, rfl⟩
  obtain ⟨-, -, -, -, -, -, -, -, e40, e41, e50, e51⟩ := idxR1_facts t
  refine ⟨t, (flush1_4 t).mpr (by omega), ?_⟩
  rw [mem_blkR1_4]
  intro a
  match a with
  | ⟨0, _⟩ => show win1_4.index t (0 : Fin 2) * 512 ≤ (i 0).val ∧ (i 0).val < win1_4.index t (0 : Fin 2) * 512 + 512; omega
  | ⟨1, _⟩ => show win1_4.index t (1 : Fin 2) * 1 ≤ (i 1).val ∧ (i 1).val < win1_4.index t (1 : Fin 2) * 1 + 1; omega

theorem arrAt4R1_of (c : Dev nD) (G : Vec F S4096x1 .f32)
    (hG : ∀ t : Fin cfg1.N, t.val % 8 = 7 → ∀ r : Fin 512,
      (outsAtR1 V c t.val t.isLt).1 (ix2 r (0 : Fin 1)) = G (ix2 (⟨512 * (t.val / 8) + r.val, by have := t.isLt; have : cfg1.N = 64 := N_1; omega⟩ : Fin 4096) (0 : Fin 1))) :
    (datR1 V c).arrAt 4 cfg1.N = G :=
  (datR1 V c).arrAt_eq_of_cover 4 G (fun t hf => flushedR1_4_eq V c G hG t hf) coveredR1_4

theorem flushedR1_5_eq (c : Dev nD) (G : Vec F S4096x1 .f32)
    (hG : ∀ t : Fin cfg1.N, t.val % 8 = 7 → ∀ r : Fin 512,
      (outsAtR1 V c t.val t.isLt).2.1 (ix2 r (0 : Fin 1)) = G (ix2 (⟨512 * (t.val / 8) + r.val, by have := t.isLt; have : cfg1.N = 64 := N_1; omega⟩ : Fin 4096) (0 : Fin 1)))
    (t : Fin cfg1.N) (hf : (cfg1.win 5).flush t = true) :
    (datR1 V c).flushed 5 t = ((cfg1.win 5).blk t).view.read (Elt F) G := by
  have h7 : t.val % 8 = 7 := (flush1_5 t).mp hf
  obtain ⟨-, -, -, -, -, -, -, -, e40, e41, e50, e51⟩ := idxR1_facts t
  show (cfg1.win 5).cut (grid1.coords t) ((datR1 V c).after 5 t) = _
  rw [afterR1_5]
  funext y
  obtain ⟨r, z, rfl⟩ : ∃ (a : Fin 512) (b : Fin 1), y = ix2 a b := ⟨y 0, y 1, eq_ix2 y⟩
  obtain rfl : z = 0 := Subsingleton.elim _ _
  rw [View.read_apply]
  show (outsAtR1 V c t.val t.isLt).2.1 (ix2 r (0 : Fin 1)) = G _
  rw [hG t h7 r]
  congr 1
  funext a
  apply Fin.ext
  match a with
  | ⟨0, _⟩ => show 512 * (t.val / 8) + r.val = win1_5.index t (0 : Fin 2) * 512 + 1 * r.val; omega
  | ⟨1, _⟩ => show 0 = win1_5.index t (1 : Fin 2) * 1 + 1 * 0; omega

theorem mem_blkR1_5 (t : Fin cfg1.N) (i : S4096x1.Idx) :
    i ∈ ((cfg1.win 5).blk t).view.set ↔ ∀ a : Fin 2, win1_5.index t a * S512x1.size a ≤ (i a).val ∧ (i a).val < win1_5.index t a * S512x1.size a + S512x1.size a := by
  show i ∈ ((View.whole main_v7_1).slice (win1_5.rect t)).set ↔ _
  rw [View.set_slice_whole, Rect.mem_set_unit]
  exact Iff.rfl

theorem coveredR1_5 (i : S4096x1.Idx) :
    ∃ t : Fin cfg1.N, (cfg1.win 5).flush t = true ∧ i ∈ ((cfg1.win 5).blk t).view.set := by
  have hi0 : (i 0).val < 4096 := (i 0).isLt
  have hi1 : (i 1).val < 1 := (i 1).isLt
  have hN : cfg1.N = 64 := N_1
  obtain ⟨t, ht⟩ : ∃ t : Fin cfg1.N, t.val = 8 * ((i 0).val / 512) + 7 := ⟨⟨8 * ((i 0).val / 512) + 7, by omega⟩, rfl⟩
  obtain ⟨-, -, -, -, -, -, -, -, e40, e41, e50, e51⟩ := idxR1_facts t
  refine ⟨t, (flush1_5 t).mpr (by omega), ?_⟩
  rw [mem_blkR1_5]
  intro a
  match a with
  | ⟨0, _⟩ => show win1_5.index t (0 : Fin 2) * 512 ≤ (i 0).val ∧ (i 0).val < win1_5.index t (0 : Fin 2) * 512 + 512; omega
  | ⟨1, _⟩ => show win1_5.index t (1 : Fin 2) * 1 ≤ (i 1).val ∧ (i 1).val < win1_5.index t (1 : Fin 2) * 1 + 1; omega

theorem arrAt5R1_of (c : Dev nD) (G : Vec F S4096x1 .f32)
    (hG : ∀ t : Fin cfg1.N, t.val % 8 = 7 → ∀ r : Fin 512,
      (outsAtR1 V c t.val t.isLt).2.1 (ix2 r (0 : Fin 1)) = G (ix2 (⟨512 * (t.val / 8) + r.val, by have := t.isLt; have : cfg1.N = 64 := N_1; omega⟩ : Fin 4096) (0 : Fin 1))) :
    (datR1 V c).arrAt 5 cfg1.N = G :=
  (datR1 V c).arrAt_eq_of_cover 5 G (fun t hf => flushedR1_5_eq V c G hG t hf) coveredR1_5

end Cert.KernelIdeal.Hand

end
-- ==== Proof.KI.Val1.lean ====
/- The value of one launch's two results: per row, the largest distance over equal labels and the smallest over different
   labels, as the eight column steps' running maximum and minimum. -/
import proofs.«145578_j51728586113513_1_alg».proof.Proof.KI.Pay
import proofs.«145578_j51728586113513_1_alg».proof.Proof.KI.Blocks1
import proofs.«145578_j51728586113513_1_alg».proof.Proof.BlockFold

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (V : (c : Dev nD) → (b : Ref sig .tc) → Buf (Elt Ideal) ((c : Thread nD τ).loc b)) (c : Dev nD)
variable (tt : (⟨1, ![4096]⟩ : Shape).Idx → BitVec 32)

def rowR1 (b : ℕ) (r : Fin 512) : Fin 4096 := ⟨(512 * b + r.val) % 4096, Nat.mod_lt _ (by decide)⟩

theorem rowR1_of_lt (b : ℕ) (hb : b < 8) (r : Fin 512) : rowR1 b r = ⟨512 * b + r.val, by have := r.isLt; omega⟩ :=
  Fin.ext (Nat.mod_eq_of_lt (by have := r.isLt; omega))

def bmaxR1 (a : ℕ) (r : Fin 512) (b : ℕ) : EReal :=
  (Finset.univ : Finset (Fin 512)).fold max ⊥ fun q => if tt (ix1 (rowR1 a r)) = tt (ix1 (rowR1 b q)) then Cert.Spec.dist (V c main_arg1) (rowR1 a r) (rowR1 b q) else ⊥
def bminR1 (a : ℕ) (r : Fin 512) (b : ℕ) : EReal :=
  (Finset.univ : Finset (Fin 512)).fold min ⊤ fun q => if tt (ix1 (rowR1 a r)) = tt (ix1 (rowR1 b q)) then ⊤ else Cert.Spec.dist (V c main_arg1) (rowR1 a r) (rowR1 b q)

def accMaxR1 (a : ℕ) (r : Fin 512) : ℕ → EReal
  | 0 => max ⊥ (bmaxR1 V c tt a r 0)
  | k + 1 => max (accMaxR1 a r k) (bmaxR1 V c tt a r (k + 1))
def accMinR1 (a : ℕ) (r : Fin 512) : ℕ → EReal
  | 0 => min ⊤ (bminR1 V c tt a r 0)
  | k + 1 => min (accMinR1 a r k) (bminR1 V c tt a r (k + 1))

variable (h2 : ∀ i : Fin 4096, V c main_v5 (ix2 i (0 : Fin 1)) = tt (ix1 i)) (h3 : ∀ j : Fin 4096, V c main_v6 (ix2 (0 : Fin 1) j) = tt (ix1 j))

include h2 h3 in
theorem distBR1_eq (t : Fin cfg1.N) (r q : Fin 512) :
    distB (iblkR1 V c 0 t) (iblkR1 V c 1 t) r q = Cert.Spec.dist (V c main_arg1) (rowR1 (t.val / 8) r) (rowR1 (t.val % 8) q) := by
  have hN : t.val < 64 := lt_of_lt_of_eq t.isLt N_1
  rw [rowR1_of_lt _ (by omega), rowR1_of_lt _ (by omega)]
  unfold distB Cert.Spec.dist Cert.Spec.sqn Cert.Spec.gram
  simp only [iblkR1_0_apply, iblkR1_1_apply]

include h2 h3 in
theorem pay7R1_at (t : Fin cfg1.N) (r : Fin 512) :
    k0_pay7 (F := Ideal) (iblkR1 V c 0 t) (iblkR1 V c 1 t) (iblkR1 V c 2 t) (iblkR1 V c 3 t) (ix2 r (0 : Fin 1)) = bmaxR1 V c tt (t.val / 8) r (t.val % 8) := by
  have hN : t.val < 64 := lt_of_lt_of_eq t.isLt N_1
  rw [pay7_apply]
  unfold bmaxR1
  refine congrArg (fun f => Finset.fold _ _ f Finset.univ) (funext fun q => ?_)
  rw [distBR1_eq V c tt h2 h3 t r q, iblkR1_2_apply, iblkR1_3_apply, h2, h3, rowR1_of_lt _ (by omega : t.val / 8 < 8), rowR1_of_lt _ (by omega : t.val % 8 < 8)]

include h2 h3 in
theorem pay8R1_at (t : Fin cfg1.N) (r : Fin 512) :
    k0_pay8 (F := Ideal) (iblkR1 V c 0 t) (iblkR1 V c 1 t) (iblkR1 V c 2 t) (iblkR1 V c 3 t) (ix1 r) = bminR1 V c tt (t.val / 8) r (t.val % 8) := by
  have hN : t.val < 64 := lt_of_lt_of_eq t.isLt N_1
  rw [pay8_apply]
  unfold bminR1
  refine congrArg (fun f => Finset.fold _ _ f Finset.univ) (funext fun q => ?_)
  rw [distBR1_eq V c tt h2 h3 t r q, iblkR1_2_apply, iblkR1_3_apply, h2, h3, rowR1_of_lt _ (by omega : t.val / 8 < 8), rowR1_of_lt _ (by omega : t.val % 8 < 8)]

include h2 h3 in
theorem scratchR1_eq : ∀ (n : ℕ) (hn : n < cfg1.N) (r : Fin 512),
    (outsAtR1 V c n hn).2.2.1 (ix2 r (0 : Fin 1)) = accMaxR1 V c tt (n / 8) r (n % 8)
    ∧ (outsAtR1 V c n hn).2.2.2 (ix2 r (0 : Fin 1)) = accMinR1 V c tt (n / 8) r (n % 8) := by
  intro n
  induction n with
  | zero =>
    intro hn r
    have hA := outsAtR1_A V c ⟨0, hn⟩ (Nat.zero_mod _)
    dsimp only at hA
    rw [hA]; dsimp only [caseAR1, stepR1]
    rw [pay1_apply, pay2_apply, pay3_apply, pay4_apply, pay7R1_at V c tt h2 h3 ⟨0, hn⟩ r, pay8R1_at V c tt h2 h3 ⟨0, hn⟩ r]
    exact ⟨rfl, rfl⟩
  | succ n ih =>
    intro hn r
    have hN : n + 1 < 64 := lt_of_lt_of_eq hn N_1
    by_cases h0 : (n + 1) % 8 = 0
    · have hA := outsAtR1_A V c ⟨n + 1, hn⟩ h0
      dsimp only at hA
      rw [hA]; dsimp only [caseAR1, stepR1]
      rw [pay1_apply, pay2_apply, pay3_apply, pay4_apply, pay7R1_at V c tt h2 h3 ⟨n + 1, hn⟩ r, pay8R1_at V c tt h2 h3 ⟨n + 1, hn⟩ r]
      dsimp only
      rw [h0]
      exact ⟨rfl, rfl⟩
    · obtain ⟨ih0, ih1⟩ := ih (Nat.lt_of_succ_lt hn) r
      have hd : (n + 1) / 8 = n / 8 := by omega
      have hm : (n + 1) % 8 = n % 8 + 1 := by omega
      by_cases h1 : (n + 1) % 8 = 7
      · have hC := outsAtR1_C V c ⟨n + 1, hn⟩ h0 h1
        dsimp only at hC
        rw [hC]; dsimp only [caseCR1, stepR1]
        rw [pay1_apply, pay2_apply, pay7R1_at V c tt h2 h3 ⟨n + 1, hn⟩ r, pay8R1_at V c tt h2 h3 ⟨n + 1, hn⟩ r]
        dsimp only
        simp only [Nat.add_sub_cancel] at *
        rw [ih0, ih1, hd, hm]
        exact ⟨rfl, rfl⟩
      · have hB := outsAtR1_B V c ⟨n + 1, hn⟩ h0 h1
        dsimp only at hB
        rw [hB]; dsimp only [caseBR1, stepR1]
        rw [pay1_apply, pay2_apply, pay7R1_at V c tt h2 h3 ⟨n + 1, hn⟩ r, pay8R1_at V c tt h2 h3 ⟨n + 1, hn⟩ r]
        dsimp only
        simp only [Nat.add_sub_cancel] at *
        rw [ih0, ih1, hd, hm]
        exact ⟨rfl, rfl⟩

theorem accMaxR1_zero (a : ℕ) (r : Fin 512) : accMaxR1 V c tt a r 0 = max ⊥ (bmaxR1 V c tt a r 0) := by rw [accMaxR1]
theorem accMaxR1_succ (a : ℕ) (r : Fin 512) (k : ℕ) : accMaxR1 V c tt a r (k + 1) = max (accMaxR1 V c tt a r k) (bmaxR1 V c tt a r (k + 1)) := by rw [accMaxR1]
theorem accMinR1_zero (a : ℕ) (r : Fin 512) : accMinR1 V c tt a r 0 = min ⊤ (bminR1 V c tt a r 0) := by rw [accMinR1]
theorem accMinR1_succ (a : ℕ) (r : Fin 512) (k : ℕ) : accMinR1 V c tt a r (k + 1) = min (accMinR1 V c tt a r k) (bminR1 V c tt a r (k + 1)) := by rw [accMinR1]

theorem accMaxR1_seven (a : ℕ) (ha : a < 8) (r : Fin 512) :
    accMaxR1 V c tt a r 7 = Cert.Spec.ap (V c main_arg1) tt (rowR1 a r) := by
  refine (Cert.BlockFold.acc_max_eq (bmaxR1 V c tt a r) (accMaxR1 V c tt a r) (accMaxR1_zero V c tt a r) (accMaxR1_succ V c tt a r)).trans ?_
  unfold Cert.Spec.ap
  refine Eq.trans ?_ (Cert.BlockFold.fold_max_blocks _).symm
  refine congrArg (fun f => Finset.fold max ⊥ f Finset.univ) (funext fun b => ?_)
  unfold bmaxR1
  refine congrArg (fun f => Finset.fold max ⊥ f Finset.univ) (funext fun q => ?_)
  rw [rowR1_of_lt b.val b.isLt q]

theorem accMinR1_seven (a : ℕ) (ha : a < 8) (r : Fin 512) :
    accMinR1 V c tt a r 7 = Cert.Spec.an (V c main_arg1) tt (rowR1 a r) := by
  refine (Cert.BlockFold.acc_min_eq (bminR1 V c tt a r) (accMinR1 V c tt a r) (accMinR1_zero V c tt a r) (accMinR1_succ V c tt a r)).trans ?_
  unfold Cert.Spec.an
  refine Eq.trans ?_ (Cert.BlockFold.fold_min_blocks _).symm
  refine congrArg (fun f => Finset.fold min ⊤ f Finset.univ) (funext fun b => ?_)
  unfold bminR1
  refine congrArg (fun f => Finset.fold min ⊤ f Finset.univ) (funext fun q => ?_)
  rw [rowR1_of_lt b.val b.isLt q]

include h2 h3 in
theorem outR1_eq (t : Fin cfg1.N) (h7 : t.val % 8 = 7) (r : Fin 512) :
    (outsAtR1 V c t.val t.isLt).1 (ix2 r (0 : Fin 1)) = Cert.Spec.ap (V c main_arg1) tt (rowR1 (t.val / 8) r)
    ∧ (outsAtR1 V c t.val t.isLt).2.1 (ix2 r (0 : Fin 1)) = Cert.Spec.an (V c main_arg1) tt (rowR1 (t.val / 8) r) := by
  have hN : t.val < 64 := lt_of_lt_of_eq t.isLt N_1
  have hs := scratchR1_eq V c tt h2 h3 t.val t.isLt r
  rw [h7, accMaxR1_seven V c tt _ (by omega) r, accMinR1_seven V c tt _ (by omega) r] at hs
  have hC := outsAtR1_C V c t (by omega) h7
  rw [hC] at hs ⊢
  dsimp only [caseCR1, stepR1] at hs ⊢
  exact hs

include h2 h3 in
theorem arrAt4R1 : (datR1 V c).arrAt 4 cfg1.N = fun i => Cert.Spec.ap (V c main_arg1) tt (i 0) :=
  arrAt4R1_of V c _ fun t h7 r => by
    have hN : t.val < 64 := lt_of_lt_of_eq t.isLt N_1
    rw [(outR1_eq V c tt h2 h3 t h7 r).1, rowR1_of_lt _ (by omega)]; rfl

include h2 h3 in
theorem arrAt5R1 : (datR1 V c).arrAt 5 cfg1.N = fun i => Cert.Spec.an (V c main_arg1) tt (i 0) :=
  arrAt5R1_of V c _ fun t h7 r => by
    have hN : t.val < 64 := lt_of_lt_of_eq t.isLt N_1
    rw [(outR1_eq V c tt h2 h3 t h7 r).2, rowR1_of_lt _ (by omega)]; rfl

end Cert.KernelIdeal.Hand

end
-- ==== Proof.KI.Blocks2.lean ====
/- Where one launch's blocks sit: point t of the 8 x 8 grid is row step t / 8 and column step t % 8, and each result
   row is written once, at the last column step of its row block. -/
import proofs.«145578_j51728586113513_1_alg».proof.Proof.KI.Dat2
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [Named F]

local notation "𝕄" => MT nD τ sig Unit (Elt F) ℕ (UR sig nD τ) ℕ

open Cert.KernelIdeal Cert.KernelIdeal.Gen

variable (V : (c : Dev nD) → (b : Ref sig .tc) → Buf (Elt F) ((c : Thread nD τ).loc b))

theorem idxR2_facts : ∀ t : Fin cfg2.N,
    win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 2) = t.val / 8 ∧ win2_2.index t (1 : Fin 2) = 0
    ∧ win2_3.index t (0 : Fin 2) = 0 ∧ win2_3.index t (1 : Fin 2) = t.val % 8
    ∧ win2_4.index t (0 : Fin 2) = t.val / 8 ∧ win2_4.index t (1 : Fin 2) = 0
    ∧ win2_5.index t (0 : Fin 2) = t.val / 8 ∧ win2_5.index t (1 : Fin 2) = 0 :=
  (by decide +kernel : ∀ t : Fin grid2.N, _)

theorem iblkR2_0_apply (c : Dev nD) (t : Fin cfg2.N) (r : Fin 512) (k : Fin 2048) :
    iblkR2 V c 0 t (ix2 r k) = V c main_arg2 (ix2 (⟨512 * (t.val / 8) + r.val, by have := t.isLt; have : cfg2.N = 64 := N_2; omega⟩ : Fin 4096) k) := by
  obtain ⟨e0, e1, -⟩ := idxR2_facts t
  unfold iblkR2
  rw [View.read_apply]
  show V c main_arg2 _ = V c main_arg2 _
  congr 1
  funext a
  apply Fin.ext
  match a with
  | ⟨0, _⟩ => show win2_0.index t (0 : Fin 2) * 512 + 1 * r.val = 512 * (t.val / 8) + r.val; omega
  | ⟨1, _⟩ => show win2_0.index t (1 : Fin 2) * 2048 + 1 * k.val = k.val; omega

theorem iblkR2_1_apply (c : Dev nD) (t : Fin cfg2.N) (r : Fin 512) (k : Fin 2048) :
    iblkR2 V c 1 t (ix2 r k) = V c main_arg2 (ix2 (⟨512 * (t.val % 8) + r.val, by have := t.isLt; have : cfg2.N = 64 := N_2; omega⟩ : Fin 4096) k) := by
  obtain ⟨-, -, e0, e1, -⟩ := idxR2_facts t
  unfold iblkR2
  rw [View.read_apply]
  show V c main_arg2 _ = V c main_arg2 _
  congr 1
  funext a
  apply Fin.ext
  match a with
  | ⟨0, _⟩ => show win2_1.index t (0 : Fin 2) * 512 + 1 * r.val = 512 * (t.val % 8) + r.val; omega
  | ⟨1, _⟩ => show win2_1.index t (1 : Fin 2) * 2048 + 1 * k.val = k.val; omega

theorem iblkR2_2_apply (c : Dev nD) (t : Fin cfg2.N) (r : Fin 512) :
    iblkR2 V c 2 t (ix2 r (0 : Fin 1)) = V c main_v10 (ix2 (⟨512 * (t.val / 8) + r.val, by have := t.isLt; have : cfg2.N = 64 := N_2; omega⟩ : Fin 4096) (0 : Fin 1)) := by
  obtain ⟨-, -, -, -, e0, e1, -⟩ := idxR2_facts t
  unfold iblkR2
  rw [View.read_apply]
  show V c main_v10 _ = V c main_v10 _
  congr 1
  funext a
  apply Fin.ext
  match a with
  | ⟨0, _⟩ => show win2_2.index t (0 : Fin 2) * 512 + 1 * r.val = 512 * (t.val / 8) + r.val; omega
  | ⟨1, _⟩ => show win2_2.index t (1 : Fin 2) * 1 + 1 * 0 = 0; omega

theorem iblkR2_3_apply (c : Dev nD) (t : Fin cfg2.N) (q : Fin 512) :
    iblkR2 V c 3 t (ix2 (0 : Fin 1) q) = V c main_v11 (ix2 (0 : Fin 1) (⟨512 * (t.val % 8) + q.val, by have := t.isLt; have : cfg2.N = 64 := N_2; omega⟩ : Fin 4096)) := by
  obtain ⟨-, -, -, -, -, -, e0, e1, -⟩ := idxR2_facts t
  unfold iblkR2
  rw [View.read_apply]
  show V c main_v11 _ = V c main_v11 _
  congr 1
  funext a
  apply Fin.ext
  match a with
  | ⟨0, _⟩ => show win2_3.index t (0 : Fin 2) * 1 + 1 * 0 = 0; omega
  | ⟨1, _⟩ => show win2_3.index t (1 : Fin 2) * 512 + 1 * q.val = 512 * (t.val % 8) + q.val; omega

theorem flushedR2_4_eq (c : Dev nD) (G : Vec F S4096x1 .f32)
    (hG : ∀ t : Fin cfg2.N, t.val % 8 = 7 → ∀ r : Fin 512,
      (outsAtR2 V c t.val t.isLt).1 (ix2 r (0 : Fin 1)) = G (ix2 (⟨512 * (t.val / 8) + r.val, by have := t.isLt; have : cfg2.N = 64 := N_2; omega⟩ : Fin 4096) (0 : Fin 1)))
    (t : Fin cfg2.N) (hf : (cfg2.win 4).flush t = true) :
    (datR2 V c).flushed 4 t = ((cfg2.win 4).blk t).view.read (Elt F) G := by
  have h7 : t.val % 8 = 7 := (flush2_4 t).mp hf
  obtain ⟨-, -, -, -, -, -, -, -, e40, e41, e50, e51⟩ := idxR2_facts t
  show (cfg2.win 4).cut (grid2.coords t) ((datR2 V c).after 4 t) = _
  rw [afterR2_4]
  funext y
  obtain ⟨r, z, rfl⟩ : ∃ (a : Fin 512) (b : Fin 1), y = ix2 a b := ⟨y 0, y 1, eq_ix2 y⟩
  obtain rfl : z = 0 := Subsingleton.elim _ _
  rw [View.read_apply]
  show (outsAtR2 V c t.val t.isLt).1 (ix2 r (0 : Fin 1)) = G _
  rw [hG t h7 r]
  congr 1
  funext a
  apply Fin.ext
  match a with
  | ⟨0, _⟩ => show 512 * (t.val / 8) + r.val = win2_4.index t (0 : Fin 2) * 512 + 1 * r.val; omega
  | ⟨1, _⟩ => show 0 = win2_4.index t (1 : Fin 2) * 1 + 1 * 0; omega

theorem mem_blkR2_4 (t : Fin cfg2.N) (i : S4096x1.Idx) :
    i ∈ ((cfg2.win 4).blk t).view.set ↔ ∀ a : Fin 2, win2_4.index t a * S512x1.size a ≤ (i a).val ∧ (i a).val < win2_4.index t a * S512x1.size a + S512x1.size a := by
  show i ∈ ((View.whole main_v12_0).slice (win2_4.rect t)).set ↔ _
  rw [View.set_slice_whole, Rect.mem_set_unit]
  exact Iff.rfl

theorem coveredR2_4 (i : S4096x1.Idx) :
    ∃ t : Fin cfg2.N, (cfg2.win 4).flush t = true ∧ i ∈ ((cfg2.win 4).blk t).view.set := by
  have hi0 : (i 0).val < 4096 := (i 0).isLt
  have hi1 : (i 1).val < 1 := (i 1).isLt
  have hN : cfg2.N = 64 := N_2
  obtain ⟨t, ht⟩ : ∃ t : Fin cfg2.N, t.val = 8 * ((i 0).val / 512) + 7 := ⟨⟨8 * ((i 0).val / 512) + 7, by omega⟩, rfl⟩
  obtain ⟨-, -, -, -, -, -, -, -, e40, e41, e50, e51⟩ := idxR2_facts t
  refine ⟨t, (flush2_4 t).mpr (by omega), ?_⟩
  rw [mem_blkR2_4]
  intro a
  match a with
  | ⟨0, _⟩ => show win2_4.index t (0 : Fin 2) * 512 ≤ (i 0).val ∧ (i 0).val < win2_4.index t (0 : Fin 2) * 512 + 512; omega
  | ⟨1, _⟩ => show win2_4.index t (1 : Fin 2) * 1 ≤ (i 1).val ∧ (i 1).val < win2_4.index t (1 : Fin 2) * 1 + 1; omega

theorem arrAt4R2_of (c : Dev nD) (G : Vec F S4096x1 .f32)
    (hG : ∀ t : Fin cfg2.N, t.val % 8 = 7 → ∀ r : Fin 512,
      (outsAtR2 V c t.val t.isLt).1 (ix2 r (0 : Fin 1)) = G (ix2 (⟨512 * (t.val / 8) + r.val, by have := t.isLt; have : cfg2.N = 64 := N_2; omega⟩ : Fin 4096) (0 : Fin 1))) :
    (datR2 V c).arrAt 4 cfg2.N = G :=
  (datR2 V c).arrAt_eq_of_cover 4 G (fun t hf => flushedR2_4_eq V c G hG t hf) coveredR2_4

theorem flushedR2_5_eq (c : Dev nD) (G : Vec F S4096x1 .f32)
    (hG : ∀ t : Fin cfg2.N, t.val % 8 = 7 → ∀ r : Fin 512,
      (outsAtR2 V c t.val t.isLt).2.1 (ix2 r (0 : Fin 1)) = G (ix2 (⟨512 * (t.val / 8) + r.val, by have := t.isLt; have : cfg2.N = 64 := N_2; omega⟩ : Fin 4096) (0 : Fin 1)))
    (t : Fin cfg2.N) (hf : (cfg2.win 5).flush t = true) :
    (datR2 V c).flushed 5 t = ((cfg2.win 5).blk t).view.read (Elt F) G := by
  have h7 : t.val % 8 = 7 := (flush2_5 t).mp hf
  obtain ⟨-, -, -, -, -, -, -, -, e40, e41, e50, e51⟩ := idxR2_facts t
  show (cfg2.win 5).cut (grid2.coords t) ((datR2 V c).after 5 t) = _
  rw [afterR2_5]
  funext y
  obtain ⟨r, z, rfl⟩ : ∃ (a : Fin 512) (b : Fin 1), y = ix2 a b := ⟨y 0, y 1, eq_ix2 y⟩
  obtain rfl : z = 0 := Subsingleton.elim _ _
  rw [View.read_apply]
  show (outsAtR2 V c t.val t.isLt).2.1 (ix2 r (0 : Fin 1)) = G _
  rw [hG t h7 r]
  congr 1
  funext a
  apply Fin.ext
  match a with
  | ⟨0, _⟩ => show 512 * (t.val / 8) + r.val = win2_5.index t (0 : Fin 2) * 512 + 1 * r.val; omega
  | ⟨1, _⟩ => show 0 = win2_5.index t (1 : Fin 2) * 1 + 1 * 0; omega

theorem mem_blkR2_5 (t : Fin cfg2.N) (i : S4096x1.Idx) :
    i ∈ ((cfg2.win 5).blk t).view.set ↔ ∀ a : Fin 2, win2_5.index t a * S512x1.size a ≤ (i a).val ∧ (i a).val < win2_5.index t a * S512x1.size a + S512x1.size a := by
  show i ∈ ((View.whole main_v12_1).slice (win2_5.rect t)).set ↔ _
  rw [View.set_slice_whole, Rect.mem_set_unit]
  exact Iff.rfl

theorem coveredR2_5 (i : S4096x1.Idx) :
    ∃ t : Fin cfg2.N, (cfg2.win 5).flush t = true ∧ i ∈ ((cfg2.win 5).blk t).view.set := by
  have hi0 : (i 0).val < 4096 := (i 0).isLt
  have hi1 : (i 1).val < 1 := (i 1).isLt
  have hN : cfg2.N = 64 := N_2
  obtain ⟨t, ht⟩ : ∃ t : Fin cfg2.N, t.val = 8 * ((i 0).val / 512) + 7 := ⟨⟨8 * ((i 0).val / 512) + 7, by omega⟩, rfl⟩
  obtain ⟨-, -, -, -, -, -, -, -, e40, e41, e50, e51⟩ := idxR2_facts t
  refine ⟨t, (flush2_5 t).mpr (by omega), ?_⟩
  rw [mem_blkR2_5]
  intro a
  match a with
  | ⟨0, _⟩ => show win2_5.index t (0 : Fin 2) * 512 ≤ (i 0).val ∧ (i 0).val < win2_5.index t (0 : Fin 2) * 512 + 512; omega
  | ⟨1, _⟩ => show win2_5.index t (1 : Fin 2) * 1 ≤ (i 1).val ∧ (i 1).val < win2_5.index t (1 : Fin 2) * 1 + 1; omega

theorem arrAt5R2_of (c : Dev nD) (G : Vec F S4096x1 .f32)
    (hG : ∀ t : Fin cfg2.N, t.val % 8 = 7 → ∀ r : Fin 512,
      (outsAtR2 V c t.val t.isLt).2.1 (ix2 r (0 : Fin 1)) = G (ix2 (⟨512 * (t.val / 8) + r.val, by have := t.isLt; have : cfg2.N = 64 := N_2; omega⟩ : Fin 4096) (0 : Fin 1))) :
    (datR2 V c).arrAt 5 cfg2.N = G :=
  (datR2 V c).arrAt_eq_of_cover 5 G (fun t hf => flushedR2_5_eq V c G hG t hf) coveredR2_5

end Cert.KernelIdeal.Hand

end
-- ==== Proof.KI.Val2.lean ====
/- The value of one launch's two results: per row, the largest distance over equal labels and the smallest over different
   labels, as the eight column steps' running maximum and minimum. -/
import proofs.«145578_j51728586113513_1_alg».proof.Proof.KI.Pay
import proofs.«145578_j51728586113513_1_alg».proof.Proof.KI.Blocks2
import proofs.«145578_j51728586113513_1_alg».proof.Proof.BlockFold

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (V : (c : Dev nD) → (b : Ref sig .tc) → Buf (Elt Ideal) ((c : Thread nD τ).loc b)) (c : Dev nD)
variable (tt : (⟨1, ![4096]⟩ : Shape).Idx → BitVec 32)

def rowR2 (b : ℕ) (r : Fin 512) : Fin 4096 := ⟨(512 * b + r.val) % 4096, Nat.mod_lt _ (by decide)⟩

theorem rowR2_of_lt (b : ℕ) (hb : b < 8) (r : Fin 512) : rowR2 b r = ⟨512 * b + r.val, by have := r.isLt; omega⟩ :=
  Fin.ext (Nat.mod_eq_of_lt (by have := r.isLt; omega))

def bmaxR2 (a : ℕ) (r : Fin 512) (b : ℕ) : EReal :=
  (Finset.univ : Finset (Fin 512)).fold max ⊥ fun q => if tt (ix1 (rowR2 a r)) = tt (ix1 (rowR2 b q)) then Cert.Spec.dist (V c main_arg2) (rowR2 a r) (rowR2 b q) else ⊥
def bminR2 (a : ℕ) (r : Fin 512) (b : ℕ) : EReal :=
  (Finset.univ : Finset (Fin 512)).fold min ⊤ fun q => if tt (ix1 (rowR2 a r)) = tt (ix1 (rowR2 b q)) then ⊤ else Cert.Spec.dist (V c main_arg2) (rowR2 a r) (rowR2 b q)

def accMaxR2 (a : ℕ) (r : Fin 512) : ℕ → EReal
  | 0 => max ⊥ (bmaxR2 V c tt a r 0)
  | k + 1 => max (accMaxR2 a r k) (bmaxR2 V c tt a r (k + 1))
def accMinR2 (a : ℕ) (r : Fin 512) : ℕ → EReal
  | 0 => min ⊤ (bminR2 V c tt a r 0)
  | k + 1 => min (accMinR2 a r k) (bminR2 V c tt a r (k + 1))

variable (h2 : ∀ i : Fin 4096, V c main_v10 (ix2 i (0 : Fin 1)) = tt (ix1 i)) (h3 : ∀ j : Fin 4096, V c main_v11 (ix2 (0 : Fin 1) j) = tt (ix1 j))

include h2 h3 in
theorem distBR2_eq (t : Fin cfg2.N) (r q : Fin 512) :
    distB (iblkR2 V c 0 t) (iblkR2 V c 1 t) r q = Cert.Spec.dist (V c main_arg2) (rowR2 (t.val / 8) r) (rowR2 (t.val % 8) q) := by
  have hN : t.val < 64 := lt_of_lt_of_eq t.isLt N_2
  rw [rowR2_of_lt _ (by omega), rowR2_of_lt _ (by omega)]
  unfold distB Cert.Spec.dist Cert.Spec.sqn Cert.Spec.gram
  simp only [iblkR2_0_apply, iblkR2_1_apply]

include h2 h3 in
theorem pay7R2_at (t : Fin cfg2.N) (r : Fin 512) :
    k0_pay7 (F := Ideal) (iblkR2 V c 0 t) (iblkR2 V c 1 t) (iblkR2 V c 2 t) (iblkR2 V c 3 t) (ix2 r (0 : Fin 1)) = bmaxR2 V c tt (t.val / 8) r (t.val % 8) := by
  have hN : t.val < 64 := lt_of_lt_of_eq t.isLt N_2
  rw [pay7_apply]
  unfold bmaxR2
  refine congrArg (fun f => Finset.fold _ _ f Finset.univ) (funext fun q => ?_)
  rw [distBR2_eq V c tt h2 h3 t r q, iblkR2_2_apply, iblkR2_3_apply, h2, h3, rowR2_of_lt _ (by omega : t.val / 8 < 8), rowR2_of_lt _ (by omega : t.val % 8 < 8)]

include h2 h3 in
theorem pay8R2_at (t : Fin cfg2.N) (r : Fin 512) :
    k0_pay8 (F := Ideal) (iblkR2 V c 0 t) (iblkR2 V c 1 t) (iblkR2 V c 2 t) (iblkR2 V c 3 t) (ix1 r) = bminR2 V c tt (t.val / 8) r (t.val % 8) := by
  have hN : t.val < 64 := lt_of_lt_of_eq t.isLt N_2
  rw [pay8_apply]
  unfold bminR2
  refine congrArg (fun f => Finset.fold _ _ f Finset.univ) (funext fun q => ?_)
  rw [distBR2_eq V c tt h2 h3 t r q, iblkR2_2_apply, iblkR2_3_apply, h2, h3, rowR2_of_lt _ (by omega : t.val / 8 < 8), rowR2_of_lt _ (by omega : t.val % 8 < 8)]

include h2 h3 in
theorem scratchR2_eq : ∀ (n : ℕ) (hn : n < cfg2.N) (r : Fin 512),
    (outsAtR2 V c n hn).2.2.1 (ix2 r (0 : Fin 1)) = accMaxR2 V c tt (n / 8) r (n % 8)
    ∧ (outsAtR2 V c n hn).2.2.2 (ix2 r (0 : Fin 1)) = accMinR2 V c tt (n / 8) r (n % 8) := by
  intro n
  induction n with
  | zero =>
    intro hn r
    have hA := outsAtR2_A V c ⟨0, hn⟩ (Nat.zero_mod _)
    dsimp only at hA
    rw [hA]; dsimp only [caseAR2, stepR2]
    rw [pay1_apply, pay2_apply, pay3_apply, pay4_apply, pay7R2_at V c tt h2 h3 ⟨0, hn⟩ r, pay8R2_at V c tt h2 h3 ⟨0, hn⟩ r]
    exact ⟨rfl, rfl⟩
  | succ n ih =>
    intro hn r
    have hN : n + 1 < 64 := lt_of_lt_of_eq hn N_2
    by_cases h0 : (n + 1) % 8 = 0
    · have hA := outsAtR2_A V c ⟨n + 1, hn⟩ h0
      dsimp only at hA
      rw [hA]; dsimp only [caseAR2, stepR2]
      rw [pay1_apply, pay2_apply, pay3_apply, pay4_apply, pay7R2_at V c tt h2 h3 ⟨n + 1, hn⟩ r, pay8R2_at V c tt h2 h3 ⟨n + 1, hn⟩ r]
      dsimp only
      rw [h0]
      exact ⟨rfl, rfl⟩
    · obtain ⟨ih0, ih1⟩ := ih (Nat.lt_of_succ_lt hn) r
      have hd : (n + 1) / 8 = n / 8 := by omega
      have hm : (n + 1) % 8 = n % 8 + 1 := by omega
      by_cases h1 : (n + 1) % 8 = 7
      · have hC := outsAtR2_C V c ⟨n + 1, hn⟩ h0 h1
        dsimp only at hC
        rw [hC]; dsimp only [caseCR2, stepR2]
        rw [pay1_apply, pay2_apply, pay7R2_at V c tt h2 h3 ⟨n + 1, hn⟩ r, pay8R2_at V c tt h2 h3 ⟨n + 1, hn⟩ r]
        dsimp only
        simp only [Nat.add_sub_cancel] at *
        rw [ih0, ih1, hd, hm]
        exact ⟨rfl, rfl⟩
      · have hB := outsAtR2_B V c ⟨n + 1, hn⟩ h0 h1
        dsimp only at hB
        rw [hB]; dsimp only [caseBR2, stepR2]
        rw [pay1_apply, pay2_apply, pay7R2_at V c tt h2 h3 ⟨n + 1, hn⟩ r, pay8R2_at V c tt h2 h3 ⟨n + 1, hn⟩ r]
        dsimp only
        simp only [Nat.add_sub_cancel] at *
        rw [ih0, ih1, hd, hm]
        exact ⟨rfl, rfl⟩

theorem accMaxR2_zero (a : ℕ) (r : Fin 512) : accMaxR2 V c tt a r 0 = max ⊥ (bmaxR2 V c tt a r 0) := by rw [accMaxR2]
theorem accMaxR2_succ (a : ℕ) (r : Fin 512) (k : ℕ) : accMaxR2 V c tt a r (k + 1) = max (accMaxR2 V c tt a r k) (bmaxR2 V c tt a r (k + 1)) := by rw [accMaxR2]
theorem accMinR2_zero (a : ℕ) (r : Fin 512) : accMinR2 V c tt a r 0 = min ⊤ (bminR2 V c tt a r 0) := by rw [accMinR2]
theorem accMinR2_succ (a : ℕ) (r : Fin 512) (k : ℕ) : accMinR2 V c tt a r (k + 1) = min (accMinR2 V c tt a r k) (bminR2 V c tt a r (k + 1)) := by rw [accMinR2]

theorem accMaxR2_seven (a : ℕ) (ha : a < 8) (r : Fin 512) :
    accMaxR2 V c tt a r 7 = Cert.Spec.ap (V c main_arg2) tt (rowR2 a r) := by
  refine (Cert.BlockFold.acc_max_eq (bmaxR2 V c tt a r) (accMaxR2 V c tt a r) (accMaxR2_zero V c tt a r) (accMaxR2_succ V c tt a r)).trans ?_
  unfold Cert.Spec.ap
  refine Eq.trans ?_ (Cert.BlockFold.fold_max_blocks _).symm
  refine congrArg (fun f => Finset.fold max ⊥ f Finset.univ) (funext fun b => ?_)
  unfold bmaxR2
  refine congrArg (fun f => Finset.fold max ⊥ f Finset.univ) (funext fun q => ?_)
  rw [rowR2_of_lt b.val b.isLt q]

theorem accMinR2_seven (a : ℕ) (ha : a < 8) (r : Fin 512) :
    accMinR2 V c tt a r 7 = Cert.Spec.an (V c main_arg2) tt (rowR2 a r) := by
  refine (Cert.BlockFold.acc_min_eq (bminR2 V c tt a r) (accMinR2 V c tt a r) (accMinR2_zero V c tt a r) (accMinR2_succ V c tt a r)).trans ?_
  unfold Cert.Spec.an
  refine Eq.trans ?_ (Cert.BlockFold.fold_min_blocks _).symm
  refine congrArg (fun f => Finset.fold min ⊤ f Finset.univ) (funext fun b => ?_)
  unfold bminR2
  refine congrArg (fun f => Finset.fold min ⊤ f Finset.univ) (funext fun q => ?_)
  rw [rowR2_of_lt b.val b.isLt q]

include h2 h3 in
theorem outR2_eq (t : Fin cfg2.N) (h7 : t.val % 8 = 7) (r : Fin 512) :
    (outsAtR2 V c t.val t.isLt).1 (ix2 r (0 : Fin 1)) = Cert.Spec.ap (V c main_arg2) tt (rowR2 (t.val / 8) r)
    ∧ (outsAtR2 V c t.val t.isLt).2.1 (ix2 r (0 : Fin 1)) = Cert.Spec.an (V c main_arg2) tt (rowR2 (t.val / 8) r) := by
  have hN : t.val < 64 := lt_of_lt_of_eq t.isLt N_2
  have hs := scratchR2_eq V c tt h2 h3 t.val t.isLt r
  rw [h7, accMaxR2_seven V c tt _ (by omega) r, accMinR2_seven V c tt _ (by omega) r] at hs
  have hC := outsAtR2_C V c t (by omega) h7
  rw [hC] at hs ⊢
  dsimp only [caseCR2, stepR2] at hs ⊢
  exact hs

include h2 h3 in
theorem arrAt4R2 : (datR2 V c).arrAt 4 cfg2.N = fun i => Cert.Spec.ap (V c main_arg2) tt (i 0) :=
  arrAt4R2_of V c _ fun t h7 r => by
    have hN : t.val < 64 := lt_of_lt_of_eq t.isLt N_2
    rw [(outR2_eq V c tt h2 h3 t h7 r).1, rowR2_of_lt _ (by omega)]; rfl

include h2 h3 in
theorem arrAt5R2 : (datR2 V c).arrAt 5 cfg2.N = fun i => Cert.Spec.an (V c main_arg2) tt (i 0) :=
  arrAt5R2_of V c _ fun t h7 r => by
    have hN : t.val < 64 := lt_of_lt_of_eq t.isLt N_2
    rw [(outR2_eq V c tt h2 h3 t h7 r).2, rowR2_of_lt _ (by omega)]; rfl

end Cert.KernelIdeal.Hand

end
-- ==== Proof.KI.Value.lean ====
/- The idealized kernel's result is the shared tail of the six per-row suprema and infima, and so is the reference's. -/
import proofs.«145578_j51728586113513_1_alg».proof.Proof.KI.Final
import proofs.«145578_j51728586113513_1_alg».proof.Proof.KI.Val0
import proofs.«145578_j51728586113513_1_alg».proof.Proof.KI.Val1
import proofs.«145578_j51728586113513_1_alg».proof.Proof.KI.Val2
import proofs.«145578_j51728586113513_1_alg».proof.Proof.RefSpec

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg) (c : Dev nD)

theorem hap0 : (datR0 (U1 m) c).arrAt 4 cfg0.N = fun i => Cert.Spec.ap (m ((c.tc : Thread nD τ).loc main_arg0)) (m ((c.tc : Thread nD τ).loc main_arg3)) (i 0) := by
  have h := arrAt4R0 (U1 m) c (m ((c.tc : Thread nD τ).loc main_arg3)) (U1_v0 m c) (U1_v1 m c)
  rw [U1_arg0] at h; exact h
theorem han0 : (datR0 (U1 m) c).arrAt 5 cfg0.N = fun i => Cert.Spec.an (m ((c.tc : Thread nD τ).loc main_arg0)) (m ((c.tc : Thread nD τ).loc main_arg3)) (i 0) := by
  have h := arrAt5R0 (U1 m) c (m ((c.tc : Thread nD τ).loc main_arg3)) (U1_v0 m c) (U1_v1 m c)
  rw [U1_arg0] at h; exact h
theorem hap1 : (datR1 (U3 m) c).arrAt 4 cfg1.N = fun i => Cert.Spec.ap (m ((c.tc : Thread nD τ).loc main_arg1)) (m ((c.tc : Thread nD τ).loc main_arg3)) (i 0) := by
  have h := arrAt4R1 (U3 m) c (m ((c.tc : Thread nD τ).loc main_arg3)) (U3_v5 m c) (U3_v6 m c)
  rw [U3_arg1] at h; exact h
theorem han1 : (datR1 (U3 m) c).arrAt 5 cfg1.N = fun i => Cert.Spec.an (m ((c.tc : Thread nD τ).loc main_arg1)) (m ((c.tc : Thread nD τ).loc main_arg3)) (i 0) := by
  have h := arrAt5R1 (U3 m) c (m ((c.tc : Thread nD τ).loc main_arg3)) (U3_v5 m c) (U3_v6 m c)
  rw [U3_arg1] at h; exact h
theorem hap2 : (datR2 (U5 m) c).arrAt 4 cfg2.N = fun i => Cert.Spec.ap (m ((c.tc : Thread nD τ).loc main_arg2)) (m ((c.tc : Thread nD τ).loc main_arg3)) (i 0) := by
  have h := arrAt4R2 (U5 m) c (m ((c.tc : Thread nD τ).loc main_arg3)) (U5_v10 m c) (U5_v11 m c)
  rw [U5_arg2] at h; exact h
theorem han2 : (datR2 (U5 m) c).arrAt 5 cfg2.N = fun i => Cert.Spec.an (m ((c.tc : Thread nD τ).loc main_arg2)) (m ((c.tc : Thread nD τ).loc main_arg3)) (i 0) := by
  have h := arrAt5R2 (U5 m) c (m ((c.tc : Thread nD τ).loc main_arg3)) (U5_v10 m c) (U5_v11 m c)
  rw [U5_arg2] at h; exact h

theorem W7_v25 : W7 m c (Proc.devRef .tc main_v25) = resG m c :=
  W7_v25_of m c (hap0 m c) (han0 m c) (hap1 m c) (han1 m c) (hap2 m c) (han2 m c)

theorem run_value : θ_run defs (onTc (τ := τ) (main (F := Ideal))) ⟨m, fun _ => 0, ρ⟩ (fun r => ∀ c : Dev nD,
      r.2.mem ((c.tc : Thread nD τ).loc main_v25) = resG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v25 (by decide))).trans (W7_v25 m c),
     (h c _ (mem_uc main_arg0 (by decide))).trans (W7_arg m c _ (.inl rfl)), (h c _ (mem_uc main_arg1 (by decide))).trans (W7_arg m c _ (.inr (.inl rfl))),
     (h c _ (mem_uc main_arg2 (by decide))).trans (W7_arg m c _ (.inr (.inr (.inl rfl)))), (h c _ (mem_uc main_arg3 (by decide))).trans (W7_arg m c _ (.inr (.inr (.inr rfl))))⟩) (run_all m ρ)

theorem stage_ap (f : (⟨Cert.ReferenceIdeal.S4096, .f32⟩ : BufTy).Contents (Elt Ideal)) (x : (⟨Cert.ReferenceIdeal.S4096x2048, .f32⟩ : BufTy).Contents (Elt Ideal))
    (t : (⟨Cert.ReferenceIdeal.S4096, .i32⟩ : BufTy).Contents (Elt Ideal)) (h : ∀ i : Fin 4096, f (ix1 i) = Cert.Spec.ap x t i) : f = apv x t :=
  funext fun i => by rw [eq_ix1 i]; exact h (i 0)
theorem stage_an (f : (⟨Cert.ReferenceIdeal.S4096, .f32⟩ : BufTy).Contents (Elt Ideal)) (x : (⟨Cert.ReferenceIdeal.S4096x2048, .f32⟩ : BufTy).Contents (Elt Ideal))
    (t : (⟨Cert.ReferenceIdeal.S4096, .i32⟩ : BufTy).Contents (Elt Ideal)) (h : ∀ i : Fin 4096, f (ix1 i) = Cert.Spec.an x t i) : f = anv x t :=
  funext fun i => by rw [eq_ix1 i]; exact h (i 0)

open Cert.ReferenceIdeal.RefSpec in
theorem ref_result (m' : (ℓ : Loc Cert.ReferenceIdeal.nD Cert.ReferenceIdeal.τ Cert.ReferenceIdeal.sig) → Buf (Elt Ideal) ℓ)
    (hagree : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)) :
    Cert.ReferenceIdeal.Value.res_main_v69 (F := Ideal) m' c = resG m c := by
  show Cert.ReferenceIdeal.Value.res_out0 (F := Ideal) m' c = resG m c
  rw [Cert.ReferenceIdeal.RefSpec.res_eq, hagree.1, hagree.2.1, hagree.2.2.1, hagree.2.2.2]
  rw [stage_ap _ _ _ (v20_eq _ _), stage_ap _ _ _ (v38_eq _ _), stage_ap _ _ _ (v56_eq _ _),
    stage_an _ _ _ (v22_eq _ _), stage_an _ _ _ (v40_eq _ _), stage_an _ _ _ (v58_eq _ _)]
  rfl

end Cert.KernelIdeal.Hand

end
-- ==== Proof.lean ====
/- The triplet-mining loss kernel against its reference over the extended reals: per matrix and row, the largest distance
   to a row of the same label and the smallest to a row of another label, by tiles with a running maximum and minimum
   on one side and over whole rows on the other; the two fill values read as the infinities they stand for. -/
import proofs.«145578_j51728586113513_1_alg».proof.Defs
import proofs.«145578_j51728586113513_1_alg».proof.Proof.Gen.Kernel
import proofs.«145578_j51728586113513_1_alg».proof.Proof.Gen.KernelIdeal
import proofs.«145578_j51728586113513_1_alg».proof.Proof.Gen.ReferenceIdeal
import proofs.«145578_j51728586113513_1_alg».proof.Proof.Gen.Pre_finite_inputs
import proofs.«145578_j51728586113513_1_alg».proof.Proof.Gen.ReferenceIdeal.Run
import proofs.«145578_j51728586113513_1_alg».proof.Proof.K.Frame
import proofs.«145578_j51728586113513_1_alg».proof.Proof.KI.Value
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ
theorem frame_ki : Cert.frame_KernelIdeal (hKernelIdeal := Cert.KernelIdeal.Gen.facts) (hPre_finite_inputs := Cert.Pre_finite_inputs.Gen.facts) :=
  fun m ρ _ => Cert.KernelIdeal.Hand.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal :=
  ⟨(IdealRules.named_const.statement Cert.KernelIdeal.κ "neg_big" .f32 0xF149F2CA#32 ⊥ rfl), (IdealRules.named_const.statement Cert.KernelIdeal.κ "pos_big" .f32 0x7149F2CA#32 ⊤ rfl), (IdealRules.named_const.statement Cert.KernelIdeal.κ "neg_big" .f32 0xF149F2CA#32 ⊥ rfl), (IdealRules.named_const.statement Cert.KernelIdeal.κ "pos_big" .f32 0x7149F2CA#32 ⊤ rfl), (IdealRules.named_const.statement Cert.KernelIdeal.κ "neg_big" .f32 0xF149F2CA#32 ⊥ rfl), (IdealRules.named_const.statement Cert.KernelIdeal.κ "pos_big" .f32 0x7149F2CA#32 ⊤ rfl),
   (IdealRules.named_const.statement Cert.KernelIdeal.κ "neg_big" .f32 0xF149F2CA#32 ⊥ rfl), (IdealRules.named_const.statement Cert.KernelIdeal.κ "pos_big" .f32 0x7149F2CA#32 ⊤ rfl), (IdealRules.named_const.statement Cert.KernelIdeal.κ "neg_big" .f32 0xF149F2CA#32 ⊥ rfl), (IdealRules.named_const.statement Cert.KernelIdeal.κ "pos_big" .f32 0x7149F2CA#32 ⊤ rfl), (IdealRules.named_const.statement Cert.KernelIdeal.κ "neg_big" .f32 0xF149F2CA#32 ⊥ rfl), (IdealRules.named_const.statement Cert.KernelIdeal.κ "pos_big" .f32 0x7149F2CA#32 ⊤ rfl)⟩

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Hand.resG m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  exact Cert.KernelIdeal.Hand.ref_result m c m' (hagree c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
